-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg7 : IVec S800000 32) (main_v33 : IVec S_ 1) : IVec S_ 1 :=
  let main_c_12 : IVec S_ 32 := constantI S_ 32 0#32
  let main_v34 : IVec S800000 32 := broadcastInDim S800000 ![] bcast_S_S800000 main_c_12
  let main_v35 : IVec S800000 1 := cmpi .sge main_arg7 main_v34
  let main_c_13 : IVec S_ 32 := constantI S_ 32 50000#32
  let main_v36 : IVec S800000 32 := broadcastInDim S800000 ![] bcast_S_S800000 main_c_13
  let main_v37 : IVec S800000 1 := cmpi .slt main_arg7 main_v36
  let main_v38 : IVec S800000 1 := andi main_v35 main_v37
  let main_c_14 : IVec S_ 1 := constantI S_ 1 1#1
  let main_v39 : IVec S_ 1 := (fun x v => Host.reduce IntOp.andi x v reducesTo_S800000_S_d0 h_S_) main_v38 main_c_14
  let main_v40 : IVec S_ 1 := andi main_v33 main_v39
  main_v40

def fn_part1 {F : FTy → Type} [FloatOps F] (main_arg4 : FVec F S128 .f32) (main_arg5 : FVec F S64x128 .f32) (main_arg6 : FVec F S64 .f32) (main_arg7 : IVec S800000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S64x128 .f32) (main_arg6 : FVec F S64 .f32) (main_arg7 : IVec S800000 32) (main_arg8 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S50000x128 : Shape := ⟨2, ![50000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S800000 : Shape := ⟨1, ![800000]⟩
abbrev S1x800000 : Shape := ⟨2, ![1, 800000]⟩
abbrev S800000x128 : Shape := ⟨2, ![800000, 128]⟩
abbrev S1x3200 : Shape := ⟨2, ![1, 3200]⟩
abbrev S1000x128 : Shape := ⟨2, ![1000, 128]⟩
abbrev S3200x128 : Shape := ⟨2, ![3200, 128]⟩
abbrev S1000x3200 : Shape := ⟨2, ![1000, 3200]⟩
abbrev S1x128 : Shape := ⟨2, ![1, 128]⟩
abbrev S128x64 : Shape := ⟨2, ![128, 64]⟩
abbrev S1x64 : Shape := ⟨2, ![1, 64]⟩
abbrev S50000x64 : Shape := ⟨2, ![50000, 64]⟩
abbrev S1000x64 : Shape := ⟨2, ![1000, 64]⟩

abbrev nBuf : Space → Nat
  | .hbm => 26
  | .vmem => 54
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S800000, .i32⟩
  | .hbm, ⟨8, _⟩ => ⟨S800000, .i32⟩
  | .hbm, ⟨9, _⟩ => ⟨S1x800000, .i32⟩
  | .hbm, ⟨10, _⟩ => ⟨S1x800000, .i32⟩
  | .hbm, ⟨11, _⟩ => ⟨S50000x128, .bf16⟩
  | .hbm, ⟨12, _⟩ => ⟨S800000x128, .bf16⟩
  | .hbm, ⟨13, _⟩ => ⟨S128x128, .f32⟩
  | .hbm, ⟨14, _⟩ => ⟨S1x128, .f32⟩
  | .hbm, ⟨15, _⟩ => ⟨S50000x128, .f32⟩
  | .hbm, ⟨16, _⟩ => ⟨S50000x128, .bf16⟩
  | .hbm, ⟨17, _⟩ => ⟨S800000x128, .bf16⟩
  | .hbm, ⟨18, _⟩ => ⟨S128x128, .f32⟩
  | .hbm, ⟨19, _⟩ => ⟨S1x128, .f32⟩
  | .hbm, ⟨20, _⟩ => ⟨S50000x128, .f32⟩
  | .hbm, ⟨21, _⟩ => ⟨S50000x128, .bf16⟩
  | .hbm, ⟨22, _⟩ => ⟨S800000x128, .bf16⟩
  | .hbm, ⟨23, _⟩ => ⟨S128x64, .f32⟩
  | .hbm, ⟨24, _⟩ => ⟨S1x64, .f32⟩
  | .hbm, ⟨25, _⟩ => ⟨S50000x64, .f32⟩
  | .local _ .vmem, ⟨0, _⟩ => ⟨S1x3200, .i32⟩
  | .local _ .vmem, ⟨1, _⟩ => ⟨S1x3200, .i32⟩
  | .local _ .vmem, ⟨2, _⟩ => ⟨S1000x128, .bf16⟩
  | .local _ .vmem, ⟨3, _⟩ => ⟨S1000x128, .bf16⟩
  | .local _ .vmem, ⟨4, _⟩ => ⟨S3200x128, .bf16⟩
  | .local _ .vmem, ⟨5, _⟩ => ⟨S3200x128, .bf16⟩
  | .local _ .vmem, ⟨6, _⟩ => ⟨S3200x128, .f32⟩
  | .local _ .vmem, ⟨7, _⟩ => ⟨S1x3200, .i32⟩
  | .local _ .vmem, ⟨8, _⟩ => ⟨S1x3200, .i32⟩
  | .local _ .vmem, ⟨9, _⟩ => ⟨S3200x128, .bf16⟩
  | .local _ .vmem, ⟨10, _⟩ => ⟨S3200x128, .bf16⟩
  | .local _ .vmem, ⟨11, _⟩ => ⟨S1000x128, .f32⟩
  | .local _ .vmem, ⟨12, _⟩ => ⟨S1000x128, .f32⟩
  | .local _ .vmem, ⟨13, _⟩ => ⟨S128x128, .f32⟩
  | .local _ .vmem, ⟨14, _⟩ => ⟨S1x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S1x3200, .i32⟩
  | .local _ .vmem, ⟨19, _⟩ => ⟨S1x3200, .i32⟩
  | .local _ .vmem, ⟨20, _⟩ => ⟨S1000x128, .bf16⟩
  | .local _ .vmem, ⟨21, _⟩ => ⟨S1000x128, .bf16⟩
  | .local _ .vmem, ⟨22, _⟩ => ⟨S3200x128, .bf16⟩
  | .local _ .vmem, ⟨23, _⟩ => ⟨S3200x128, .bf16⟩
  | .local _ .vmem, ⟨24, _⟩ => ⟨S3200x128, .f32⟩
  | .local _ .vmem, ⟨25, _⟩ => ⟨S1x3200, .i32⟩
  | .local _ .vmem, ⟨26, _⟩ => ⟨S1x3200, .i32⟩
  | .local _ .vmem, ⟨27, _⟩ => ⟨S3200x128, .bf16⟩
  | .local _ .vmem, ⟨28, _⟩ => ⟨S3200x128, .bf16⟩
  | .local _ .vmem, ⟨29, _⟩ => ⟨S1000x128, .f32⟩
  | .local _ .vmem, ⟨30, _⟩ => ⟨S1000x128, .f32⟩
  | .local _ .vmem, ⟨31, _⟩ => ⟨S128x128, .f32⟩
  | .local _ .vmem, ⟨32, _⟩ => ⟨S1x128, .f32⟩
  | .local _ .vmem, ⟨33, _⟩ => ⟨S1000x128, .f32⟩
  | .local _ .vmem, ⟨34, _⟩ => ⟨S1000x128, .f32⟩
  | .local _ .vmem, ⟨35, _⟩ => ⟨S1000x128, .f32⟩
  | .local _ .vmem, ⟨36, _⟩ => ⟨S1x3200, .i32⟩
  | .local _ .vmem, ⟨37, _⟩ => ⟨S1x3200, .i32⟩
  | .local _ .vmem, ⟨38, _⟩ => ⟨S1000x128, .bf16⟩
  | .local _ .vmem, ⟨39, _⟩ => ⟨S1000x128, .bf16⟩
  | .local _ .vmem, ⟨40, _⟩ => ⟨S3200x128, .bf16⟩
  | .local _ .vmem, ⟨41, _⟩ => ⟨S3200x128, .bf16⟩
  | .local _ .vmem, ⟨42, _⟩ => ⟨S3200x128, .f32⟩
  | .local _ .vmem, ⟨43, _⟩ => ⟨S1x3200, .i32⟩
  | .local _ .vmem, ⟨44, _⟩ => ⟨S1x3200, .i32⟩
  | .local _ .vmem, ⟨45, _⟩ => ⟨S3200x128, .bf16⟩
  | .local _ .vmem, ⟨46, _⟩ => ⟨S3200x128, .bf16⟩
  | .local _ .vmem, ⟨47, _⟩ => ⟨S1000x128, .f32⟩
  | .local _ .vmem, ⟨48, _⟩ => ⟨S1000x128, .f32⟩
  | .local _ .vmem, ⟨49, _⟩ => ⟨S128x64, .f32⟩
  | .local _ .vmem, ⟨50, _⟩ => ⟨S1x64, .f32⟩
  | .local _ .vmem, ⟨51, _⟩ => ⟨S1000x64, .f32⟩
  | .local _ .vmem, ⟨52, _⟩ => ⟨S1000x64, .f32⟩
  | .local _ .vmem, ⟨53, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_scratch0 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg2_1 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg5_1 : Ref sig .tc := ⟨.vmem, 52, rfl⟩
abbrev cc5_scratch0 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem4_0 : DmaSem sig := 45
abbrev cc5_sem5_0 : DmaSem sig := 46
abbrev cc5_sem5_1 : DmaSem sig := 47

abbrev nD : Nat := 1
abbrev τ : Topo := Topo.v7x

variable {F : FTy → Type} [FloatOps F]

abbrev grid0 : Pipeline.Grid := ⟨2, ![250, 50], ![false, false]⟩

def k0_cond2 (i : grid0.Coords) : BitVec 1 :=
  let arg1 : BitVec 32 := BitVec.ofNat 32 (i 1).val
  let c49_i32 : BitVec 32 := 49#32
  let v22 : BitVec 1 := Scalar.cmpi .eq arg1 c49_i32
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x3200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3200x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![50, 250], ![false, false]⟩

def k1_cond2 (i : grid1.Coords) : BitVec 1 :=
  let arg1 : BitVec 32 := BitVec.ofNat 32 (i 1).val
  let c249_i32 : BitVec 32 := 249#32
  let v22 : BitVec 1 := Scalar.cmpi .eq arg1 c249_i32
  let v23 : BitVec 32 := Scalar.extui v22
  let c0_i32_8 : BitVec 32 := 0#32
  let v24 : BitVec 1 := Scalar.cmpi .ne v23 c0_i32_8
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x3200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S3200x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![250, 50], ![false, false]⟩

def k2_cond2 (i : grid2.Coords) : BitVec 1 :=
  let arg1 : BitVec 32 := BitVec.ofNat 32 (i 1).val
  let c49_i32 : BitVec 32 := 49#32
  let v22 : BitVec 1 := Scalar.cmpi .eq arg1 c49_i32
  let v23 : BitVec 32 := Scalar.extui v22
  let c0_i32_8 : BitVec 32 := 0#32
  let v24 : BitVec 1 := Scalar.cmpi .ne v23 c0_i32_8
  v24

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x3200 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S3200x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![50, 250], ![false, false]⟩

def k3_cond2 (i : grid3.Coords) : BitVec 1 :=
  let arg1 : BitVec 32 := BitVec.ofNat 32 (i 1).val
  let c249_i32 : BitVec 32 := 249#32
  let v22 : BitVec 1 := Scalar.cmpi .eq arg1 c249_i32
  let v23 : BitVec 32 := Scalar.extui v22
  let c0_i32_8 : BitVec 32 := 0#32
  let v24 : BitVec 1 := Scalar.cmpi .ne v23 c0_i32_8
  v24

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x3200 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S3200x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev grid4 : Pipeline.Grid := ⟨2, ![250, 50], ![false, false]⟩

def k4_cond2 (i : grid4.Coords) : BitVec 1 :=
  let arg1 : BitVec 32 := BitVec.ofNat 32 (i 1).val
  let c49_i32 : BitVec 32 := 49#32
  let v22 : BitVec 1 := Scalar.cmpi .eq arg1 c49_i32
  let v23 : BitVec 32 := Scalar.extui v22
  let c0_i32_8 : BitVec 32 := 0#32
  let v24 : BitVec 1 := Scalar.cmpi .ne v23 c0_i32_8
  v24

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1x3200 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S3200x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![50, 250], ![false, false]⟩

def k5_cond2 (i : grid5.Coords) : BitVec 1 :=
  let arg1 : BitVec 32 := BitVec.ofNat 32 (i 1).val
  let c249_i32 : BitVec 32 := 249#32
  let v22 : BitVec 1 := Scalar.cmpi .eq arg1 c249_i32
  let v23 : BitVec 32 := Scalar.extui v22
  let c0_i32_8 : BitVec 32 := 0#32
  let v24 : BitVec 1 := Scalar.cmpi .ne v23 c0_i32_8
  v24

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x3200 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S3200x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 1 → Memref sig .tc .vmem S128x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 2 → Memref sig .tc .vmem S1000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

class Facts₀ : Prop where
  shapeCasts_S800000_S1x800000 : S800000.ShapeCasts S1x800000
  bitsLt_bf16_f32 : FTy.bits .bf16 < FTy.bits .f32
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  iota_S1000x3200_d0_w32 : S1000x3200.Iotas .tc 32 [0]
  broadcasts_S1x3200_S1000x3200 : S1x3200.Broadcasts S1000x3200
  natLt_1_32 : 1 < 32
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  packedbf16_S3200x128_S3200x128_0_0 : (Rect.unit (s := S3200x128) ![0, 0] S3200x128.size inb_S3200x128_S3200x128_0_0).PackedRows (EltTy.packing .bf16)
  transposes_S128x128_S128x128_1_0 : S128x128.Transposes [1, 0] S128x128
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  dot_S1000x3200_S1000x128_S3200x128_0_0_1_1_n_n_wf : DotDims.WF S1000x3200 S1000x128 S3200x128 [0] [0] [1] [1] [] []
  dot_S1000x3200_S3200x128_S1000x128_1_0_0_1_n_n_wf : DotDims.WF S1000x3200 S3200x128 S1000x128 [1] [0] [0] [1] [] []
  dot_S1000x128_S128x128_S1000x128_1_0_0_1_n_n_wf : DotDims.WF S1000x128 S128x128 S1000x128 [1] [0] [0] [1] [] []
  dot_S1000x128_S128x64_S1000x64_1_0_0_1_n_n_wf : DotDims.WF S1000x128 S128x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3200.size a ≤ S1x800000.size a
  hwx0_0 : ∀ i : grid0.Coords, EltTy.bits .i32 = 32 ∨ (Rect.block (s := S1x800000) S1x3200.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .bf16 = 32 ∨ (Rect.block (s := S50000x128) S1000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x128.size a ≤ S800000x128.size a
  hwx0_2 : ∀ i : grid0.Coords, EltTy.bits .bf16 = 32 ∨ (Rect.block (s := S800000x128) S3200x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3200.size a ≤ S1x800000.size a
  hwx1_0 : ∀ i : grid1.Coords, EltTy.bits .i32 = 32 ∨ (Rect.block (s := S1x800000) S1x3200.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x128.size a ≤ S800000x128.size a
  hwx1_1 : ∀ i : grid1.Coords, EltTy.bits .bf16 = 32 ∨ (Rect.block (s := S800000x128) S3200x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S50000x128.size a
  hwx1_2 : ∀ i : grid1.Coords, EltTy.bits .f32 = 32 ∨ (Rect.block (s := S50000x128) S1000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S50000x128.size a
  hwx1_5 : ∀ i : grid1.Coords, EltTy.bits .f32 = 32 ∨ (Rect.block (s := S50000x128) S1000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x3200.size a ≤ S1x800000.size a
  hwx2_0 : ∀ i : grid2.Coords, EltTy.bits .i32 = 32 ∨ (Rect.block (s := S1x800000) S1x3200.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S50000x128.size a
  hwx2_1 : ∀ i : grid2.Coords, EltTy.bits .bf16 = 32 ∨ (Rect.block (s := S50000x128) S1000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3200x128.size a ≤ S800000x128.size a
  hwx2_2 : ∀ i : grid2.Coords, EltTy.bits .bf16 = 32 ∨ (Rect.block (s := S800000x128) S3200x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x3200.size a ≤ S1x800000.size a
  hwx3_0 : ∀ i : grid3.Coords, EltTy.bits .i32 = 32 ∨ (Rect.block (s := S1x800000) S1x3200.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3200x128.size a ≤ S800000x128.size a
  hwx3_1 : ∀ i : grid3.Coords, EltTy.bits .bf16 = 32 ∨ (Rect.block (s := S800000x128) S3200x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x128.size a ≤ S50000x128.size a
  hwx3_2 : ∀ i : grid3.Coords, EltTy.bits .f32 = 32 ∨ (Rect.block (s := S50000x128) S1000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x128.size a ≤ S50000x128.size a
  hwx3_5 : ∀ i : grid3.Coords, EltTy.bits .f32 = 32 ∨ (Rect.block (s := S50000x128) S1000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x3200.size a ≤ S1x800000.size a
  hwx4_0 : ∀ i : grid4.Coords, EltTy.bits .i32 = 32 ∨ (Rect.block (s := S1x800000) S1x3200.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x128.size a ≤ S50000x128.size a
  hwx4_1 : ∀ i : grid4.Coords, EltTy.bits .bf16 = 32 ∨ (Rect.block (s := S50000x128) S1000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S3200x128.size a ≤ S800000x128.size a
  hwx4_2 : ∀ i : grid4.Coords, EltTy.bits .bf16 = 32 ∨ (Rect.block (s := S800000x128) S3200x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x3200.size a ≤ S1x800000.size a
  hwx5_0 : ∀ i : grid5.Coords, EltTy.bits .i32 = 32 ∨ (Rect.block (s := S1x800000) S1x3200.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S3200x128.size a ≤ S800000x128.size a
  hwx5_1 : ∀ i : grid5.Coords, EltTy.bits .bf16 = 32 ∨ (Rect.block (s := S800000x128) S3200x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x128.size a ≤ S50000x128.size a
  hwx5_2 : ∀ i : grid5.Coords, EltTy.bits .f32 = 32 ∨ (Rect.block (s := S50000x128) S1000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x64.size a ≤ S128x64.size a
  hwx5_3 : ∀ i : grid5.Coords, EltTy.bits .f32 = 32 ∨ (Rect.block (s := S128x64) S128x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1000x64.size a ≤ S50000x64.size a
  hwx5_5 : ∀ i : grid5.Coords, EltTy.bits .f32 = 32 ∨ (Rect.block (s := S50000x64) S1000x64.size (cc5_transform_5 i) (hinb5_5 i)).WholeWords (EltTy.packing .f32)

variable [Facts₀]

def dot_S1000x3200_S1000x128_S3200x128_0_0_1_1_n_n : DotDims S1000x3200 S1000x128 S3200x128 where
  lhsContracting := [0]
  rhsContracting := [0]
  lhsNonContracting := [1]
  rhsNonContracting := [1]
  lhsBatch := []
  rhsBatch := []
  wf := dot_S1000x3200_S1000x128_S3200x128_0_0_1_1_n_n_wf
def dot_S1000x3200_S3200x128_S1000x128_1_0_0_1_n_n : DotDims S1000x3200 S3200x128 S1000x128 where
  lhsContracting := [1]
  rhsContracting := [0]
  lhsNonContracting := [0]
  rhsNonContracting := [1]
  lhsBatch := []
  rhsBatch := []
  wf := dot_S1000x3200_S3200x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

abbrev win0_0 : Pipeline.Window sig grid0 :=
  Pipeline.Window.ofSpec (Memref.whole main_v0) S1x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S3200x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S1x3200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S3200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v0) S1x3200.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S3200x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v1) S1x3200.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S3200x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v9) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v10) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v11) S1000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

abbrev win4_0 : Pipeline.Window sig grid4 :=
  Pipeline.Window.ofSpec (Memref.whole main_v0) S1x3200.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S1000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v13) S3200x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v1) S1x3200.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v13) S3200x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S1000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v14) S128x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v15) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v16) S1000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev idle5 : Fin 6 → grid5.Coords → Bool := fun | 0 => fun _ => false | 1 => fun _ => false | 2 => fun _ => false | 3 => fun _ => false | 4 => fun _ => false | 5 => fun i => !(k5_cond2 i == 1#1) | ⟨_ + 6, h⟩ => absurd h (Nat.not_lt.2 (Nat.le_add_left _ _))

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 75
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x128, .f32⟩
  | .hbm, ⟨23, _⟩ => ⟨S128x128, .f32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x128, .f32⟩
  | .hbm, ⟨45, _⟩ => ⟨S128x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S50000x128, .f32⟩
  | .hbm, ⟨67, _⟩ => ⟨S128x64, .f32⟩
  | .hbm, ⟨68, _⟩ => ⟨S50000x64, .f32⟩
  | .hbm, ⟨69, _⟩ => ⟨S1x64, .f32⟩
  | .hbm, ⟨70, _⟩ => ⟨S50000x64, .f32⟩
  | .hbm, ⟨71, _⟩ => ⟨S50000x64, .f32⟩
  | .hbm, ⟨72, _⟩ => ⟨S_, .f32⟩
  | .hbm, ⟨73, _⟩ => ⟨S50000x64, .f32⟩
  | .hbm, ⟨74, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_cst : Ref sig .tc := ⟨.hbm, 28, rfl⟩
abbrev main_call0_v0 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call1_cst : Ref sig .tc := ⟨.hbm, 50, rfl⟩
abbrev main_call1_v0 : Ref sig .tc := ⟨.hbm, 51, rfl⟩
abbrev main_v33 : Ref sig .tc := ⟨.hbm, 52, rfl⟩
abbrev main_c_4 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call2_cst : Ref sig .tc := ⟨.hbm, 72, rfl⟩
abbrev main_call2_v0 : Ref sig .tc := ⟨.hbm, 73, rfl⟩
abbrev main_v50 : Ref sig .tc := ⟨.hbm, 74, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.K.Gather.lean ====
import proofs.«430694_j29257317220564_2_alg».proof.Proof.Gen.Kernel.Skeleton
import proofs.«430694_j29257317220564_2_alg».proof.Proof.Gen.Kernel.Launch
import Idealize.ShloMosaic.Lib.Tactic
import Idealize.ShloMosaic.Lib.Pipeline.Kit
import Idealize.ShloMosaic.Lib.Pipeline.Frame
import Idealize.ShloMosaic.Lib.Pipeline.FrameBody
import Idealize.ShloMosaic.Lib.Pipeline.Value

noncomputable section

namespace Cert.Kernel.Gather

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

/-- Set at the points whose node block is the first. -/
def cond1 (i : grid0.Coords) : BitVec 1 :=
  Scalar.cmpi .ne (Scalar.extui (Scalar.cmpi .eq (BitVec.ofNat 32 (i 1).val) 0#32)) 0#32

/-- The accumulator after a point: the one before it (zeros at the first node block) plus the point's selector product. -/
def accStep (i : grid0.Coords) (s : Vec F S1x3200 .i32) (x : Vec F S1000x128 .bf16) (a : Vec F S3200x128 .f32) :
    FVec F S3200x128 .f32 :=
  k0_pay2 i s x (if cond1 i = 1#1 then k0_pay1 else a)

/-- The message block after a point: the narrowed accumulator at the last node block, otherwise as found. -/
def outStep (i : grid0.Coords) (s : Vec F S1x3200 .i32) (x : Vec F S1000x128 .bf16) (o : Vec F S3200x128 .bf16)
    (a : Vec F S3200x128 .f32) : Vec F S3200x128 .bf16 :=
  if k0_cond2 i = 1#1 then k0_pay3 (accStep i s x a) else o

abbrev rAcc : Rect S3200x128 := Rect.unit (s := S3200x128) ![0, 0] S3200x128.size inb_S3200x128_S3200x128_0_0

theorem off0 : (![0, 0] : Fin 2 → ℕ) = fun _ => 0 := funext fun a => by fin_cases a <;> rfl

theorem cover_head {e : EltTy} (w : S3200x128.Idx → Elt F e) (L : List (View.Piece (Elt F) S3200x128 e)) (y : S3200x128.Idx) :
    ∃ pc ∈ ((⟨rAcc, w⟩ : View.Piece (Elt F) S3200x128 e) :: L), y ∈ pc.1.set := by
  obtain ⟨p, hp, hy⟩ := View.cover_of_tiled [(⟨rAcc, w⟩ : View.Piece (Elt F) S3200x128 e)] S3200x128.size (by rfl) y
  rw [List.mem_singleton] at hp; subst hp
  exact ⟨_, List.mem_cons_self, hy⟩

theorem readCov_head {κ : Kind} {sp : Space} {e : EltTy} (v : View sig κ sp S3200x128 e) (w : S3200x128.Idx → Elt F e)
    (L : List (View.Piece (Elt F) S3200x128 e)) :
    v.readCov ((⟨rAcc, w⟩ : View.Piece (Elt F) S3200x128 e) :: L) rAcc.toLoadRect = w := by
  rw [View.readCov_eq_canon_ld _ _ _ (cover_head w L), View.canon_cons_unit_zero off0, View.ld_unit_zero off0]

/-- One point of the body on whole buffers: inputs unchanged, accumulator at `accStep`, message block at `outStep`. -/
theorem sound_kernel (c : Dev nD) (i : grid0.Coords)
    (arg2 : Memref sig .tc .vmem S1x3200 .i32) (harg2 : arg2.IsWhole) (arg3 : Memref sig .tc .vmem S1000x128 .bf16) (harg3 : arg3.IsWhole)
    (arg4 : Memref sig .tc .vmem S3200x128 .bf16) (harg4 : arg4.IsWhole) (arg5 : Memref sig .tc .vmem S3200x128 .f32) (harg5 : arg5.IsWhole)
    (s : Vec F S1x3200 .i32) (x : Vec F S1000x128 .bf16) (o : Vec F S3200x128 .bf16) (a : Vec F S3200x128 .f32)
    (K : PUnit → sProp 𝕄) :
    iprop(owns (c : Thread nD τ) arg2 fullShare s ∗ owns (c : Thread nD τ) arg3 fullShare x
        ∗ owns (c : Thread nD τ) arg4 fullShare o ∗ owns (c : Thread nD τ) arg5 fullShare a
        ∗ (iprop(owns (c : Thread nD τ) arg2 fullShare s ∗ owns (c : Thread nD τ) arg3 fullShare x
            ∗ owns (c : Thread nD τ) arg4 fullShare (outStep i s x o a) ∗ owns (c : Thread nD τ) arg5 fullShare (accStep i s x a)) -∗ K ⟨⟩))
      ⊢ wp frame (wpE (defs₀ (F := F)) Variants.none c none) Set.univ
          (cc0__phaseA_kernel i arg2 harg2 arg3 harg3 arg4 harg4 arg5 harg5) K := by
  simp only [cc0__phaseA_kernel_eq_skeleton]; unfold cc0__phaseA_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  by_cases h1 : cond1 i = 1#1 <;> by_cases h2 : k0_cond2 i = 1#1
  all_goals
    sl_exec (disch := first | exact h1 | exact h2)
    sl_step
    iapply Hk
    isplitl [H2]
    · iexists f2; isplitr
      · ipureintro; rfl
      · iexact H2
    isplitl [H3]
    · iexists f3; isplitr
      · ipureintro; rfl
      · iexact H3
    isplitl [H4]
    · iexists _; isplitr
      swap
      · iexact H4
      ipureintro
      sl_unfold_words
      unfold outStep accStep
      first
        | (rw [if_pos h2, if_pos h1, View.read_writes_eq_canon _ _ _ (cover_head _ _), View.canon_cons_unit_zero off0, readCov_head,
            readCov_head]
           simp only [View.readAt_eq_ld, View.ld_unit_zero (S := S1x3200) off0, View.ld_unit_zero (S := S1000x128) off0])
        | (rw [if_pos h2, if_neg h1, View.read_writes_eq_canon _ _ _ (cover_head _ _), View.canon_cons_unit_zero off0, readCov_head]
           simp only [View.readAt_eq_ld, View.ld_unit_zero (S := S1x3200) off0, View.ld_unit_zero (S := S1000x128) off0,
             View.ld_unit_zero (S := S3200x128) off0])
        | rw [if_neg h2]
    · iexists _; isplitr
      swap
      · iexact H5
      ipureintro
      sl_unfold_words
      unfold accStep
      first
        | (rw [if_pos h1, View.read_writes_eq_canon _ _ _ (cover_head _ _), View.canon_cons_unit_zero off0, readCov_head]
           simp only [View.readAt_eq_ld, View.ld_unit_zero (S := S1x3200) off0, View.ld_unit_zero (S := S1000x128) off0])
        | (rw [if_neg h1, View.read_writes_eq_canon _ _ _ (cover_head _ _), View.canon_cons_unit_zero off0]
           simp only [View.readAt_eq_ld, View.ld_unit_zero (S := S1x3200) off0, View.ld_unit_zero (S := S1000x128) off0,
             View.ld_unit_zero (S := S3200x128) off0])

theorem coord1 (t : Fin cfg0.N) : (grid0.coords t 1).val = t.val % 50 := by
  show t.val / grid0.stride 1 % 50 = t.val % 50
  rw [show grid0.stride 1 = 1 from by decide, Nat.div_one]

theorem cond1_coord : ∀ k : Fin 50, Scalar.cmpi .ne (Scalar.extui (Scalar.cmpi .eq (BitVec.ofNat 32 k.val) 0#32)) 0#32 = 1#1 ↔ k.val = 0 := by
  decide
theorem cond2_coord : ∀ k : Fin 50, Scalar.cmpi .ne (Scalar.extui (Scalar.cmpi .eq (BitVec.ofNat 32 k.val) 49#32)) 0#32 = 1#1 ↔ k.val = 49 := by
  decide

theorem cond1_iff (t : Fin cfg0.N) : cond1 (grid0.coords t) = 1#1 ↔ t.val % 50 = 0 := by
  rw [← coord1 t]; exact cond1_coord (grid0.coords t 1)

theorem cond2_iff (t : Fin cfg0.N) : k0_cond2 (grid0.coords t) = 1#1 ↔ t.val % 50 = 49 := by
  rw [← coord1 t]; exact cond2_coord (grid0.coords t 1)

theorem accStep_first {i : grid0.Coords} (h : cond1 i = 1#1) (s : Vec F S1x3200 .i32) (x : Vec F S1000x128 .bf16)
    (a a' : Vec F S3200x128 .f32) : accStep i s x a = accStep i s x a' := by
  unfold accStep; rw [if_pos h, if_pos h]

theorem coord0 (t : Fin cfg0.N) : (grid0.coords t 0).val = t.val / 50 % 250 := by
  show t.val / grid0.stride 0 % 250 = t.val / 50 % 250
  rw [show grid0.stride 0 = 50 from by decide]

/-- Off the last node block of an edge block the next point has the same edge block. -/
theorem coord0_succ (t : Fin cfg0.N) (hl : t.val + 1 < grid0.N) (h : t.val % 50 ≠ 49) :
    grid0.coords ⟨t.val + 1, hl⟩ 0 = grid0.coords t 0 := by
  apply Fin.ext
  rw [coord0 ⟨t.val + 1, hl⟩, coord0 t]
  show (t.val + 1) / 50 % 250 = t.val / 50 % 250
  rw [show (t.val + 1) / 50 = t.val / 50 by omega]

/-- The gather body, its payloads and its write-back condition, under names that carry no region index. -/
abbrev kernel := cc0__phaseA_kernel (F := F)
abbrev pay1 : FVec F S3200x128 .f32 := k0_pay1
abbrev pay2 := k0_pay2 (F := F)
abbrev pay3 := k0_pay3 (F := F)
abbrev cond2 := k0_cond2

end Cert.Kernel.Gather

end
-- ==== Proof.K.R0.lean ====
import proofs.«430694_j29257317220564_2_alg».proof.Proof.Gen.Kernel.Skeleton
import proofs.«430694_j29257317220564_2_alg».proof.Proof.Gen.Kernel.Launch
import proofs.«430694_j29257317220564_2_alg».proof.Proof.K.Gather
import Idealize.ShloMosaic.Lib.Tactic
import Idealize.ShloMosaic.Lib.Pipeline.Kit
import Idealize.ShloMosaic.Lib.Pipeline.Frame
import Idealize.ShloMosaic.Lib.Pipeline.FrameBody
import Idealize.ShloMosaic.Lib.Pipeline.Value

noncomputable section

namespace Cert.Kernel.R0

open Cert.Kernel Cert.Kernel.Gen Cert.Kernel.Gather
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

section Data

variable (c : Dev nD) (W : (b : Ref sig .tc) → Buf (Elt F) ((c : Thread nD τ).loc b))

def blk (w : Fin cfg0.W) (t : Fin cfg0.N) : ((cfg0.win w).xblock (cfg0.grid.coords t)).Idx → Elt F (cfg0.win w).elt :=
  ((cfg0.win w).blk t).view.read (Elt F) (W (Pipeline.arrRef spec0 w))

def pt (n : ℕ) : Fin cfg0.N := ⟨n % 12500, Nat.mod_lt _ (by decide)⟩

theorem pt_val (t : Fin cfg0.N) : pt t.val = t := Fin.ext (Nat.mod_eq_of_lt t.isLt)

def acc : ℕ → FVec F S3200x128 .f32
  | 0 => accStep (grid0.coords (pt 0)) (blk c W 0 (pt 0)) (blk c W 1 (pt 0)) pay1
  | n + 1 => accStep (grid0.coords (pt (n + 1))) (blk c W 0 (pt (n + 1))) (blk c W 1 (pt (n + 1))) (acc n)

abbrev scM : Memref sig .tc .vmem S3200x128 .f32 := Memref.whole cc0_scratch0

def PhiS : ℕ → sProp 𝕄
  | 0 => Pipeline.scopedRest (Ix := Unit) (Name := ℕ) (U := UR sig nD τ) (Lvl := ℕ) (Val := Elt F) spec0 c
  | n + 1 => iprop(owns (c : Thread nD τ) scM fullShare (acc c W n)
      ∗ Pipeline.scopedRestBut (Ix := Unit) (Name := ℕ) (U := UR sig nD τ) (Lvl := ℕ) (Val := Elt F) spec0 c [cc0_scratch0])

def dat : Dat τ (Elt F) Unit ℕ (UR sig nD τ) ℕ cfg0 c where
  A w := W (Pipeline.arrRef spec0 w)
  after w t := match w with
    | ⟨0, _⟩ => blk c W 0 t
    | ⟨1, _⟩ => blk c W 1 t
    | ⟨2, _⟩ => pay3 (acc c W t.val)
  Φ t := PhiS c W t.val
  q _ := fullShare
  owed _ := 0

theorem PhiS_succ (n : ℕ) : PhiS c W (n + 1) = iprop(owns (c : Thread nD τ) scM fullShare (acc c W n)
      ∗ Pipeline.scopedRestBut (Ix := Unit) (Name := ℕ) (U := UR sig nD τ) (Lvl := ℕ) (Val := Elt F) spec0 c [cc0_scratch0]) := rfl

theorem A_eq (w : Fin cfg0.W) : (dat c W).A w = W (Pipeline.arrRef spec0 w) := by dsimp only [dat]
theorem after_0 (t : Fin cfg0.N) : (dat c W).after 0 t = blk c W 0 t := by dsimp only [dat]
theorem after_1 (t : Fin cfg0.N) : (dat c W).after 1 t = blk c W 1 t := by dsimp only [dat]
theorem after_2 (t : Fin cfg0.N) : (dat c W).after 2 t = pay3 (acc c W t.val) := by dsimp only [dat]

theorem before_0 (t : Fin cfg0.N) (d) : (dat c W).before 0 t d = blk c W 0 t :=
  ((dat c W).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (t : Fin cfg0.N) (d) : (dat c W).before 1 t d = blk c W 1 t :=
  ((dat c W).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)

theorem Phi_castSucc (t : Fin cfg0.N) : (dat c W).Φ t.castSucc = PhiS c W t.val := by
  dsimp only [dat]; simp only [Fin.coe_castSucc]
theorem Phi_succ (t : Fin cfg0.N) : (dat c W).Φ t.succ = PhiS c W (t.val + 1) := by
  dsimp only [dat]; simp only [Fin.val_succ]

theorem acc_step (t : Fin cfg0.N) (a : Vec F S3200x128 .f32) (ha : t.val % 50 ≠ 0 → a = acc c W (t.val - 1)) :
    accStep (grid0.coords t) (blk c W 0 t) (blk c W 1 t) a = acc c W t.val := by
  obtain ⟨n, hn⟩ := t
  cases n with
  | zero =>
    show _ = accStep (grid0.coords (pt 0)) (blk c W 0 (pt 0)) (blk c W 1 (pt 0)) pay1
    rw [show (pt 0 : Fin cfg0.N) = ⟨0, hn⟩ from pt_val ⟨0, hn⟩]
    exact accStep_first ((cond1_iff ⟨0, hn⟩).mpr rfl) _ _ _ _
  | succ n =>
    show _ = accStep (grid0.coords (pt (n + 1))) (blk c W 0 (pt (n + 1))) (blk c W 1 (pt (n + 1))) (acc c W n)
    rw [show (pt (n + 1) : Fin cfg0.N) = ⟨n + 1, hn⟩ from pt_val ⟨n + 1, hn⟩]
    by_cases h0 : (n + 1) % 50 = 0
    · exact accStep_first ((cond1_iff ⟨n + 1, hn⟩).mpr h0) _ _ _ _
    · rw [ha h0]; rfl

end Data

abbrev st_0 (t : Fin cfg0.N) := (cfg0.win 0).stage (cfg0.slots t 0)
abbrev st_1 (t : Fin cfg0.N) := (cfg0.win 1).stage (cfg0.slots t 1)
abbrev st_2 (t : Fin cfg0.N) := (cfg0.win 2).stage (cfg0.slots t 2)

abbrev bodyAt (t : Fin cfg0.N) : Prog (TpuEff nD τ sig (Elt F) Λ₀ .tc) PUnit :=
  kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (Memref.whole cc0_scratch0) (Memref.isWhole_whole _)

theorem no_flush (t : Fin cfg0.N) (h : t.val % 50 ≠ 49) : (cfg0.win 2).flush t = false := by
  have hN : grid0.N = 12500 := N_0
  have hlt : t.val < 12500 := hN ▸ t.isLt
  rw [Pipeline.Window.flush_eq_flushOf]
  unfold Pipeline.Window.flushOf
  have h1 : ¬ (t.val + 1 = grid0.N) := by rw [hN]; omega
  have h2 : ¬ ∃ hl : t.val + 1 < grid0.N,
      (cfg0.win 2).indexMap (grid0.coords ⟨t.val + 1, hl⟩) ≠ (cfg0.win 2).indexMap (grid0.coords t) := by
    rintro ⟨hl, hne⟩
    apply hne
    show cc0_transform_2 _ = cc0_transform_2 _
    refine hreads0_2 _ _ fun a ha => ?_
    match a, ha with
    | ⟨0, _⟩, _ => exact coord0_succ t hl h
    | ⟨1, _⟩, ha => exact (Bool.false_ne_true ha).elim
  simp [h1, h2]

section Body

variable (c : Dev nD) (W : (b : Ref sig .tc) → Buf (Elt F) ((c : Thread nD τ).loc b))

theorem PhiS_open (t : Fin cfg0.N) :
    PhiS c W t.val ⊢ (iprop(∃ a : Vec F S3200x128 .f32, ⌜t.val % 50 ≠ 0 → a = acc c W (t.val - 1)⌝
      ∗ owns (c : Thread nD τ) scM fullShare a
      ∗ Pipeline.scopedRestBut (Ix := Unit) (Name := ℕ) (U := UR sig nD τ) (Lvl := ℕ) (Val := Elt F) spec0 c [cc0_scratch0]) : sProp 𝕄) := by
  obtain ⟨n, hn⟩ := t
  cases n with
  | zero =>
    show Pipeline.scopedRest (Ix := Unit) (Name := ℕ) (U := UR sig nD τ) (Lvl := ℕ) (Val := Elt F) spec0 c ⊢ _
    rw [scopedRest0_split]
    iintro ⟨⟨%f, Hf⟩, Hr⟩
    iexists f
    isplitr
    · ipureintro; intro h; exact absurd rfl h
    isplitl [Hf]
    · rw [owns_whole]; iexact Hf
    · iexact Hr
  | succ n =>
    show PhiS c W (n + 1) ⊢ _
    rw [PhiS_succ]
    iintro ⟨Ha, Hr⟩
    iexists acc c W n
    isplitr
    · ipureintro; intro _; rfl
    isplitl [Ha]
    · iexact Ha
    · iexact Hr

def bodyPre (t : Fin cfg0.N) : sProp 𝕄 :=
  iprop((dat c W).Φ t.castSucc ∗ (dat c W).owesAt () t.castSucc
    ∗ (∃ d, owns (c : Thread nD τ) (st_0 t) fullShare ((dat c W).before 0 t d))
    ∗ (∃ d, owns (c : Thread nD τ) (st_1 t) fullShare ((dat c W).before 1 t d))
    ∗ (∃ d, owns (c : Thread nD τ) (st_2 t) fullShare ((dat c W).before 2 t d)))

def bodyPost (t : Fin cfg0.N) : sProp 𝕄 :=
  iprop((dat c W).Φ t.succ ∗ (dat c W).owesAt () t.succ
    ∗ owns (c : Thread nD τ) (st_0 t) fullShare ((dat c W).after 0 t)
    ∗ owns (c : Thread nD τ) (st_1 t) fullShare ((dat c W).after 1 t)
    ∗ (dat c W).leavesExact 2 t)

/-- What the point leaves in the message window's buffer is what the proof data say: written at the last node block, kept otherwise. -/
theorem leaves_2 (t : Fin cfg0.N) (d2) (a : Vec F S3200x128 .f32)
    (e : accStep (grid0.coords t) (blk c W 0 t) (blk c W 1 t) a = acc c W t.val) :
    owns (c : Thread nD τ) (st_2 t) fullShare
        (outStep (grid0.coords t) (blk c W 0 t) (blk c W 1 t) ((dat c W).before 2 t d2) a)
      ⊢ (dat c W).leavesExact 2 t := by
  unfold outStep
  by_cases h2 : cond2 (grid0.coords t) = 1#1
  · have hi : cfg0.idle 2 (cfg0.grid.coords t) = false := by
      show (!(cond2 (grid0.coords t) == 1#1)) = false
      rw [h2]; rfl
    have hL : (dat c W).leavesExact 2 t = owns (c : Thread nD τ) (st_2 t) fullShare ((dat c W).after 2 t) := by
      unfold Dat.leavesExact; rw [hi]
    rw [hL, after_2, if_pos h2, e]
  · have hi : cfg0.idle 2 (cfg0.grid.coords t) = true := by
      show (!(cond2 (grid0.coords t) == 1#1)) = true
      simp [h2]
    rw [(dat c W).leavesExact_idle 2 t hi (no_flush t fun h49 => h2 ((cond2_iff t).mpr h49)), if_neg h2]
    iintro H; iexists d2; iexact H

/-- The body at any point: the buffers hold their blocks and the accumulator so far, so the body's triple applies. -/
theorem sound_body (t : Fin cfg0.N) :
    bodyPre c W t ⊢ wp frame (wpE (defs₀ (F := F)) Variants.none c none) Set.univ (bodyAt t) (fun _ => bodyPost c W t) := by
  unfold bodyPre bodyPost bodyAt
  simp only [before_0, before_1]
  rw [Phi_castSucc, Phi_succ, after_0, after_1, show (dat c W).owesAt () t.succ = (dat c W).owesAt () t.castSucc from rfl]
  iintro ⟨HΦ, Ho, ⟨%d0, H0⟩, ⟨%d1, H1⟩, ⟨%d2, H2⟩⟩
  ihave HΦ' := (PhiS_open c W t) $$ HΦ
  icases HΦ' with ⟨%a, %ha, Ha, Hr⟩
  have e := acc_step c W t a ha
  iapply (sound_kernel c (grid0.coords t) _ _ _ _ _ _ scM (Memref.isWhole_whole _) (blk c W 0 t) (blk c W 1 t) ((dat c W).before 2 t d2) a _)
  isplitl [H0]; · iexact H0
  isplitl [H1]; · iexact H1
  isplitl [H2]; · iexact H2
  isplitl [Ha]; · iexact Ha
  iintro ⟨H0, H1, H2, Ha⟩
  rw [e, PhiS_succ]
  isplitl [Ha Hr]
  · isplitl [Ha]; · iexact Ha
    iexact Hr
  isplitl [Ho]; · iexact Ho
  isplitl [H0]; · iexact H0
  isplitl [H1]; · iexact H1
  iapply (leaves_2 c W t d2 a e); iexact H2

theorem body_obligation : BodyObligation (dat (F := F) c W) (defs₀ (F := F)) Variants.none () Set.univ := fun t => by
  rw [bigSep_W0, bigSep_W0]
  exact sound_body c W t

theorem Phi_last : (dat c W).Φ (Fin.last cfg0.N)
    ⊢ (Pipeline.scopedRest (Ix := Unit) (Name := ℕ) (U := UR sig nD τ) (Lvl := ℕ) (Val := Elt F) spec0 c : sProp 𝕄) := by
  show PhiS c W (12499 + 1) ⊢ _
  rw [PhiS_succ, scopedRest0_split]
  iintro ⟨Ha, Hr⟩
  isplitl [Ha]
  · unfold owns
    icases Ha with ⟨%f, -, Hf⟩
    iexists f
    simp only [Memref.view_whole, View.set_whole]
    iexact Hf
  · iexact Hr

end Body

end Cert.Kernel.R0

end
-- ==== Proof.K.Scatter.lean ====
import proofs.«430694_j29257317220564_2_alg».proof.Proof.Gen.Kernel.Skeleton
import proofs.«430694_j29257317220564_2_alg».proof.Proof.Gen.Kernel.Launch
import Idealize.ShloMosaic.Lib.Tactic
import Idealize.ShloMosaic.Lib.Pipeline.Kit
import Idealize.ShloMosaic.Lib.Pipeline.Frame
import Idealize.ShloMosaic.Lib.Pipeline.FrameBody
import Idealize.ShloMosaic.Lib.Pipeline.Value

noncomputable section

namespace Cert.Kernel.Scatter

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

/-- The first two scatter bodies, their payloads and their write-back condition, under names that carry no region index. -/
abbrev kernel := cc1__phaseBC_kernel (F := F)
abbrev pay1 : FVec F S1000x128 .f32 := k1_pay1
abbrev pay2 := k1_pay2 (F := F)
abbrev pay3 := k1_pay3 (F := F)
abbrev cond2 := k1_cond2

/-- The second scatter body's last payload reshapes its input to the shape it already has: it is the first body's. -/
theorem pay3_eq3 (x a : Vec F S1000x128 .f32) (wt : Vec F S128x128 .f32) (b : Vec F S1x128 .f32) :
    k3_pay3 x a wt b = pay3 x a wt b := by
  unfold k3_pay3 pay3 k1_pay3
  simp only [shapeCast_self]

theorem kernel1_eq : cc1__phaseBC_kernel (F := F) = kernel := rfl

/-- So the second scatter body is the first. -/
theorem kernel3_eq : cc3__phaseBC_kernel (F := F) = kernel := by
  show cc3__phaseBC_kernel_skel (F := F) = cc1__phaseBC_kernel_skel (F := F)
  unfold cc3__phaseBC_kernel_skel cc1__phaseBC_kernel_skel
  simp only [pay3_eq3]
  rfl

theorem off0 : (![0, 0] : Fin 2 → ℕ) = fun _ => 0 := funext fun a => by fin_cases a <;> rfl

section Whole
variable {Val : EltTy → Type} [∀ e, Nonempty (Val e)] {m n : ℕ} {e : EltTy} {sg : RefSig} {κ : Kind} {sp : Space}
  (v : View sg κ sp ⟨2, ![m, n]⟩ e) (inb : ∀ a, (![0, 0] : Fin 2 → ℕ) a + ![m, n] a ≤ ![m, n] a)
  (w : Shape.Idx ⟨2, ![m, n]⟩ → Val e) (L : List (View.Piece Val ⟨2, ![m, n]⟩ e))

/-- A load of a whole two-axis buffer reads its contents. -/
theorem ld_whole : View.ld w (Rect.unit ![0, 0] ![m, n] inb) = w := View.ld_unit_zero off0 inb w

/-- A store of the whole buffer, latest in a list of stores, covers every index; -/
theorem cover_head (y : Shape.Idx ⟨2, ![m, n]⟩) : ∃ pc ∈ ((⟨Rect.unit ![0, 0] ![m, n] inb, w⟩ : View.Piece Val _ e) :: L), y ∈ pc.1.set :=
  ⟨_, List.mem_cons_self, View.mem_set_unit_zero off0 inb y⟩

/-- so the buffer then reads as what it stored, -/
theorem read_head (f : v.ty.Contents Val) : v.read Val (v.writes Val f (⟨Rect.unit ![0, 0] ![m, n] inb, w⟩ :: L)) = w := by
  rw [View.read_writes_eq_canon _ _ _ (cover_head inb w L), View.canon_cons_unit_zero off0]

/-- and so does a load of the whole buffer. -/
theorem readCov_head : v.readCov (⟨Rect.unit ![0, 0] ![m, n] inb, w⟩ :: L) (Rect.unit ![0, 0] ![m, n] inb).toLoadRect = w := by
  rw [View.readCov_eq_canon_ld _ _ _ (cover_head inb w L), View.canon_cons_unit_zero off0, View.ld_unit_zero off0]

end Whole

/-- Contents held through a memref are owned at whatever the memref reads of them. -/
theorem owns_of_read (c : Thread nD τ) {sp : Space} {sh : Shape} {e : EltTy} (m : Memref sig c.2.kind sp sh e) (q : PosShare TreeShare)
    (f : m.view.ty.Contents (Elt F)) {X : sh.Idx → Elt F e} (hX : m.view.read (Elt F) f = X) :
    (m.view.loc c ↦[m.view.set]{q} f : sProp 𝕄) ⊢ iprop(∃ g, ⌜m.view.read (Elt F) g = X⌝ ∗ (m.view.loc c ↦[m.view.set]{q} g)) := by
  subst hX; exact owns_intro c m q f

def cond1 (i : grid1.Coords) : BitVec 1 :=
  Scalar.cmpi .ne (Scalar.extui (Scalar.cmpi .eq (BitVec.ofNat 32 (i 1).val) 0#32)) 0#32

/-- The accumulator after a point: the one before it (zeros at the first edge block) plus the point's product. -/
def accStep (i : grid1.Coords) (s : Vec F S1x3200 .i32) (mg : Vec F S3200x128 .bf16) (a : Vec F S1000x128 .f32) :
    FVec F S1000x128 .f32 :=
  k1_pay2 i s mg (if cond1 i = 1#1 then k1_pay1 else a)

/-- The output block after a point: at the last edge block the layer applied to the node rows plus the accumulator. -/
def outStep (i : grid1.Coords) (s : Vec F S1x3200 .i32) (mg : Vec F S3200x128 .bf16) (x : Vec F S1000x128 .f32)
    (wt : Vec F S128x128 .f32) (b : Vec F S1x128 .f32) (o : Vec F S1000x128 .f32) (a : Vec F S1000x128 .f32) :
    Vec F S1000x128 .f32 :=
  if k1_cond2 i = 1#1 then k1_pay3 x (accStep i s mg a) wt b else o

/-- One point of the body on whole buffers: inputs unchanged, accumulator at `accStep`, output block at `outStep`. -/
theorem sound_kernel (c : Dev nD) (i : grid1.Coords)
    (arg2 : Memref sig .tc .vmem S1x3200 .i32) (harg2 : arg2.IsWhole) (arg3 : Memref sig .tc .vmem S3200x128 .bf16) (harg3 : arg3.IsWhole)
    (arg4 : Memref sig .tc .vmem S1000x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1000x128 .f32) (harg7 : arg7.IsWhole)
    (arg8 : Memref sig .tc .vmem S1000x128 .f32) (harg8 : arg8.IsWhole)
    (s : Vec F S1x3200 .i32) (mg : Vec F S3200x128 .bf16) (x : Vec F S1000x128 .f32) (wt : Vec F S128x128 .f32)
    (b : Vec F S1x128 .f32) (o : Vec F S1000x128 .f32) (a : Vec F S1000x128 .f32)
    (K : PUnit → sProp 𝕄) :
    iprop(owns (c : Thread nD τ) arg2 fullShare s ∗ owns (c : Thread nD τ) arg3 fullShare mg
        ∗ owns (c : Thread nD τ) arg4 fullShare x ∗ owns (c : Thread nD τ) arg5 fullShare wt
        ∗ owns (c : Thread nD τ) arg6 fullShare b ∗ owns (c : Thread nD τ) arg7 fullShare o
        ∗ owns (c : Thread nD τ) arg8 fullShare a
        ∗ (iprop(owns (c : Thread nD τ) arg2 fullShare s ∗ owns (c : Thread nD τ) arg3 fullShare mg
            ∗ owns (c : Thread nD τ) arg4 fullShare x ∗ owns (c : Thread nD τ) arg5 fullShare wt
            ∗ owns (c : Thread nD τ) arg6 fullShare b
            ∗ owns (c : Thread nD τ) arg7 fullShare (outStep i s mg x wt b o a)
            ∗ owns (c : Thread nD τ) arg8 fullShare (accStep i s mg a)) -∗ K ⟨⟩))
      ⊢ wp frame (wpE (defs₀ (F := F)) Variants.none c none) Set.univ
          (cc1__phaseBC_kernel i arg2 harg2 arg3 harg3 arg4 harg4 arg5 harg5 arg6 harg6 arg7 harg7 arg8 harg8) K := by
  simp only [cc1__phaseBC_kernel_eq_skeleton]; unfold cc1__phaseBC_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  by_cases h1 : cond1 i = 1#1 <;> by_cases h2 : k1_cond2 i = 1#1
  all_goals
    sl_exec (disch := first | exact h1 | exact h2)
    sl_step
    iapply Hk
    isplitl [H2]; · iapply owns_of_read _ _ _ _ rfl $$ H2
    isplitl [H3]; · iapply owns_of_read _ _ _ _ rfl $$ H3
    isplitl [H4]; · iapply owns_of_read _ _ _ _ rfl $$ H4
    isplitl [H5]; · iapply owns_of_read _ _ _ _ rfl $$ H5
    isplitl [H6]; · iapply owns_of_read _ _ _ _ rfl $$ H6
    isplitl [H7]
    · iapply owns_of_read _ _ _ _ ?_ $$ H7
      sl_unfold_words; unfold outStep accStep
      simp (disch := first | exact h1 | exact h2) only [if_pos, if_neg, read_head, readCov_head, View.readAt_eq_ld, ld_whole]
    · iapply owns_of_read _ _ _ _ ?_ $$ H8
      sl_unfold_words; unfold accStep
      simp (disch := exact h1) only [if_pos, if_neg, read_head, readCov_head, View.readAt_eq_ld, ld_whole]

theorem coord1 (t : Fin cfg1.N) : (grid1.coords t 1).val = t.val % 250 := by
  show t.val / grid1.stride 1 % 250 = t.val % 250
  rw [show grid1.stride 1 = 1 from by decide, Nat.div_one]

theorem cond1_coord : ∀ k : Fin 250, Scalar.cmpi .ne (Scalar.extui (Scalar.cmpi .eq (BitVec.ofNat 32 k.val) 0#32)) 0#32 = 1#1 ↔ k.val = 0 := by
  decide
theorem cond2_coord : ∀ k : Fin 250, Scalar.cmpi .ne (Scalar.extui (Scalar.cmpi .eq (BitVec.ofNat 32 k.val) 249#32)) 0#32 = 1#1 ↔ k.val = 249 := by
  decide

theorem cond1_iff (t : Fin cfg1.N) : cond1 (grid1.coords t) = 1#1 ↔ t.val % 250 = 0 := by
  rw [← coord1 t]; exact cond1_coord (grid1.coords t 1)

theorem cond2_iff (t : Fin cfg1.N) : k1_cond2 (grid1.coords t) = 1#1 ↔ t.val % 250 = 249 := by
  rw [← coord1 t]; exact cond2_coord (grid1.coords t 1)

theorem accStep_first {i : grid1.Coords} (h : cond1 i = 1#1) (s : Vec F S1x3200 .i32) (mg : Vec F S3200x128 .bf16)
    (a a' : Vec F S1000x128 .f32) : accStep i s mg a = accStep i s mg a' := by
  unfold accStep; rw [if_pos h, if_pos h]

theorem coord0 (t : Fin cfg1.N) : (grid1.coords t 0).val = t.val / 250 % 50 := by
  show t.val / grid1.stride 0 % 50 = t.val / 250 % 50
  rw [show grid1.stride 0 = 250 from by decide]

/-- Off the last edge block of a node block the next point has the same node block. -/
theorem coord0_succ (t : Fin cfg1.N) (hl : t.val + 1 < grid1.N) (h : t.val % 250 ≠ 249) :
    grid1.coords ⟨t.val + 1, hl⟩ 0 = grid1.coords t 0 := by
  apply Fin.ext
  rw [coord0 ⟨t.val + 1, hl⟩, coord0 t]
  show (t.val + 1) / 250 % 50 = t.val / 250 % 50
  rw [show (t.val + 1) / 250 = t.val / 250 by omega]

end Cert.Kernel.Scatter

end
-- ==== Proof.K.R1.lean ====
import proofs.«430694_j29257317220564_2_alg».proof.Proof.Gen.Kernel.Skeleton
import proofs.«430694_j29257317220564_2_alg».proof.Proof.Gen.Kernel.Launch
import proofs.«430694_j29257317220564_2_alg».proof.Proof.K.Scatter
import Idealize.ShloMosaic.Lib.Tactic
import Idealize.ShloMosaic.Lib.Pipeline.Kit
import Idealize.ShloMosaic.Lib.Pipeline.Frame
import Idealize.ShloMosaic.Lib.Pipeline.FrameBody
import Idealize.ShloMosaic.Lib.Pipeline.Value

noncomputable section

namespace Cert.Kernel.R1

open Cert.Kernel Cert.Kernel.Gen Cert.Kernel.Scatter
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

section Data

variable (c : Dev nD) (W : (b : Ref sig .tc) → Buf (Elt F) ((c : Thread nD τ).loc b))

def blk (w : Fin cfg1.W) (t : Fin cfg1.N) : ((cfg1.win w).xblock (cfg1.grid.coords t)).Idx → Elt F (cfg1.win w).elt :=
  ((cfg1.win w).blk t).view.read (Elt F) (W (Pipeline.arrRef spec1 w))

def pt (n : ℕ) : Fin cfg1.N := ⟨n % 12500, Nat.mod_lt _ (by decide)⟩

theorem pt_val (t : Fin cfg1.N) : pt t.val = t := Fin.ext (Nat.mod_eq_of_lt t.isLt)

/-- The accumulator after point `n`. -/
def acc : ℕ → FVec F S1000x128 .f32
  | 0 => accStep (grid1.coords (pt 0)) (blk c W 0 (pt 0)) (blk c W 1 (pt 0)) pay1
  | n + 1 => accStep (grid1.coords (pt (n + 1))) (blk c W 0 (pt (n + 1))) (blk c W 1 (pt (n + 1))) (acc n)

abbrev scM : Memref sig .tc .vmem S1000x128 .f32 := Memref.whole cc1_scratch0

def PhiS : ℕ → sProp 𝕄
  | 0 => Pipeline.scopedRest (Ix := Unit) (Name := ℕ) (U := UR sig nD τ) (Lvl := ℕ) (Val := Elt F) spec1 c
  | n + 1 => iprop(owns (c : Thread nD τ) scM fullShare (acc c W n)
      ∗ Pipeline.scopedRestBut (Ix := Unit) (Name := ℕ) (U := UR sig nD τ) (Lvl := ℕ) (Val := Elt F) spec1 c [cc1_scratch0])

def dat : Dat τ (Elt F) Unit ℕ (UR sig nD τ) ℕ cfg1 c where
  A w := W (Pipeline.arrRef spec1 w)
  after w t := match w with
    | ⟨0, _⟩ => blk c W 0 t
    | ⟨1, _⟩ => blk c W 1 t
    | ⟨2, _⟩ => blk c W 2 t
    | ⟨3, _⟩ => blk c W 3 t
    | ⟨4, _⟩ => blk c W 4 t
    | ⟨5, _⟩ => pay3 (blk c W 2 t) (acc c W t.val) (blk c W 3 t) (blk c W 4 t)
  Φ t := PhiS c W t.val
  q _ := fullShare
  owed _ := 0

theorem PhiS_succ (n : ℕ) : PhiS c W (n + 1) = iprop(owns (c : Thread nD τ) scM fullShare (acc c W n)
      ∗ Pipeline.scopedRestBut (Ix := Unit) (Name := ℕ) (U := UR sig nD τ) (Lvl := ℕ) (Val := Elt F) spec1 c [cc1_scratch0]) := rfl

theorem A_eq (w : Fin cfg1.W) : (dat c W).A w = W (Pipeline.arrRef spec1 w) := by dsimp only [dat]
theorem after_0 (t : Fin cfg1.N) : (dat c W).after 0 t = blk c W 0 t := by dsimp only [dat]
theorem after_1 (t : Fin cfg1.N) : (dat c W).after 1 t = blk c W 1 t := by dsimp only [dat]
theorem after_2 (t : Fin cfg1.N) : (dat c W).after 2 t = blk c W 2 t := by dsimp only [dat]
theorem after_3 (t : Fin cfg1.N) : (dat c W).after 3 t = blk c W 3 t := by dsimp only [dat]
theorem after_4 (t : Fin cfg1.N) : (dat c W).after 4 t = blk c W 4 t := by dsimp only [dat]
theorem after_5 (t : Fin cfg1.N) :
    (dat c W).after 5 t = pay3 (blk c W 2 t) (acc c W t.val) (blk c W 3 t) (blk c W 4 t) := by dsimp only [dat]

theorem before_in (t : Fin cfg1.N) : (∀ d, (dat c W).before 0 t d = blk c W 0 t) ∧ (∀ d, (dat c W).before 1 t d = blk c W 1 t)
    ∧ (∀ d, (dat c W).before 2 t d = blk c W 2 t) ∧ (∀ d, (dat c W).before 3 t d = blk c W 3 t)
    ∧ (∀ d, (dat c W).before 4 t d = blk c W 4 t) := by
  refine ⟨fun d => ?_, fun d => ?_, fun d => ?_, fun d => ?_, fun d => ?_⟩
  all_goals
    refine ((dat c W).before_in_eq_fetched _ rfl (fun _ => rfl) (fun _ _ _ => rfl) (fun t => ?_) t d).trans ?_
    · simp only [after_0, after_1, after_2, after_3, after_4]; unfold Dat.blockOf blk; rw [A_eq]; try rfl
    · unfold Dat.fetched Dat.blockOf blk; rw [A_eq]; try rfl

theorem Phi_castSucc (t : Fin cfg1.N) : (dat c W).Φ t.castSucc = PhiS c W t.val := by
  dsimp only [dat]; simp only [Fin.coe_castSucc]
theorem Phi_succ (t : Fin cfg1.N) : (dat c W).Φ t.succ = PhiS c W (t.val + 1) := by
  dsimp only [dat]; simp only [Fin.val_succ]

theorem acc_step (t : Fin cfg1.N) (a : Vec F S1000x128 .f32) (ha : t.val % 250 ≠ 0 → a = acc c W (t.val - 1)) :
    accStep (grid1.coords t) (blk c W 0 t) (blk c W 1 t) a = acc c W t.val := by
  have hp := pt_val t
  rcases h : t.val with _ | n <;> rw [h] at hp ha <;> unfold acc <;> rw [hp]
  · exact accStep_first ((cond1_iff t).mpr (by rw [h])) _ _ _ _
  · by_cases h0 : (n + 1) % 250 = 0
    · exact accStep_first ((cond1_iff t).mpr (by rw [h]; exact h0)) _ _ _ _
    · rw [ha h0]; rfl

end Data

abbrev st_0 (t : Fin cfg1.N) := (cfg1.win 0).stage (cfg1.slots t 0)
abbrev st_1 (t : Fin cfg1.N) := (cfg1.win 1).stage (cfg1.slots t 1)
abbrev st_2 (t : Fin cfg1.N) := (cfg1.win 2).stage (cfg1.slots t 2)
abbrev st_3 (t : Fin cfg1.N) := (cfg1.win 3).stage (cfg1.slots t 3)
abbrev st_4 (t : Fin cfg1.N) := (cfg1.win 4).stage (cfg1.slots t 4)
abbrev st_5 (t : Fin cfg1.N) := (cfg1.win 5).stage (cfg1.slots t 5)

/-- Before the last edge block of a node block the next point has the same node block, so the output block stays. -/
theorem no_flush (t : Fin cfg1.N) (h : t.val % 250 ≠ 249) : (cfg1.win 5).flush t = false := by
  have hlt : t.val < 12500 := N_1 ▸ t.isLt
  rw [Pipeline.Window.flush_eq_flushOf]
  unfold Pipeline.Window.flushOf
  have h1 : ¬ (t.val + 1 = grid1.N) := by rw [N_1]; omega
  have h2 : ¬ ∃ hl : t.val + 1 < grid1.N,
      (cfg1.win 5).indexMap (grid1.coords ⟨t.val + 1, hl⟩) ≠ (cfg1.win 5).indexMap (grid1.coords t) := by
    rintro ⟨hl, hne⟩
    refine hne (hreads1_5 _ _ fun a ha => ?_)
    match a, ha with
    | ⟨0, _⟩, _ => exact coord0_succ t hl h
    | ⟨1, _⟩, ha => exact (Bool.false_ne_true ha).elim
  simp [h1, h2]

section Body

variable (c : Dev nD) (W : (b : Ref sig .tc) → Buf (Elt F) ((c : Thread nD τ).loc b))

theorem PhiS_open (t : Fin cfg1.N) :
    PhiS c W t.val ⊢ (iprop(∃ a : Vec F S1000x128 .f32, ⌜t.val % 250 ≠ 0 → a = acc c W (t.val - 1)⌝
      ∗ owns (c : Thread nD τ) scM fullShare a
      ∗ Pipeline.scopedRestBut (Ix := Unit) (Name := ℕ) (U := UR sig nD τ) (Lvl := ℕ) (Val := Elt F) spec1 c [cc1_scratch0]) : sProp 𝕄) := by
  rcases h : t.val with _ | n
  · unfold PhiS; rw [scopedRest1_split]
    iintro ⟨⟨%f, Hf⟩, Hr⟩
    iexists f; rw [owns_whole]; iframe Hf Hr
    ipureintro; exact fun h => absurd rfl h
  · rw [PhiS_succ]
    iintro ⟨Ha, Hr⟩
    iexists acc c W n; iframe Ha Hr
    ipureintro; exact fun _ => rfl

def bodyPre (t : Fin cfg1.N) : sProp 𝕄 :=
  iprop((dat c W).Φ t.castSucc ∗ (dat c W).owesAt () t.castSucc
    ∗ (∃ d, owns (c : Thread nD τ) (st_0 t) fullShare ((dat c W).before 0 t d))
    ∗ (∃ d, owns (c : Thread nD τ) (st_1 t) fullShare ((dat c W).before 1 t d))
    ∗ (∃ d, owns (c : Thread nD τ) (st_2 t) fullShare ((dat c W).before 2 t d))
    ∗ (∃ d, owns (c : Thread nD τ) (st_3 t) fullShare ((dat c W).before 3 t d))
    ∗ (∃ d, owns (c : Thread nD τ) (st_4 t) fullShare ((dat c W).before 4 t d))
    ∗ (∃ d, owns (c : Thread nD τ) (st_5 t) fullShare ((dat c W).before 5 t d)))

def bodyPost (t : Fin cfg1.N) : sProp 𝕄 :=
  iprop((dat c W).Φ t.succ ∗ (dat c W).owesAt () t.succ
    ∗ owns (c : Thread nD τ) (st_0 t) fullShare ((dat c W).after 0 t)
    ∗ owns (c : Thread nD τ) (st_1 t) fullShare ((dat c W).after 1 t)
    ∗ owns (c : Thread nD τ) (st_2 t) fullShare ((dat c W).after 2 t)
    ∗ owns (c : Thread nD τ) (st_3 t) fullShare ((dat c W).after 3 t)
    ∗ owns (c : Thread nD τ) (st_4 t) fullShare ((dat c W).after 4 t)
    ∗ (dat c W).leavesExact 5 t)

/-- What the body leaves in the output block's buffer is what the region is owed there: the layer's rows at the last
    edge block, and before it the buffer as found. -/
theorem out_leaves (t : Fin cfg1.N) (d) (a : Vec F S1000x128 .f32)
    (e : accStep (grid1.coords t) (blk c W 0 t) (blk c W 1 t) a = acc c W t.val) :
    owns (c : Thread nD τ) (st_5 t) fullShare (outStep (grid1.coords t) (blk c W 0 t) (blk c W 1 t) (blk c W 2 t) (blk c W 3 t)
        (blk c W 4 t) ((dat c W).before 5 t d) a) ⊢ ((dat c W).leavesExact 5 t : sProp 𝕄) := by
  unfold outStep
  by_cases h2 : cond2 (grid1.coords t) = 1#1
  · have hi : cfg1.idle 5 (cfg1.grid.coords t) = false := by
      show (!(cond2 (grid1.coords t) == 1#1)) = false
      rw [h2]; rfl
    unfold Dat.leavesExact; rw [hi, if_pos h2, e, after_5]
  · have hi : cfg1.idle 5 (cfg1.grid.coords t) = true := by
      show (!(cond2 (grid1.coords t) == 1#1)) = true
      simp [h2]
    rw [(dat c W).leavesExact_idle 5 t hi (no_flush t fun h => h2 ((cond2_iff t).mpr h)), if_neg h2]
    iintro H; iexists d; iexact H

theorem sound_body (t : Fin cfg1.N) :
    bodyPre c W t ⊢ wp frame (wpE (defs₀ (F := F)) Variants.none c none) Set.univ (defs₀ .tc cfg1.body (cfg1.bodyArgs t (cfg1.slots t))) (fun _ => bodyPost c W t) := by
  unfold bodyPre bodyPost
  sl_whnfR [defs₀, Defs.onTc]
  rw [kernel1_eq]
  simp only [before_in c W t]
  rw [Phi_castSucc, Phi_succ, after_0, after_1, after_2, after_3, after_4,
    show (dat c W).owesAt () t.succ = (dat c W).owesAt () t.castSucc from rfl]
  iintro ⟨HΦ, Ho, ⟨%d0, H0⟩, ⟨%d1, H1⟩, ⟨%d2, H2⟩, ⟨%d3, H3⟩, ⟨%d4, H4⟩, ⟨%d5, H5⟩⟩
  ihave HΦ' := (PhiS_open c W t) $$ HΦ
  icases HΦ' with ⟨%a, %ha, Ha, Hr⟩
  have e := acc_step c W t a ha
  iapply (sound_kernel c (grid1.coords t) _ _ _ _ _ _ _ _ _ _ _ _ scM (Memref.isWhole_whole _) (blk c W 0 t) (blk c W 1 t)
    (blk c W 2 t) (blk c W 3 t) (blk c W 4 t) ((dat c W).before 5 t d5) a _)
  iframe H0 H1 H2 H3 H4 H5 Ha
  iintro ⟨H0, H1, H2, H3, H4, H5, Ha⟩
  rw [e, PhiS_succ]
  iframe Ha Hr Ho H0 H1 H2 H3 H4
  iapply (out_leaves c W t d5 a e) $$ H5

theorem body_obligation : BodyObligation (dat (F := F) c W) (defs₀ (F := F)) Variants.none () Set.univ := fun t => by
  rw [bigSep_W1, bigSep_W1]
  exact sound_body c W t

theorem Phi_last : (dat c W).Φ (Fin.last cfg1.N)
    ⊢ (Pipeline.scopedRest (Ix := Unit) (Name := ℕ) (U := UR sig nD τ) (Lvl := ℕ) (Val := Elt F) spec1 c : sProp 𝕄) := by
  show PhiS c W (12499 + 1) ⊢ _
  rw [PhiS_succ, scopedRest1_split, owns_whole]
  iintro ⟨Ha, Hr⟩
  iframe Hr
  iexists _; iexact Ha

end Body

end Cert.Kernel.R1

end
-- ==== Proof.K.R2.lean ====
import proofs.«430694_j29257317220564_2_alg».proof.Proof.Gen.Kernel.Skeleton
import proofs.«430694_j29257317220564_2_alg».proof.Proof.Gen.Kernel.Launch
import proofs.«430694_j29257317220564_2_alg».proof.Proof.K.Gather
import Idealize.ShloMosaic.Lib.Tactic
import Idealize.ShloMosaic.Lib.Pipeline.Kit
import Idealize.ShloMosaic.Lib.Pipeline.Frame
import Idealize.ShloMosaic.Lib.Pipeline.FrameBody
import Idealize.ShloMosaic.Lib.Pipeline.Value

noncomputable section

namespace Cert.Kernel.R2

open Cert.Kernel Cert.Kernel.Gen Cert.Kernel.Gather
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

section Data

variable (c : Dev nD) (W : (b : Ref sig .tc) → Buf (Elt F) ((c : Thread nD τ).loc b))

def blk (w : Fin cfg2.W) (t : Fin cfg2.N) : ((cfg2.win w).xblock (cfg2.grid.coords t)).Idx → Elt F (cfg2.win w).elt :=
  ((cfg2.win w).blk t).view.read (Elt F) (W (Pipeline.arrRef spec2 w))

def pt (n : ℕ) : Fin cfg2.N := ⟨n % 12500, Nat.mod_lt _ (by decide)⟩

theorem pt_val (t : Fin cfg2.N) : pt t.val = t := Fin.ext (Nat.mod_eq_of_lt t.isLt)

def acc : ℕ → FVec F S3200x128 .f32
  | 0 => accStep (grid2.coords (pt 0)) (blk c W 0 (pt 0)) (blk c W 1 (pt 0)) pay1
  | n + 1 => accStep (grid2.coords (pt (n + 1))) (blk c W 0 (pt (n + 1))) (blk c W 1 (pt (n + 1))) (acc n)

abbrev scM : Memref sig .tc .vmem S3200x128 .f32 := Memref.whole cc2_scratch0

def PhiS : ℕ → sProp 𝕄
  | 0 => Pipeline.scopedRest (Ix := Unit) (Name := ℕ) (U := UR sig nD τ) (Lvl := ℕ) (Val := Elt F) spec2 c
  | n + 1 => iprop(owns (c : Thread nD τ) scM fullShare (acc c W n)
      ∗ Pipeline.scopedRestBut (Ix := Unit) (Name := ℕ) (U := UR sig nD τ) (Lvl := ℕ) (Val := Elt F) spec2 c [cc2_scratch0])

def dat : Dat τ (Elt F) Unit ℕ (UR sig nD τ) ℕ cfg2 c where
  A w := W (Pipeline.arrRef spec2 w)
  after w t := match w with
    | ⟨0, _⟩ => blk c W 0 t
    | ⟨1, _⟩ => blk c W 1 t
    | ⟨2, _⟩ => pay3 (acc c W t.val)
  Φ t := PhiS c W t.val
  q _ := fullShare
  owed _ := 0

theorem PhiS_succ (n : ℕ) : PhiS c W (n + 1) = iprop(owns (c : Thread nD τ) scM fullShare (acc c W n)
      ∗ Pipeline.scopedRestBut (Ix := Unit) (Name := ℕ) (U := UR sig nD τ) (Lvl := ℕ) (Val := Elt F) spec2 c [cc2_scratch0]) := rfl

theorem A_eq (w : Fin cfg2.W) : (dat c W).A w = W (Pipeline.arrRef spec2 w) := by dsimp only [dat]
theorem after_0 (t : Fin cfg2.N) : (dat c W).after 0 t = blk c W 0 t := by dsimp only [dat]
theorem after_1 (t : Fin cfg2.N) : (dat c W).after 1 t = blk c W 1 t := by dsimp only [dat]
theorem after_2 (t : Fin cfg2.N) : (dat c W).after 2 t = pay3 (acc c W t.val) := by dsimp only [dat]

theorem before_0 (t : Fin cfg2.N) (d) : (dat c W).before 0 t d = blk c W 0 t :=
  ((dat c W).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (t : Fin cfg2.N) (d) : (dat c W).before 1 t d = blk c W 1 t :=
  ((dat c W).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)

theorem Phi_castSucc (t : Fin cfg2.N) : (dat c W).Φ t.castSucc = PhiS c W t.val := by
  dsimp only [dat]; simp only [Fin.coe_castSucc]
theorem Phi_succ (t : Fin cfg2.N) : (dat c W).Φ t.succ = PhiS c W (t.val + 1) := by
  dsimp only [dat]; simp only [Fin.val_succ]

theorem acc_step (t : Fin cfg2.N) (a : Vec F S3200x128 .f32) (ha : t.val % 50 ≠ 0 → a = acc c W (t.val - 1)) :
    accStep (grid2.coords t) (blk c W 0 t) (blk c W 1 t) a = acc c W t.val := by
  obtain ⟨n, hn⟩ := t
  cases n with
  | zero =>
    show _ = accStep (grid2.coords (pt 0)) (blk c W 0 (pt 0)) (blk c W 1 (pt 0)) pay1
    rw [show (pt 0 : Fin cfg2.N) = ⟨0, hn⟩ from pt_val ⟨0, hn⟩]
    exact accStep_first ((cond1_iff ⟨0, hn⟩).mpr rfl) _ _ _ _
  | succ n =>
    show _ = accStep (grid2.coords (pt (n + 1))) (blk c W 0 (pt (n + 1))) (blk c W 1 (pt (n + 1))) (acc c W n)
    rw [show (pt (n + 1) : Fin cfg2.N) = ⟨n + 1, hn⟩ from pt_val ⟨n + 1, hn⟩]
    by_cases h0 : (n + 1) % 50 = 0
    · exact accStep_first ((cond1_iff ⟨n + 1, hn⟩).mpr h0) _ _ _ _
    · rw [ha h0]; rfl

end Data

abbrev st_0 (t : Fin cfg2.N) := (cfg2.win 0).stage (cfg2.slots t 0)
abbrev st_1 (t : Fin cfg2.N) := (cfg2.win 1).stage (cfg2.slots t 1)
abbrev st_2 (t : Fin cfg2.N) := (cfg2.win 2).stage (cfg2.slots t 2)

abbrev bodyAt (t : Fin cfg2.N) : Prog (TpuEff nD τ sig (Elt F) Λ₀ .tc) PUnit :=
  kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (Memref.whole cc2_scratch0) (Memref.isWhole_whole _)

theorem no_flush (t : Fin cfg2.N) (h : t.val % 50 ≠ 49) : (cfg2.win 2).flush t = false := by
  have hN : grid2.N = 12500 := N_2
  have hlt : t.val < 12500 := hN ▸ t.isLt
  rw [Pipeline.Window.flush_eq_flushOf]
  unfold Pipeline.Window.flushOf
  have h1 : ¬ (t.val + 1 = grid2.N) := by rw [hN]; omega
  have h2 : ¬ ∃ hl : t.val + 1 < grid2.N,
      (cfg2.win 2).indexMap (grid2.coords ⟨t.val + 1, hl⟩) ≠ (cfg2.win 2).indexMap (grid2.coords t) := by
    rintro ⟨hl, hne⟩
    apply hne
    show cc2_transform_2 _ = cc2_transform_2 _
    refine hreads2_2 _ _ fun a ha => ?_
    match a, ha with
    | ⟨0, _⟩, _ => exact coord0_succ t hl h
    | ⟨1, _⟩, ha => exact (Bool.false_ne_true ha).elim
  simp [h1, h2]

section Body

variable (c : Dev nD) (W : (b : Ref sig .tc) → Buf (Elt F) ((c : Thread nD τ).loc b))

theorem PhiS_open (t : Fin cfg2.N) :
    PhiS c W t.val ⊢ (iprop(∃ a : Vec F S3200x128 .f32, ⌜t.val % 50 ≠ 0 → a = acc c W (t.val - 1)⌝
      ∗ owns (c : Thread nD τ) scM fullShare a
      ∗ Pipeline.scopedRestBut (Ix := Unit) (Name := ℕ) (U := UR sig nD τ) (Lvl := ℕ) (Val := Elt F) spec2 c [cc2_scratch0]) : sProp 𝕄) := by
  obtain ⟨n, hn⟩ := t
  cases n with
  | zero =>
    show Pipeline.scopedRest (Ix := Unit) (Name := ℕ) (U := UR sig nD τ) (Lvl := ℕ) (Val := Elt F) spec2 c ⊢ _
    rw [scopedRest2_split]
    iintro ⟨⟨%f, Hf⟩, Hr⟩
    iexists f
    isplitr
    · ipureintro; intro h; exact absurd rfl h
    isplitl [Hf]
    · rw [owns_whole]; iexact Hf
    · iexact Hr
  | succ n =>
    show PhiS c W (n + 1) ⊢ _
    rw [PhiS_succ]
    iintro ⟨Ha, Hr⟩
    iexists acc c W n
    isplitr
    · ipureintro; intro _; rfl
    isplitl [Ha]
    · iexact Ha
    · iexact Hr

def bodyPre (t : Fin cfg2.N) : sProp 𝕄 :=
  iprop((dat c W).Φ t.castSucc ∗ (dat c W).owesAt () t.castSucc
    ∗ (∃ d, owns (c : Thread nD τ) (st_0 t) fullShare ((dat c W).before 0 t d))
    ∗ (∃ d, owns (c : Thread nD τ) (st_1 t) fullShare ((dat c W).before 1 t d))
    ∗ (∃ d, owns (c : Thread nD τ) (st_2 t) fullShare ((dat c W).before 2 t d)))

def bodyPost (t : Fin cfg2.N) : sProp 𝕄 :=
  iprop((dat c W).Φ t.succ ∗ (dat c W).owesAt () t.succ
    ∗ owns (c : Thread nD τ) (st_0 t) fullShare ((dat c W).after 0 t)
    ∗ owns (c : Thread nD τ) (st_1 t) fullShare ((dat c W).after 1 t)
    ∗ (dat c W).leavesExact 2 t)

/-- What the point leaves in the message window's buffer is what the proof data say: written at the last node block, kept otherwise. -/
theorem leaves_2 (t : Fin cfg2.N) (d2) (a : Vec F S3200x128 .f32)
    (e : accStep (grid2.coords t) (blk c W 0 t) (blk c W 1 t) a = acc c W t.val) :
    owns (c : Thread nD τ) (st_2 t) fullShare
        (outStep (grid2.coords t) (blk c W 0 t) (blk c W 1 t) ((dat c W).before 2 t d2) a)
      ⊢ (dat c W).leavesExact 2 t := by
  unfold outStep
  by_cases h2 : cond2 (grid2.coords t) = 1#1
  · have hi : cfg2.idle 2 (cfg2.grid.coords t) = false := by
      show (!(cond2 (grid2.coords t) == 1#1)) = false
      rw [h2]; rfl
    have hL : (dat c W).leavesExact 2 t = owns (c : Thread nD τ) (st_2 t) fullShare ((dat c W).after 2 t) := by
      unfold Dat.leavesExact; rw [hi]
    rw [hL, after_2, if_pos h2, e]
  · have hi : cfg2.idle 2 (cfg2.grid.coords t) = true := by
      show (!(cond2 (grid2.coords t) == 1#1)) = true
      simp [h2]
    rw [(dat c W).leavesExact_idle 2 t hi (no_flush t fun h49 => h2 ((cond2_iff t).mpr h49)), if_neg h2]
    iintro H; iexists d2; iexact H

/-- The body at any point: the buffers hold their blocks and the accumulator so far, so the body's triple applies. -/
theorem sound_body (t : Fin cfg2.N) :
    bodyPre c W t ⊢ wp frame (wpE (defs₀ (F := F)) Variants.none c none) Set.univ (bodyAt t) (fun _ => bodyPost c W t) := by
  unfold bodyPre bodyPost bodyAt
  simp only [before_0, before_1]
  rw [Phi_castSucc, Phi_succ, after_0, after_1, show (dat c W).owesAt () t.succ = (dat c W).owesAt () t.castSucc from rfl]
  iintro ⟨HΦ, Ho, ⟨%d0, H0⟩, ⟨%d1, H1⟩, ⟨%d2, H2⟩⟩
  ihave HΦ' := (PhiS_open c W t) $$ HΦ
  icases HΦ' with ⟨%a, %ha, Ha, Hr⟩
  have e := acc_step c W t a ha
  iapply (sound_kernel c (grid2.coords t) _ _ _ _ _ _ scM (Memref.isWhole_whole _) (blk c W 0 t) (blk c W 1 t) ((dat c W).before 2 t d2) a _)
  isplitl [H0]; · iexact H0
  isplitl [H1]; · iexact H1
  isplitl [H2]; · iexact H2
  isplitl [Ha]; · iexact Ha
  iintro ⟨H0, H1, H2, Ha⟩
  rw [e, PhiS_succ]
  isplitl [Ha Hr]
  · isplitl [Ha]; · iexact Ha
    iexact Hr
  isplitl [Ho]; · iexact Ho
  isplitl [H0]; · iexact H0
  isplitl [H1]; · iexact H1
  iapply (leaves_2 c W t d2 a e); iexact H2

theorem body_obligation : BodyObligation (dat (F := F) c W) (defs₀ (F := F)) Variants.none () Set.univ := fun t => by
  rw [bigSep_W2, bigSep_W2]
  exact sound_body c W t

theorem Phi_last : (dat c W).Φ (Fin.last cfg2.N)
    ⊢ (Pipeline.scopedRest (Ix := Unit) (Name := ℕ) (U := UR sig nD τ) (Lvl := ℕ) (Val := Elt F) spec2 c : sProp 𝕄) := by
  show PhiS c W (12499 + 1) ⊢ _
  rw [PhiS_succ, scopedRest2_split]
  iintro ⟨Ha, Hr⟩
  isplitl [Ha]
  · unfold owns
    icases Ha with ⟨%f, -, Hf⟩
    iexists f
    simp only [Memref.view_whole, View.set_whole]
    iexact Hf
  · iexact Hr

end Body

end Cert.Kernel.R2

end
-- ==== Proof.K.R3.lean ====
import proofs.«430694_j29257317220564_2_alg».proof.Proof.Gen.Kernel.Skeleton
import proofs.«430694_j29257317220564_2_alg».proof.Proof.Gen.Kernel.Launch
import proofs.«430694_j29257317220564_2_alg».proof.Proof.K.Scatter
import Idealize.ShloMosaic.Lib.Tactic
import Idealize.ShloMosaic.Lib.Pipeline.Kit
import Idealize.ShloMosaic.Lib.Pipeline.Frame
import Idealize.ShloMosaic.Lib.Pipeline.FrameBody
import Idealize.ShloMosaic.Lib.Pipeline.Value

noncomputable section

namespace Cert.Kernel.R3

open Cert.Kernel Cert.Kernel.Gen Cert.Kernel.Scatter
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

section Data

variable (c : Dev nD) (W : (b : Ref sig .tc) → Buf (Elt F) ((c : Thread nD τ).loc b))

def blk (w : Fin cfg3.W) (t : Fin cfg3.N) : ((cfg3.win w).xblock (cfg3.grid.coords t)).Idx → Elt F (cfg3.win w).elt :=
  ((cfg3.win w).blk t).view.read (Elt F) (W (Pipeline.arrRef spec3 w))

def pt (n : ℕ) : Fin cfg3.N := ⟨n % 12500, Nat.mod_lt _ (by decide)⟩

theorem pt_val (t : Fin cfg3.N) : pt t.val = t := Fin.ext (Nat.mod_eq_of_lt t.isLt)

/-- The accumulator after point `n`. -/
def acc : ℕ → FVec F S1000x128 .f32
  | 0 => accStep (grid3.coords (pt 0)) (blk c W 0 (pt 0)) (blk c W 1 (pt 0)) pay1
  | n + 1 => accStep (grid3.coords (pt (n + 1))) (blk c W 0 (pt (n + 1))) (blk c W 1 (pt (n + 1))) (acc n)

abbrev scM : Memref sig .tc .vmem S1000x128 .f32 := Memref.whole cc3_scratch0

def PhiS : ℕ → sProp 𝕄
  | 0 => Pipeline.scopedRest (Ix := Unit) (Name := ℕ) (U := UR sig nD τ) (Lvl := ℕ) (Val := Elt F) spec3 c
  | n + 1 => iprop(owns (c : Thread nD τ) scM fullShare (acc c W n)
      ∗ Pipeline.scopedRestBut (Ix := Unit) (Name := ℕ) (U := UR sig nD τ) (Lvl := ℕ) (Val := Elt F) spec3 c [cc3_scratch0])

def dat : Dat τ (Elt F) Unit ℕ (UR sig nD τ) ℕ cfg3 c where
  A w := W (Pipeline.arrRef spec3 w)
  after w t := match w with
    | ⟨0, _⟩ => blk c W 0 t
    | ⟨1, _⟩ => blk c W 1 t
    | ⟨2, _⟩ => blk c W 2 t
    | ⟨3, _⟩ => blk c W 3 t
    | ⟨4, _⟩ => blk c W 4 t
    | ⟨5, _⟩ => pay3 (blk c W 2 t) (acc c W t.val) (blk c W 3 t) (blk c W 4 t)
  Φ t := PhiS c W t.val
  q _ := fullShare
  owed _ := 0

theorem PhiS_succ (n : ℕ) : PhiS c W (n + 1) = iprop(owns (c : Thread nD τ) scM fullShare (acc c W n)
      ∗ Pipeline.scopedRestBut (Ix := Unit) (Name := ℕ) (U := UR sig nD τ) (Lvl := ℕ) (Val := Elt F) spec3 c [cc3_scratch0]) := rfl

theorem A_eq (w : Fin cfg3.W) : (dat c W).A w = W (Pipeline.arrRef spec3 w) := by dsimp only [dat]
theorem after_0 (t : Fin cfg3.N) : (dat c W).after 0 t = blk c W 0 t := by dsimp only [dat]
theorem after_1 (t : Fin cfg3.N) : (dat c W).after 1 t = blk c W 1 t := by dsimp only [dat]
theorem after_2 (t : Fin cfg3.N) : (dat c W).after 2 t = blk c W 2 t := by dsimp only [dat]
theorem after_3 (t : Fin cfg3.N) : (dat c W).after 3 t = blk c W 3 t := by dsimp only [dat]
theorem after_4 (t : Fin cfg3.N) : (dat c W).after 4 t = blk c W 4 t := by dsimp only [dat]
theorem after_5 (t : Fin cfg3.N) :
    (dat c W).after 5 t = pay3 (blk c W 2 t) (acc c W t.val) (blk c W 3 t) (blk c W 4 t) := by dsimp only [dat]

theorem before_in (t : Fin cfg3.N) : (∀ d, (dat c W).before 0 t d = blk c W 0 t) ∧ (∀ d, (dat c W).before 1 t d = blk c W 1 t)
    ∧ (∀ d, (dat c W).before 2 t d = blk c W 2 t) ∧ (∀ d, (dat c W).before 3 t d = blk c W 3 t)
    ∧ (∀ d, (dat c W).before 4 t d = blk c W 4 t) := by
  refine ⟨fun d => ?_, fun d => ?_, fun d => ?_, fun d => ?_, fun d => ?_⟩
  all_goals
    refine ((dat c W).before_in_eq_fetched _ rfl (fun _ => rfl) (fun _ _ _ => rfl) (fun t => ?_) t d).trans ?_
    · simp only [after_0, after_1, after_2, after_3, after_4]; unfold Dat.blockOf blk; rw [A_eq]; try rfl
    · unfold Dat.fetched Dat.blockOf blk; rw [A_eq]; try rfl

theorem Phi_castSucc (t : Fin cfg3.N) : (dat c W).Φ t.castSucc = PhiS c W t.val := by
  dsimp only [dat]; simp only [Fin.coe_castSucc]
theorem Phi_succ (t : Fin cfg3.N) : (dat c W).Φ t.succ = PhiS c W (t.val + 1) := by
  dsimp only [dat]; simp only [Fin.val_succ]

theorem acc_step (t : Fin cfg3.N) (a : Vec F S1000x128 .f32) (ha : t.val % 250 ≠ 0 → a = acc c W (t.val - 1)) :
    accStep (grid3.coords t) (blk c W 0 t) (blk c W 1 t) a = acc c W t.val := by
  have hp := pt_val t
  rcases h : t.val with _ | n <;> rw [h] at hp ha <;> unfold acc <;> rw [hp]
  · exact accStep_first ((cond1_iff t).mpr (by rw [h])) _ _ _ _
  · by_cases h0 : (n + 1) % 250 = 0
    · exact accStep_first ((cond1_iff t).mpr (by rw [h]; exact h0)) _ _ _ _
    · rw [ha h0]; rfl

end Data

abbrev st_0 (t : Fin cfg3.N) := (cfg3.win 0).stage (cfg3.slots t 0)
abbrev st_1 (t : Fin cfg3.N) := (cfg3.win 1).stage (cfg3.slots t 1)
abbrev st_2 (t : Fin cfg3.N) := (cfg3.win 2).stage (cfg3.slots t 2)
abbrev st_3 (t : Fin cfg3.N) := (cfg3.win 3).stage (cfg3.slots t 3)
abbrev st_4 (t : Fin cfg3.N) := (cfg3.win 4).stage (cfg3.slots t 4)
abbrev st_5 (t : Fin cfg3.N) := (cfg3.win 5).stage (cfg3.slots t 5)

/-- Before the last edge block of a node block the next point has the same node block, so the output block stays. -/
theorem no_flush (t : Fin cfg3.N) (h : t.val % 250 ≠ 249) : (cfg3.win 5).flush t = false := by
  have hlt : t.val < 12500 := N_3 ▸ t.isLt
  rw [Pipeline.Window.flush_eq_flushOf]
  unfold Pipeline.Window.flushOf
  have h1 : ¬ (t.val + 1 = grid3.N) := by rw [N_3]; omega
  have h2 : ¬ ∃ hl : t.val + 1 < grid3.N,
      (cfg3.win 5).indexMap (grid3.coords ⟨t.val + 1, hl⟩) ≠ (cfg3.win 5).indexMap (grid3.coords t) := by
    rintro ⟨hl, hne⟩
    refine hne (hreads3_5 _ _ fun a ha => ?_)
    match a, ha with
    | ⟨0, _⟩, _ => exact coord0_succ t hl h
    | ⟨1, _⟩, ha => exact (Bool.false_ne_true ha).elim
  simp [h1, h2]

section Body

variable (c : Dev nD) (W : (b : Ref sig .tc) → Buf (Elt F) ((c : Thread nD τ).loc b))

theorem PhiS_open (t : Fin cfg3.N) :
    PhiS c W t.val ⊢ (iprop(∃ a : Vec F S1000x128 .f32, ⌜t.val % 250 ≠ 0 → a = acc c W (t.val - 1)⌝
      ∗ owns (c : Thread nD τ) scM fullShare a
      ∗ Pipeline.scopedRestBut (Ix := Unit) (Name := ℕ) (U := UR sig nD τ) (Lvl := ℕ) (Val := Elt F) spec3 c [cc3_scratch0]) : sProp 𝕄) := by
  rcases h : t.val with _ | n
  · unfold PhiS; rw [scopedRest3_split]
    iintro ⟨⟨%f, Hf⟩, Hr⟩
    iexists f; rw [owns_whole]; iframe Hf Hr
    ipureintro; exact fun h => absurd rfl h
  · rw [PhiS_succ]
    iintro ⟨Ha, Hr⟩
    iexists acc c W n; iframe Ha Hr
    ipureintro; exact fun _ => rfl

def bodyPre (t : Fin cfg3.N) : sProp 𝕄 :=
  iprop((dat c W).Φ t.castSucc ∗ (dat c W).owesAt () t.castSucc
    ∗ (∃ d, owns (c : Thread nD τ) (st_0 t) fullShare ((dat c W).before 0 t d))
    ∗ (∃ d, owns (c : Thread nD τ) (st_1 t) fullShare ((dat c W).before 1 t d))
    ∗ (∃ d, owns (c : Thread nD τ) (st_2 t) fullShare ((dat c W).before 2 t d))
    ∗ (∃ d, owns (c : Thread nD τ) (st_3 t) fullShare ((dat c W).before 3 t d))
    ∗ (∃ d, owns (c : Thread nD τ) (st_4 t) fullShare ((dat c W).before 4 t d))
    ∗ (∃ d, owns (c : Thread nD τ) (st_5 t) fullShare ((dat c W).before 5 t d)))

def bodyPost (t : Fin cfg3.N) : sProp 𝕄 :=
  iprop((dat c W).Φ t.succ ∗ (dat c W).owesAt () t.succ
    ∗ owns (c : Thread nD τ) (st_0 t) fullShare ((dat c W).after 0 t)
    ∗ owns (c : Thread nD τ) (st_1 t) fullShare ((dat c W).after 1 t)
    ∗ owns (c : Thread nD τ) (st_2 t) fullShare ((dat c W).after 2 t)
    ∗ owns (c : Thread nD τ) (st_3 t) fullShare ((dat c W).after 3 t)
    ∗ owns (c : Thread nD τ) (st_4 t) fullShare ((dat c W).after 4 t)
    ∗ (dat c W).leavesExact 5 t)

/-- What the body leaves in the output block's buffer is what the region is owed there: the layer's rows at the last
    edge block, and before it the buffer as found. -/
theorem out_leaves (t : Fin cfg3.N) (d) (a : Vec F S1000x128 .f32)
    (e : accStep (grid3.coords t) (blk c W 0 t) (blk c W 1 t) a = acc c W t.val) :
    owns (c : Thread nD τ) (st_5 t) fullShare (outStep (grid3.coords t) (blk c W 0 t) (blk c W 1 t) (blk c W 2 t) (blk c W 3 t)
        (blk c W 4 t) ((dat c W).before 5 t d) a) ⊢ ((dat c W).leavesExact 5 t : sProp 𝕄) := by
  unfold outStep
  by_cases h2 : cond2 (grid3.coords t) = 1#1
  · have hi : cfg3.idle 5 (cfg3.grid.coords t) = false := by
      show (!(cond2 (grid3.coords t) == 1#1)) = false
      rw [h2]; rfl
    unfold Dat.leavesExact; rw [hi, if_pos h2, e, after_5]
  · have hi : cfg3.idle 5 (cfg3.grid.coords t) = true := by
      show (!(cond2 (grid3.coords t) == 1#1)) = true
      simp [h2]
    rw [(dat c W).leavesExact_idle 5 t hi (no_flush t fun h => h2 ((cond2_iff t).mpr h)), if_neg h2]
    iintro H; iexists d; iexact H

theorem sound_body (t : Fin cfg3.N) :
    bodyPre c W t ⊢ wp frame (wpE (defs₀ (F := F)) Variants.none c none) Set.univ (defs₀ .tc cfg3.body (cfg3.bodyArgs t (cfg3.slots t))) (fun _ => bodyPost c W t) := by
  unfold bodyPre bodyPost
  sl_whnfR [defs₀, Defs.onTc]
  rw [kernel3_eq]
  simp only [before_in c W t]
  rw [Phi_castSucc, Phi_succ, after_0, after_1, after_2, after_3, after_4,
    show (dat c W).owesAt () t.succ = (dat c W).owesAt () t.castSucc from rfl]
  iintro ⟨HΦ, Ho, ⟨%d0, H0⟩, ⟨%d1, H1⟩, ⟨%d2, H2⟩, ⟨%d3, H3⟩, ⟨%d4, H4⟩, ⟨%d5, H5⟩⟩
  ihave HΦ' := (PhiS_open c W t) $$ HΦ
  icases HΦ' with ⟨%a, %ha, Ha, Hr⟩
  have e := acc_step c W t a ha
  iapply (sound_kernel c (grid3.coords t) _ _ _ _ _ _ _ _ _ _ _ _ scM (Memref.isWhole_whole _) (blk c W 0 t) (blk c W 1 t)
    (blk c W 2 t) (blk c W 3 t) (blk c W 4 t) ((dat c W).before 5 t d5) a _)
  iframe H0 H1 H2 H3 H4 H5 Ha
  iintro ⟨H0, H1, H2, H3, H4, H5, Ha⟩
  rw [e, PhiS_succ]
  iframe Ha Hr Ho H0 H1 H2 H3 H4
  iapply (out_leaves c W t d5 a e) $$ H5

theorem body_obligation : BodyObligation (dat (F := F) c W) (defs₀ (F := F)) Variants.none () Set.univ := fun t => by
  rw [bigSep_W3, bigSep_W3]
  exact sound_body c W t

theorem Phi_last : (dat c W).Φ (Fin.last cfg3.N)
    ⊢ (Pipeline.scopedRest (Ix := Unit) (Name := ℕ) (U := UR sig nD τ) (Lvl := ℕ) (Val := Elt F) spec3 c : sProp 𝕄) := by
  show PhiS c W (12499 + 1) ⊢ _
  rw [PhiS_succ, scopedRest3_split, owns_whole]
  iintro ⟨Ha, Hr⟩
  iframe Hr
  iexists _; iexact Ha

end Body

end Cert.Kernel.R3

end
-- ==== Proof.K.R4.lean ====
import proofs.«430694_j29257317220564_2_alg».proof.Proof.Gen.Kernel.Skeleton
import proofs.«430694_j29257317220564_2_alg».proof.Proof.Gen.Kernel.Launch
import proofs.«430694_j29257317220564_2_alg».proof.Proof.K.Gather
import Idealize.ShloMosaic.Lib.Tactic
import Idealize.ShloMosaic.Lib.Pipeline.Kit
import Idealize.ShloMosaic.Lib.Pipeline.Frame
import Idealize.ShloMosaic.Lib.Pipeline.FrameBody
import Idealize.ShloMosaic.Lib.Pipeline.Value

noncomputable section

namespace Cert.Kernel.R4

open Cert.Kernel Cert.Kernel.Gen Cert.Kernel.Gather
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

section Data

variable (c : Dev nD) (W : (b : Ref sig .tc) → Buf (Elt F) ((c : Thread nD τ).loc b))

def blk (w : Fin cfg4.W) (t : Fin cfg4.N) : ((cfg4.win w).xblock (cfg4.grid.coords t)).Idx → Elt F (cfg4.win w).elt :=
  ((cfg4.win w).blk t).view.read (Elt F) (W (Pipeline.arrRef spec4 w))

def pt (n : ℕ) : Fin cfg4.N := ⟨n % 12500, Nat.mod_lt _ (by decide)⟩

theorem pt_val (t : Fin cfg4.N) : pt t.val = t := Fin.ext (Nat.mod_eq_of_lt t.isLt)

def acc : ℕ → FVec F S3200x128 .f32
  | 0 => accStep (grid4.coords (pt 0)) (blk c W 0 (pt 0)) (blk c W 1 (pt 0)) pay1
  | n + 1 => accStep (grid4.coords (pt (n + 1))) (blk c W 0 (pt (n + 1))) (blk c W 1 (pt (n + 1))) (acc n)

abbrev scM : Memref sig .tc .vmem S3200x128 .f32 := Memref.whole cc4_scratch0

def PhiS : ℕ → sProp 𝕄
  | 0 => Pipeline.scopedRest (Ix := Unit) (Name := ℕ) (U := UR sig nD τ) (Lvl := ℕ) (Val := Elt F) spec4 c
  | n + 1 => iprop(owns (c : Thread nD τ) scM fullShare (acc c W n)
      ∗ Pipeline.scopedRestBut (Ix := Unit) (Name := ℕ) (U := UR sig nD τ) (Lvl := ℕ) (Val := Elt F) spec4 c [cc4_scratch0])

def dat : Dat τ (Elt F) Unit ℕ (UR sig nD τ) ℕ cfg4 c where
  A w := W (Pipeline.arrRef spec4 w)
  after w t := match w with
    | ⟨0, _⟩ => blk c W 0 t
    | ⟨1, _⟩ => blk c W 1 t
    | ⟨2, _⟩ => pay3 (acc c W t.val)
  Φ t := PhiS c W t.val
  q _ := fullShare
  owed _ := 0

theorem PhiS_succ (n : ℕ) : PhiS c W (n + 1) = iprop(owns (c : Thread nD τ) scM fullShare (acc c W n)
      ∗ Pipeline.scopedRestBut (Ix := Unit) (Name := ℕ) (U := UR sig nD τ) (Lvl := ℕ) (Val := Elt F) spec4 c [cc4_scratch0]) := rfl

theorem A_eq (w : Fin cfg4.W) : (dat c W).A w = W (Pipeline.arrRef spec4 w) := by dsimp only [dat]
theorem after_0 (t : Fin cfg4.N) : (dat c W).after 0 t = blk c W 0 t := by dsimp only [dat]
theorem after_1 (t : Fin cfg4.N) : (dat c W).after 1 t = blk c W 1 t := by dsimp only [dat]
theorem after_2 (t : Fin cfg4.N) : (dat c W).after 2 t = pay3 (acc c W t.val) := by dsimp only [dat]

theorem before_0 (t : Fin cfg4.N) (d) : (dat c W).before 0 t d = blk c W 0 t :=
  ((dat c W).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (t : Fin cfg4.N) (d) : (dat c W).before 1 t d = blk c W 1 t :=
  ((dat c W).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)

theorem Phi_castSucc (t : Fin cfg4.N) : (dat c W).Φ t.castSucc = PhiS c W t.val := by
  dsimp only [dat]; simp only [Fin.coe_castSucc]
theorem Phi_succ (t : Fin cfg4.N) : (dat c W).Φ t.succ = PhiS c W (t.val + 1) := by
  dsimp only [dat]; simp only [Fin.val_succ]

theorem acc_step (t : Fin cfg4.N) (a : Vec F S3200x128 .f32) (ha : t.val % 50 ≠ 0 → a = acc c W (t.val - 1)) :
    accStep (grid4.coords t) (blk c W 0 t) (blk c W 1 t) a = acc c W t.val := by
  obtain ⟨n, hn⟩ := t
  cases n with
  | zero =>
    show _ = accStep (grid4.coords (pt 0)) (blk c W 0 (pt 0)) (blk c W 1 (pt 0)) pay1
    rw [show (pt 0 : Fin cfg4.N) = ⟨0, hn⟩ from pt_val ⟨0, hn⟩]
    exact accStep_first ((cond1_iff ⟨0, hn⟩).mpr rfl) _ _ _ _
  | succ n =>
    show _ = accStep (grid4.coords (pt (n + 1))) (blk c W 0 (pt (n + 1))) (blk c W 1 (pt (n + 1))) (acc c W n)
    rw [show (pt (n + 1) : Fin cfg4.N) = ⟨n + 1, hn⟩ from pt_val ⟨n + 1, hn⟩]
    by_cases h0 : (n + 1) % 50 = 0
    · exact accStep_first ((cond1_iff ⟨n + 1, hn⟩).mpr h0) _ _ _ _
    · rw [ha h0]; rfl

end Data

abbrev st_0 (t : Fin cfg4.N) := (cfg4.win 0).stage (cfg4.slots t 0)
abbrev st_1 (t : Fin cfg4.N) := (cfg4.win 1).stage (cfg4.slots t 1)
abbrev st_2 (t : Fin cfg4.N) := (cfg4.win 2).stage (cfg4.slots t 2)

abbrev bodyAt (t : Fin cfg4.N) : Prog (TpuEff nD τ sig (Elt F) Λ₀ .tc) PUnit :=
  kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (Memref.whole cc4_scratch0) (Memref.isWhole_whole _)

theorem no_flush (t : Fin cfg4.N) (h : t.val % 50 ≠ 49) : (cfg4.win 2).flush t = false := by
  have hN : grid4.N = 12500 := N_4
  have hlt : t.val < 12500 := hN ▸ t.isLt
  rw [Pipeline.Window.flush_eq_flushOf]
  unfold Pipeline.Window.flushOf
  have h1 : ¬ (t.val + 1 = grid4.N) := by rw [hN]; omega
  have h2 : ¬ ∃ hl : t.val + 1 < grid4.N,
      (cfg4.win 2).indexMap (grid4.coords ⟨t.val + 1, hl⟩) ≠ (cfg4.win 2).indexMap (grid4.coords t) := by
    rintro ⟨hl, hne⟩
    apply hne
    show cc4_transform_2 _ = cc4_transform_2 _
    refine hreads4_2 _ _ fun a ha => ?_
    match a, ha with
    | ⟨0, _⟩, _ => exact coord0_succ t hl h
    | ⟨1, _⟩, ha => exact (Bool.false_ne_true ha).elim
  simp [h1, h2]

section Body

variable (c : Dev nD) (W : (b : Ref sig .tc) → Buf (Elt F) ((c : Thread nD τ).loc b))

theorem PhiS_open (t : Fin cfg4.N) :
    PhiS c W t.val ⊢ (iprop(∃ a : Vec F S3200x128 .f32, ⌜t.val % 50 ≠ 0 → a = acc c W (t.val - 1)⌝
      ∗ owns (c : Thread nD τ) scM fullShare a
      ∗ Pipeline.scopedRestBut (Ix := Unit) (Name := ℕ) (U := UR sig nD τ) (Lvl := ℕ) (Val := Elt F) spec4 c [cc4_scratch0]) : sProp 𝕄) := by
  obtain ⟨n, hn⟩ := t
  cases n with
  | zero =>
    show Pipeline.scopedRest (Ix := Unit) (Name := ℕ) (U := UR sig nD τ) (Lvl := ℕ) (Val := Elt F) spec4 c ⊢ _
    rw [scopedRest4_split]
    iintro ⟨⟨%f, Hf⟩, Hr⟩
    iexists f
    isplitr
    · ipureintro; intro h; exact absurd rfl h
    isplitl [Hf]
    · rw [owns_whole]; iexact Hf
    · iexact Hr
  | succ n =>
    show PhiS c W (n + 1) ⊢ _
    rw [PhiS_succ]
    iintro ⟨Ha, Hr⟩
    iexists acc c W n
    isplitr
    · ipureintro; intro _; rfl
    isplitl [Ha]
    · iexact Ha
    · iexact Hr

def bodyPre (t : Fin cfg4.N) : sProp 𝕄 :=
  iprop((dat c W).Φ t.castSucc ∗ (dat c W).owesAt () t.castSucc
    ∗ (∃ d, owns (c : Thread nD τ) (st_0 t) fullShare ((dat c W).before 0 t d))
    ∗ (∃ d, owns (c : Thread nD τ) (st_1 t) fullShare ((dat c W).before 1 t d))
    ∗ (∃ d, owns (c : Thread nD τ) (st_2 t) fullShare ((dat c W).before 2 t d)))

def bodyPost (t : Fin cfg4.N) : sProp 𝕄 :=
  iprop((dat c W).Φ t.succ ∗ (dat c W).owesAt () t.succ
    ∗ owns (c : Thread nD τ) (st_0 t) fullShare ((dat c W).after 0 t)
    ∗ owns (c : Thread nD τ) (st_1 t) fullShare ((dat c W).after 1 t)
    ∗ (dat c W).leavesExact 2 t)

/-- What the point leaves in the message window's buffer is what the proof data say: written at the last node block, kept otherwise. -/
theorem leaves_2 (t : Fin cfg4.N) (d2) (a : Vec F S3200x128 .f32)
    (e : accStep (grid4.coords t) (blk c W 0 t) (blk c W 1 t) a = acc c W t.val) :
    owns (c : Thread nD τ) (st_2 t) fullShare
        (outStep (grid4.coords t) (blk c W 0 t) (blk c W 1 t) ((dat c W).before 2 t d2) a)
      ⊢ (dat c W).leavesExact 2 t := by
  unfold outStep
  by_cases h2 : cond2 (grid4.coords t) = 1#1
  · have hi : cfg4.idle 2 (cfg4.grid.coords t) = false := by
      show (!(cond2 (grid4.coords t) == 1#1)) = false
      rw [h2]; rfl
    have hL : (dat c W).leavesExact 2 t = owns (c : Thread nD τ) (st_2 t) fullShare ((dat c W).after 2 t) := by
      unfold Dat.leavesExact; rw [hi]
    rw [hL, after_2, if_pos h2, e]
  · have hi : cfg4.idle 2 (cfg4.grid.coords t) = true := by
      show (!(cond2 (grid4.coords t) == 1#1)) = true
      simp [h2]
    rw [(dat c W).leavesExact_idle 2 t hi (no_flush t fun h49 => h2 ((cond2_iff t).mpr h49)), if_neg h2]
    iintro H; iexists d2; iexact H

/-- The body at any point: the buffers hold their blocks and the accumulator so far, so the body's triple applies. -/
theorem sound_body (t : Fin cfg4.N) :
    bodyPre c W t ⊢ wp frame (wpE (defs₀ (F := F)) Variants.none c none) Set.univ (bodyAt t) (fun _ => bodyPost c W t) := by
  unfold bodyPre bodyPost bodyAt
  simp only [before_0, before_1]
  rw [Phi_castSucc, Phi_succ, after_0, after_1, show (dat c W).owesAt () t.succ = (dat c W).owesAt () t.castSucc from rfl]
  iintro ⟨HΦ, Ho, ⟨%d0, H0⟩, ⟨%d1, H1⟩, ⟨%d2, H2⟩⟩
  ihave HΦ' := (PhiS_open c W t) $$ HΦ
  icases HΦ' with ⟨%a, %ha, Ha, Hr⟩
  have e := acc_step c W t a ha
  iapply (sound_kernel c (grid4.coords t) _ _ _ _ _ _ scM (Memref.isWhole_whole _) (blk c W 0 t) (blk c W 1 t) ((dat c W).before 2 t d2) a _)
  isplitl [H0]; · iexact H0
  isplitl [H1]; · iexact H1
  isplitl [H2]; · iexact H2
  isplitl [Ha]; · iexact Ha
  iintro ⟨H0, H1, H2, Ha⟩
  rw [e, PhiS_succ]
  isplitl [Ha Hr]
  · isplitl [Ha]; · iexact Ha
    iexact Hr
  isplitl [Ho]; · iexact Ho
  isplitl [H0]; · iexact H0
  isplitl [H1]; · iexact H1
  iapply (leaves_2 c W t d2 a e); iexact H2

theorem body_obligation : BodyObligation (dat (F := F) c W) (defs₀ (F := F)) Variants.none () Set.univ := fun t => by
  rw [bigSep_W4, bigSep_W4]
  exact sound_body c W t

theorem Phi_last : (dat c W).Φ (Fin.last cfg4.N)
    ⊢ (Pipeline.scopedRest (Ix := Unit) (Name := ℕ) (U := UR sig nD τ) (Lvl := ℕ) (Val := Elt F) spec4 c : sProp 𝕄) := by
  show PhiS c W (12499 + 1) ⊢ _
  rw [PhiS_succ, scopedRest4_split]
  iintro ⟨Ha, Hr⟩
  isplitl [Ha]
  · unfold owns
    icases Ha with ⟨%f, -, Hf⟩
    iexists f
    simp only [Memref.view_whole, View.set_whole]
    iexact Hf
  · iexact Hr

end Body

end Cert.Kernel.R4

end
-- ==== Proof.K.R5.lean ====
import proofs.«430694_j29257317220564_2_alg».proof.Proof.Gen.Kernel.Skeleton
import proofs.«430694_j29257317220564_2_alg».proof.Proof.Gen.Kernel.Launch
import proofs.«430694_j29257317220564_2_alg».proof.Proof.K.Scatter
import Idealize.ShloMosaic.Lib.Tactic
import Idealize.ShloMosaic.Lib.Pipeline.Kit
import Idealize.ShloMosaic.Lib.Pipeline.Frame
import Idealize.ShloMosaic.Lib.Pipeline.FrameBody
import Idealize.ShloMosaic.Lib.Pipeline.Value

noncomputable section

namespace Cert.Kernel.R5

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

def cond1 (i : grid5.Coords) : BitVec 1 :=
  Scalar.cmpi .ne (Scalar.extui (Scalar.cmpi .eq (BitVec.ofNat 32 (i 1).val) 0#32)) 0#32

/-- The accumulator after a point: the one before it (zeros at the first edge block) plus the point's product. -/
def accStep (i : grid5.Coords) (s : Vec F S1x3200 .i32) (mg : Vec F S3200x128 .bf16) (a : Vec F S1000x128 .f32) :
    FVec F S1000x128 .f32 :=
  k5_pay2 i s mg (if cond1 i = 1#1 then k5_pay1 else a)

/-- The output block after a point: at the last edge block the layer applied to the node rows plus the accumulator. -/
def outStep (i : grid5.Coords) (s : Vec F S1x3200 .i32) (mg : Vec F S3200x128 .bf16) (x : Vec F S1000x128 .f32)
    (wt : Vec F S128x64 .f32) (b : Vec F S1x64 .f32) (o : Vec F S1000x64 .f32) (a : Vec F S1000x128 .f32) :
    Vec F S1000x64 .f32 :=
  if k5_cond2 i = 1#1 then k5_pay3 x (accStep i s mg a) wt b else o

theorem sound_kernel (c : Dev nD) (i : grid5.Coords)
    (arg2 : Memref sig .tc .vmem S1x3200 .i32) (harg2 : arg2.IsWhole) (arg3 : Memref sig .tc .vmem S3200x128 .bf16) (harg3 : arg3.IsWhole)
    (arg4 : Memref sig .tc .vmem S1000x128 .f32) (harg4 : arg4.IsWhole) (arg5 : Memref sig .tc .vmem S128x64 .f32) (harg5 : arg5.IsWhole)
    (arg6 : Memref sig .tc .vmem S1x64 .f32) (harg6 : arg6.IsWhole) (arg7 : Memref sig .tc .vmem S1000x64 .f32) (harg7 : arg7.IsWhole)
    (arg8 : Memref sig .tc .vmem S1000x128 .f32) (harg8 : arg8.IsWhole)
    (s : Vec F S1x3200 .i32) (mg : Vec F S3200x128 .bf16) (x : Vec F S1000x128 .f32) (wt : Vec F S128x64 .f32)
    (b : Vec F S1x64 .f32) (o : Vec F S1000x64 .f32) (a : Vec F S1000x128 .f32)
    (K : PUnit → sProp 𝕄) :
    iprop(owns (c : Thread nD τ) arg2 fullShare s ∗ owns (c : Thread nD τ) arg3 fullShare mg
        ∗ owns (c : Thread nD τ) arg4 fullShare x ∗ owns (c : Thread nD τ) arg5 fullShare wt
        ∗ owns (c : Thread nD τ) arg6 fullShare b ∗ owns (c : Thread nD τ) arg7 fullShare o
        ∗ owns (c : Thread nD τ) arg8 fullShare a
        ∗ (iprop(owns (c : Thread nD τ) arg2 fullShare s ∗ owns (c : Thread nD τ) arg3 fullShare mg
            ∗ owns (c : Thread nD τ) arg4 fullShare x ∗ owns (c : Thread nD τ) arg5 fullShare wt
            ∗ owns (c : Thread nD τ) arg6 fullShare b
            ∗ owns (c : Thread nD τ) arg7 fullShare (outStep i s mg x wt b o a)
            ∗ owns (c : Thread nD τ) arg8 fullShare (accStep i s mg a)) -∗ K ⟨⟩))
      ⊢ wp frame (wpE (defs₀ (F := F)) Variants.none c none) Set.univ
          (cc5__phaseBC_kernel i arg2 harg2 arg3 harg3 arg4 harg4 arg5 harg5 arg6 harg6 arg7 harg7 arg8 harg8) K := by
  simp only [cc5__phaseBC_kernel_eq_skeleton]; unfold cc5__phaseBC_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  by_cases h1 : cond1 i = 1#1 <;> by_cases h2 : k5_cond2 i = 1#1
  all_goals
    sl_exec (disch := first | exact h1 | exact h2)
    sl_step
    iapply Hk
    isplitl [H2]; · iapply Scatter.owns_of_read _ _ _ _ rfl $$ H2
    isplitl [H3]; · iapply Scatter.owns_of_read _ _ _ _ rfl $$ H3
    isplitl [H4]; · iapply Scatter.owns_of_read _ _ _ _ rfl $$ H4
    isplitl [H5]; · iapply Scatter.owns_of_read _ _ _ _ rfl $$ H5
    isplitl [H6]; · iapply Scatter.owns_of_read _ _ _ _ rfl $$ H6
    isplitl [H7]
    · iapply Scatter.owns_of_read _ _ _ _ ?_ $$ H7
      sl_unfold_words; unfold outStep accStep
      simp (disch := first | exact h1 | exact h2) only [if_pos, if_neg, Scatter.read_head, Scatter.readCov_head, View.readAt_eq_ld, Scatter.ld_whole]
    · iapply Scatter.owns_of_read _ _ _ _ ?_ $$ H8
      sl_unfold_words; unfold accStep
      simp (disch := exact h1) only [if_pos, if_neg, Scatter.read_head, Scatter.readCov_head, View.readAt_eq_ld, Scatter.ld_whole]

theorem coord1 (t : Fin cfg5.N) : (grid5.coords t 1).val = t.val % 250 := by
  show t.val / grid5.stride 1 % 250 = t.val % 250
  rw [show grid5.stride 1 = 1 from by decide, Nat.div_one]

theorem cond1_iff (t : Fin cfg5.N) : cond1 (grid5.coords t) = 1#1 ↔ t.val % 250 = 0 := by
  rw [← coord1 t]; exact Scatter.cond1_coord (grid5.coords t 1)

theorem cond2_iff (t : Fin cfg5.N) : k5_cond2 (grid5.coords t) = 1#1 ↔ t.val % 250 = 249 := by
  rw [← coord1 t]; exact Scatter.cond2_coord (grid5.coords t 1)

theorem accStep_first {i : grid5.Coords} (h : cond1 i = 1#1) (s : Vec F S1x3200 .i32) (mg : Vec F S3200x128 .bf16)
    (a a' : Vec F S1000x128 .f32) : accStep i s mg a = accStep i s mg a' := by
  unfold accStep; rw [if_pos h, if_pos h]

section Data

variable (c : Dev nD) (W : (b : Ref sig .tc) → Buf (Elt F) ((c : Thread nD τ).loc b))

def blk (w : Fin cfg5.W) (t : Fin cfg5.N) : ((cfg5.win w).xblock (cfg5.grid.coords t)).Idx → Elt F (cfg5.win w).elt :=
  ((cfg5.win w).blk t).view.read (Elt F) (W (Pipeline.arrRef spec5 w))

def pt (n : ℕ) : Fin cfg5.N := ⟨n % 12500, Nat.mod_lt _ (by decide)⟩

theorem pt_val (t : Fin cfg5.N) : pt t.val = t := Fin.ext (Nat.mod_eq_of_lt t.isLt)

/-- The accumulator after point `n`. -/
def acc : ℕ → FVec F S1000x128 .f32
  | 0 => accStep (grid5.coords (pt 0)) (blk c W 0 (pt 0)) (blk c W 1 (pt 0)) k5_pay1
  | n + 1 => accStep (grid5.coords (pt (n + 1))) (blk c W 0 (pt (n + 1))) (blk c W 1 (pt (n + 1))) (acc n)

abbrev scM : Memref sig .tc .vmem S1000x128 .f32 := Memref.whole cc5_scratch0

def PhiS : ℕ → sProp 𝕄
  | 0 => Pipeline.scopedRest (Ix := Unit) (Name := ℕ) (U := UR sig nD τ) (Lvl := ℕ) (Val := Elt F) spec5 c
  | n + 1 => iprop(owns (c : Thread nD τ) scM fullShare (acc c W n)
      ∗ Pipeline.scopedRestBut (Ix := Unit) (Name := ℕ) (U := UR sig nD τ) (Lvl := ℕ) (Val := Elt F) spec5 c [cc5_scratch0])

def dat : Dat τ (Elt F) Unit ℕ (UR sig nD τ) ℕ cfg5 c where
  A w := W (Pipeline.arrRef spec5 w)
  after w t := match w with
    | ⟨0, _⟩ => blk c W 0 t
    | ⟨1, _⟩ => blk c W 1 t
    | ⟨2, _⟩ => blk c W 2 t
    | ⟨3, _⟩ => blk c W 3 t
    | ⟨4, _⟩ => blk c W 4 t
    | ⟨5, _⟩ => k5_pay3 (blk c W 2 t) (acc c W t.val) (blk c W 3 t) (blk c W 4 t)
  Φ t := PhiS c W t.val
  q _ := fullShare
  owed _ := 0

theorem PhiS_succ (n : ℕ) : PhiS c W (n + 1) = iprop(owns (c : Thread nD τ) scM fullShare (acc c W n)
      ∗ Pipeline.scopedRestBut (Ix := Unit) (Name := ℕ) (U := UR sig nD τ) (Lvl := ℕ) (Val := Elt F) spec5 c [cc5_scratch0]) := rfl

theorem A_eq (w : Fin cfg5.W) : (dat c W).A w = W (Pipeline.arrRef spec5 w) := by dsimp only [dat]
theorem after_0 (t : Fin cfg5.N) : (dat c W).after 0 t = blk c W 0 t := by dsimp only [dat]
theorem after_1 (t : Fin cfg5.N) : (dat c W).after 1 t = blk c W 1 t := by dsimp only [dat]
theorem after_2 (t : Fin cfg5.N) : (dat c W).after 2 t = blk c W 2 t := by dsimp only [dat]
theorem after_3 (t : Fin cfg5.N) : (dat c W).after 3 t = blk c W 3 t := by dsimp only [dat]
theorem after_4 (t : Fin cfg5.N) : (dat c W).after 4 t = blk c W 4 t := by dsimp only [dat]
theorem after_5 (t : Fin cfg5.N) :
    (dat c W).after 5 t = k5_pay3 (blk c W 2 t) (acc c W t.val) (blk c W 3 t) (blk c W 4 t) := by dsimp only [dat]

theorem before_in (t : Fin cfg5.N) : (∀ d, (dat c W).before 0 t d = blk c W 0 t) ∧ (∀ d, (dat c W).before 1 t d = blk c W 1 t)
    ∧ (∀ d, (dat c W).before 2 t d = blk c W 2 t) ∧ (∀ d, (dat c W).before 3 t d = blk c W 3 t)
    ∧ (∀ d, (dat c W).before 4 t d = blk c W 4 t) := by
  refine ⟨fun d => ?_, fun d => ?_, fun d => ?_, fun d => ?_, fun d => ?_⟩
  all_goals
    refine ((dat c W).before_in_eq_fetched _ rfl (fun _ => rfl) (fun _ _ _ => rfl) (fun t => ?_) t d).trans ?_
    · simp only [after_0, after_1, after_2, after_3, after_4]; unfold Dat.blockOf blk; rw [A_eq]; try rfl
    · unfold Dat.fetched Dat.blockOf blk; rw [A_eq]; try rfl

theorem Phi_castSucc (t : Fin cfg5.N) : (dat c W).Φ t.castSucc = PhiS c W t.val := by
  dsimp only [dat]; simp only [Fin.coe_castSucc]
theorem Phi_succ (t : Fin cfg5.N) : (dat c W).Φ t.succ = PhiS c W (t.val + 1) := by
  dsimp only [dat]; simp only [Fin.val_succ]

theorem acc_step (t : Fin cfg5.N) (a : Vec F S1000x128 .f32) (ha : t.val % 250 ≠ 0 → a = acc c W (t.val - 1)) :
    accStep (grid5.coords t) (blk c W 0 t) (blk c W 1 t) a = acc c W t.val := by
  have hp := pt_val t
  rcases h : t.val with _ | n <;> rw [h] at hp ha <;> unfold acc <;> rw [hp]
  · exact accStep_first ((cond1_iff t).mpr (by rw [h])) _ _ _ _
  · by_cases h0 : (n + 1) % 250 = 0
    · exact accStep_first ((cond1_iff t).mpr (by rw [h]; exact h0)) _ _ _ _
    · rw [ha h0]; rfl

end Data

abbrev st_0 (t : Fin cfg5.N) := (cfg5.win 0).stage (cfg5.slots t 0)
abbrev st_1 (t : Fin cfg5.N) := (cfg5.win 1).stage (cfg5.slots t 1)
abbrev st_2 (t : Fin cfg5.N) := (cfg5.win 2).stage (cfg5.slots t 2)
abbrev st_3 (t : Fin cfg5.N) := (cfg5.win 3).stage (cfg5.slots t 3)
abbrev st_4 (t : Fin cfg5.N) := (cfg5.win 4).stage (cfg5.slots t 4)
abbrev st_5 (t : Fin cfg5.N) := (cfg5.win 5).stage (cfg5.slots t 5)

theorem coord0 (t : Fin cfg5.N) : (grid5.coords t 0).val = t.val / 250 % 50 := by
  show t.val / grid5.stride 0 % 50 = t.val / 250 % 50
  rw [show grid5.stride 0 = 250 from by decide]

/-- Before the last edge block of a node block the next point has the same node block, so the output block stays. -/
theorem no_flush (t : Fin cfg5.N) (h : t.val % 250 ≠ 249) : (cfg5.win 5).flush t = false := by
  have hlt : t.val < 12500 := N_5 ▸ t.isLt
  rw [Pipeline.Window.flush_eq_flushOf]
  unfold Pipeline.Window.flushOf
  have h1 : ¬ (t.val + 1 = grid5.N) := by rw [N_5]; omega
  have h2 : ¬ ∃ hl : t.val + 1 < grid5.N,
      (cfg5.win 5).indexMap (grid5.coords ⟨t.val + 1, hl⟩) ≠ (cfg5.win 5).indexMap (grid5.coords t) := by
    rintro ⟨hl, hne⟩
    refine hne (hreads5_5 _ _ fun a ha => ?_)
    match a, ha with
    | ⟨0, _⟩, _ => exact Scatter.coord0_succ t hl h
    | ⟨1, _⟩, ha => exact (Bool.false_ne_true ha).elim
  simp [h1, h2]

section Body

variable (c : Dev nD) (W : (b : Ref sig .tc) → Buf (Elt F) ((c : Thread nD τ).loc b))

theorem PhiS_open (t : Fin cfg5.N) :
    PhiS c W t.val ⊢ (iprop(∃ a : Vec F S1000x128 .f32, ⌜t.val % 250 ≠ 0 → a = acc c W (t.val - 1)⌝
      ∗ owns (c : Thread nD τ) scM fullShare a
      ∗ Pipeline.scopedRestBut (Ix := Unit) (Name := ℕ) (U := UR sig nD τ) (Lvl := ℕ) (Val := Elt F) spec5 c [cc5_scratch0]) : sProp 𝕄) := by
  rcases h : t.val with _ | n
  · unfold PhiS; rw [scopedRest5_split]
    iintro ⟨⟨%f, Hf⟩, Hr⟩
    iexists f; rw [owns_whole]; iframe Hf Hr
    ipureintro; exact fun h => absurd rfl h
  · rw [PhiS_succ]
    iintro ⟨Ha, Hr⟩
    iexists acc c W n; iframe Ha Hr
    ipureintro; exact fun _ => rfl

def bodyPre (t : Fin cfg5.N) : sProp 𝕄 :=
  iprop((dat c W).Φ t.castSucc ∗ (dat c W).owesAt () t.castSucc
    ∗ (∃ d, owns (c : Thread nD τ) (st_0 t) fullShare ((dat c W).before 0 t d))
    ∗ (∃ d, owns (c : Thread nD τ) (st_1 t) fullShare ((dat c W).before 1 t d))
    ∗ (∃ d, owns (c : Thread nD τ) (st_2 t) fullShare ((dat c W).before 2 t d))
    ∗ (∃ d, owns (c : Thread nD τ) (st_3 t) fullShare ((dat c W).before 3 t d))
    ∗ (∃ d, owns (c : Thread nD τ) (st_4 t) fullShare ((dat c W).before 4 t d))
    ∗ (∃ d, owns (c : Thread nD τ) (st_5 t) fullShare ((dat c W).before 5 t d)))

def bodyPost (t : Fin cfg5.N) : sProp 𝕄 :=
  iprop((dat c W).Φ t.succ ∗ (dat c W).owesAt () t.succ
    ∗ owns (c : Thread nD τ) (st_0 t) fullShare ((dat c W).after 0 t)
    ∗ owns (c : Thread nD τ) (st_1 t) fullShare ((dat c W).after 1 t)
    ∗ owns (c : Thread nD τ) (st_2 t) fullShare ((dat c W).after 2 t)
    ∗ owns (c : Thread nD τ) (st_3 t) fullShare ((dat c W).after 3 t)
    ∗ owns (c : Thread nD τ) (st_4 t) fullShare ((dat c W).after 4 t)
    ∗ (dat c W).leavesExact 5 t)

/-- What the body leaves in the output block's buffer is what the region is owed there: the layer's rows at the last
    edge block, and before it the buffer as found. -/
theorem out_leaves (t : Fin cfg5.N) (d) (a : Vec F S1000x128 .f32)
    (e : accStep (grid5.coords t) (blk c W 0 t) (blk c W 1 t) a = acc c W t.val) :
    owns (c : Thread nD τ) (st_5 t) fullShare (outStep (grid5.coords t) (blk c W 0 t) (blk c W 1 t) (blk c W 2 t) (blk c W 3 t)
        (blk c W 4 t) ((dat c W).before 5 t d) a) ⊢ ((dat c W).leavesExact 5 t : sProp 𝕄) := by
  unfold outStep
  by_cases h2 : k5_cond2 (grid5.coords t) = 1#1
  · have hi : cfg5.idle 5 (cfg5.grid.coords t) = false := by
      show (!(k5_cond2 (grid5.coords t) == 1#1)) = false
      rw [h2]; rfl
    unfold Dat.leavesExact; rw [hi, if_pos h2, e, after_5]
  · have hi : cfg5.idle 5 (cfg5.grid.coords t) = true := by
      show (!(k5_cond2 (grid5.coords t) == 1#1)) = true
      simp [h2]
    rw [(dat c W).leavesExact_idle 5 t hi (no_flush t fun h => h2 ((cond2_iff t).mpr h)), if_neg h2]
    iintro H; iexists d; iexact H

theorem sound_body (t : Fin cfg5.N) :
    bodyPre c W t ⊢ wp frame (wpE (defs₀ (F := F)) Variants.none c none) Set.univ (defs₀ .tc cfg5.body (cfg5.bodyArgs t (cfg5.slots t))) (fun _ => bodyPost c W t) := by
  unfold bodyPre bodyPost
  sl_whnfR [defs₀, Defs.onTc]
  simp only [before_in c W t]
  rw [Phi_castSucc, Phi_succ, after_0, after_1, after_2, after_3, after_4,
    show (dat c W).owesAt () t.succ = (dat c W).owesAt () t.castSucc from rfl]
  iintro ⟨HΦ, Ho, ⟨%d0, H0⟩, ⟨%d1, H1⟩, ⟨%d2, H2⟩, ⟨%d3, H3⟩, ⟨%d4, H4⟩, ⟨%d5, H5⟩⟩
  ihave HΦ' := (PhiS_open c W t) $$ HΦ
  icases HΦ' with ⟨%a, %ha, Ha, Hr⟩
  have e := acc_step c W t a ha
  iapply (sound_kernel c (grid5.coords t) _ _ _ _ _ _ _ _ _ _ _ _ scM (Memref.isWhole_whole _) (blk c W 0 t) (blk c W 1 t)
    (blk c W 2 t) (blk c W 3 t) (blk c W 4 t) ((dat c W).before 5 t d5) a _)
  iframe H0 H1 H2 H3 H4 H5 Ha
  iintro ⟨H0, H1, H2, H3, H4, H5, Ha⟩
  rw [e, PhiS_succ]
  iframe Ha Hr Ho H0 H1 H2 H3 H4
  iapply (out_leaves c W t d5 a e) $$ H5

theorem body_obligation : BodyObligation (dat (F := F) c W) (defs₀ (F := F)) Variants.none () Set.univ := fun t => by
  rw [bigSep_W5, bigSep_W5]
  exact sound_body c W t

theorem Phi_last : (dat c W).Φ (Fin.last cfg5.N)
    ⊢ (Pipeline.scopedRest (Ix := Unit) (Name := ℕ) (U := UR sig nD τ) (Lvl := ℕ) (Val := Elt F) spec5 c : sProp 𝕄) := by
  show PhiS c W (12499 + 1) ⊢ _
  rw [PhiS_succ, scopedRest5_split, owns_whole]
  iintro ⟨Ha, Hr⟩
  iframe Hr
  iexists _; iexact Ha

end Body

end Cert.Kernel.R5

end
-- ==== Proof.K.Chain.lean ====
import proofs.«430694_j29257317220564_2_alg».proof.Proof.K.R0
import proofs.«430694_j29257317220564_2_alg».proof.Proof.K.R1
import proofs.«430694_j29257317220564_2_alg».proof.Proof.K.R2
import proofs.«430694_j29257317220564_2_alg».proof.Proof.K.R3
import proofs.«430694_j29257317220564_2_alg».proof.Proof.K.R4
import proofs.«430694_j29257317220564_2_alg».proof.Proof.K.R5
import proofs.«430694_j29257317220564_2_alg».proof.Proof.Gen.Kernel.Regions
import Idealize.ShloMosaic.Lib.Pipeline.Regions
import Idealize.ShloMosaic.Lib.Pipeline.RegionsLoop
import Idealize.ShloMosaic.Lib.Pipeline.FrameSuffix

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (R0.dat c (V1 m c)).arrAt w cfg0.N
abbrev V2 : (c : Dev nD) → (b : Ref sig .tc) → Buf (Elt F) ((c : Thread nD τ).loc b) := fun c b => W2 m c b
abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (R1.dat c (V3 m c)).arrAt w cfg1.N
abbrev V4 : (c : Dev nD) → (b : Ref sig .tc) → Buf (Elt F) ((c : Thread nD τ).loc b) := fun c b => W4 m c b
abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (R2.dat c (V5 m c)).arrAt w cfg2.N
abbrev V6 : (c : Dev nD) → (b : Ref sig .tc) → Buf (Elt F) ((c : Thread nD τ).loc b) := fun c b => W6 m c b
abbrev W7 : Dev nD → Valuation τ sig (Elt F) := fun c => StableHlo.after hostOps3 (W6 m c)
abbrev V7 : (c : Dev nD) → (b : Ref sig .tc) → Buf (Elt F) ((c : Thread nD τ).loc b) := fun c b => W7 m c b
def W8 (c : Dev nD) : Valuation τ sig (Elt F) :=
  Pipeline.withArrays spec3 c (W7 m c) fun w => (R3.dat c (V7 m c)).arrAt w cfg3.N
abbrev V8 : (c : Dev nD) → (b : Ref sig .tc) → Buf (Elt F) ((c : Thread nD τ).loc b) := fun c b => W8 m c b
abbrev W9 : Dev nD → Valuation τ sig (Elt F) := fun c => StableHlo.after hostOps4 (W8 m c)
abbrev V9 : (c : Dev nD) → (b : Ref sig .tc) → Buf (Elt F) ((c : Thread nD τ).loc b) := fun c b => W9 m c b
def W10 (c : Dev nD) : Valuation τ sig (Elt F) :=
  Pipeline.withArrays spec4 c (W9 m c) fun w => (R4.dat c (V9 m c)).arrAt w cfg4.N
abbrev V10 : (c : Dev nD) → (b : Ref sig .tc) → Buf (Elt F) ((c : Thread nD τ).loc b) := fun c b => W10 m c b
abbrev W11 : Dev nD → Valuation τ sig (Elt F) := fun c => StableHlo.after hostOps5 (W10 m c)
abbrev V11 : (c : Dev nD) → (b : Ref sig .tc) → Buf (Elt F) ((c : Thread nD τ).loc b) := fun c b => W11 m c b
def W12 (c : Dev nD) : Valuation τ sig (Elt F) :=
  Pipeline.withArrays spec5 c (W11 m c) fun w => (R5.dat c (V11 m c)).arrAt w cfg5.N
abbrev V12 : (c : Dev nD) → (b : Ref sig .tc) → Buf (Elt F) ((c : Thread nD τ).loc b) := fun c b => W12 m c b

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => R0.dat c (V1 m c)
  | ⟨1, _⟩ => fun c => R1.dat c (V3 m c)
  | ⟨2, _⟩ => fun c => R2.dat c (V5 m c)
  | ⟨3, _⟩ => fun c => R3.dat c (V7 m c)
  | ⟨4, _⟩ => fun c => R4.dat c (V9 m c)
  | ⟨5, _⟩ => fun c => R5.dat c (V11 m c)

abbrev L : GSem nD τ sig → Finset Unit := fun _ => ∅
abbrev lv : GSem nD τ sig → Unit → ℕ := fun _ _ => 0

abbrev R (c : Dev nD) : sProp 𝕄 := iprop(∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Asm

end
-- ==== Proof.K.SegLib.lean ====
import proofs.«430694_j29257317220564_2_alg».proof.Proof.K.Chain

noncomputable section

namespace Cert.Kernel.Asm

open Cert.Kernel Cert.Kernel.Gen Idealize.ShloMosaic Idealize.ShloMosaic.TcCoe Idealize.SL Idealize.SL.RA Idealize.SL.BI Idealize.SL.BI.BIBase
open scoped Idealize.SL.BI

variable {F : FTy → Type} [FloatOps F] (m : (ℓ : Loc nD τ sig) → Buf (Elt F) ℓ)

/-- A region with no semaphore or table of its own that owes nothing takes the unscoped buffers from `Wi` to `Wo`, which differ at its arrays only. -/
def plainRegion {p : Fin 6} (lf : Pipeline.LaunchFacts (nD := nD) (τ := τ) cfgs p) (Wi Wo : Dev nD → Valuation τ sig (Elt F))
    (hbody : ∀ c, Pipeline.BodyObligationLoose (pdats m p c) defs₀ Variants.none () Set.univ)
    (howed : ∀ c t, (pdats m p c).owed t = 0) (hrec : ∀ c, (pdats m p c).recorded 0 = Set.univ)
    (hq : ∀ c w, (pdats m p c).q w = fullShare)
    (hA : ∀ c w, (pdats m p c).A w = Wi c (Pipeline.arrRef (cfgs p).spec w))
    (hΦ0 : ∀ c, Pipeline.scopedRest (cfgs p).spec c ⊢ (pdats m p c).Φ 0)
    (hΦN : ∀ c, (pdats m p c).Φ (Fin.last _) ⊢ Pipeline.scopedRest (cfgs p).spec c)
    (harr : ∀ c w, Wo c (Pipeline.arrRef (cfgs p).spec w) = (pdats m p c).arrAt w (cfgs p).N)
    (hne : ∀ c (b : Ref sig .tc), (∀ w, Pipeline.arrRef (cfgs p).spec w ≠ b) → Wo c b = Wi c b) :
    Pipeline.RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(emp)
  Y c := iprop(emp)
  Z c := Pipeline.unscopedRest (cfgs p).spec c fun b => Wi c b
  hentry c := by
    have hsplit := Pipeline.arrays_of_unscopedBufs (p := p) (pcfgs (F := F)) adm (pdats m) lf.win lf.arr_whole c
      ((pdats m p c).share_full (hq c)) (fun b => Wi c b) (hA c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c]
      icases HO with ⟨%W, HO⟩; iexists W; isplitr; · ipureintro; exact fun _ _ => Or.inl trivial
      iexact HO
    isplitr; · iempintro
    iexact Hrest
  hin c := by
    iintro ⟨-, -, Hr⟩
    iapply hΦ0 c; iexact Hr
  hout c := by
    rw [Pipeline.ownSems0_none]
    iintro H
    isplitr; · iempintro
    isplitr; · iempintro
    iapply hΦN c; iexact H
  hexit c := by
    rw [← Pipeline.unscopedBufs_held]
    iintro ⟨Ha, HO, -, Hrest⟩
    imodintro
    isplitl [Ha Hrest]
    · iapply Pipeline.unscopedBufs_of_arrays (p := p) (pcfgs (F := F)) adm lf.win lf.arr_whole c (pdats m)
        ((pdats m p c).share_full (hq c)) (fun b => Wi c b) _ _ (fun w => (harr c w).symm)
        fun b hb => hne c b fun w e => hb (Finset.mem_image.mpr ⟨w, Finset.mem_univ _, e⟩)
      isplitl [Ha] <;> iassumption
    unfold Pipeline.Dat.owesAt Pipeline.owesWithin
    rw [howed c]
    icases HO with ⟨%W, -, HO⟩; iexists W; iexact HO

end Cert.Kernel.Asm

end
-- ==== Proof.K.Seg0.lean ====
import proofs.«430694_j29257317220564_2_alg».proof.Proof.K.SegLib

namespace Cert.Kernel.Asm

open Cert.Kernel Cert.Kernel.Gen Idealize.ShloMosaic

variable {F : FTy → Type} [FloatOps F] (m : (ℓ : Loc nD τ sig) → Buf (Elt F) ℓ)

theorem W2_arr (c : Dev nD) (w : Fin cfg0.W) :
    W2 m c (Proc.devRef .tc (Pipeline.arrRef spec0 w)) = (R0.dat c (V1 m c)).arrAt w cfg0.N :=
  Pipeline.withArrays_arr spec0 launch0.win.arr_inj c _ _ w

theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb

noncomputable def reg0 : Pipeline.RegionSeg (pcfgs (F := F)) adm (pdats m) () defs₀ Variants.none L lv 0 :=
  plainRegion m launch0 (W1 m) (W2 m) (fun c => (R0.body_obligation c (V1 m c)).loose) (fun _ _ => rfl) (fun _ => rfl)
    (fun _ _ => rfl) (fun _ _ => rfl) (fun _ => .rfl) (fun c => R0.Phi_last c (V1 m c)) (W2_arr m) (W2_of_ne m)

end Cert.Kernel.Asm
-- ==== Proof.K.Seg1.lean ====
import proofs.«430694_j29257317220564_2_alg».proof.Proof.K.SegLib

namespace Cert.Kernel.Asm

open Cert.Kernel Cert.Kernel.Gen Idealize.ShloMosaic

variable {F : FTy → Type} [FloatOps F] (m : (ℓ : Loc nD τ sig) → Buf (Elt F) ℓ)

theorem W4_arr (c : Dev nD) (w : Fin cfg1.W) :
    W4 m c (Proc.devRef .tc (Pipeline.arrRef spec1 w)) = (R1.dat c (V3 m c)).arrAt w cfg1.N :=
  Pipeline.withArrays_arr spec1 launch1.win.arr_inj c _ _ w

theorem W4_of_ne (c : Dev nD) (b : Ref sig .tc) (hb : ∀ w, Pipeline.arrRef spec1 w ≠ b) :
    W4 m c (Proc.devRef .tc b) = W3 m c (Proc.devRef .tc b) :=
  Pipeline.withArrays_of_ne spec1 c _ _ b hb

noncomputable def reg1 : Pipeline.RegionSeg (pcfgs (F := F)) adm (pdats m) () defs₀ Variants.none L lv 1 :=
  plainRegion m launch1 (W3 m) (W4 m) (fun c => (R1.body_obligation c (V3 m c)).loose) (fun _ _ => rfl) (fun _ => rfl)
    (fun _ _ => rfl) (fun _ _ => rfl) (fun _ => .rfl) (fun c => R1.Phi_last c (V3 m c)) (W4_arr m) (W4_of_ne m)

end Cert.Kernel.Asm
-- ==== Proof.K.Seg2.lean ====
import proofs.«430694_j29257317220564_2_alg».proof.Proof.K.SegLib

namespace Cert.Kernel.Asm

open Cert.Kernel Cert.Kernel.Gen Idealize.ShloMosaic

variable {F : FTy → Type} [FloatOps F] (m : (ℓ : Loc nD τ sig) → Buf (Elt F) ℓ)

theorem W6_arr (c : Dev nD) (w : Fin cfg2.W) :
    W6 m c (Proc.devRef .tc (Pipeline.arrRef spec2 w)) = (R2.dat c (V5 m c)).arrAt w cfg2.N :=
  Pipeline.withArrays_arr spec2 launch2.win.arr_inj c _ _ w

theorem W6_of_ne (c : Dev nD) (b : Ref sig .tc) (hb : ∀ w, Pipeline.arrRef spec2 w ≠ b) :
    W6 m c (Proc.devRef .tc b) = W5 m c (Proc.devRef .tc b) :=
  Pipeline.withArrays_of_ne spec2 c _ _ b hb

noncomputable def reg2 : Pipeline.RegionSeg (pcfgs (F := F)) adm (pdats m) () defs₀ Variants.none L lv 2 :=
  plainRegion m launch2 (W5 m) (W6 m) (fun c => (R2.body_obligation c (V5 m c)).loose) (fun _ _ => rfl) (fun _ => rfl)
    (fun _ _ => rfl) (fun _ _ => rfl) (fun _ => .rfl) (fun c => R2.Phi_last c (V5 m c)) (W6_arr m) (W6_of_ne m)

end Cert.Kernel.Asm
-- ==== Proof.K.Seg3.lean ====
import proofs.«430694_j29257317220564_2_alg».proof.Proof.K.SegLib

namespace Cert.Kernel.Asm

open Cert.Kernel Cert.Kernel.Gen Idealize.ShloMosaic

variable {F : FTy → Type} [FloatOps F] (m : (ℓ : Loc nD τ sig) → Buf (Elt F) ℓ)

theorem W8_arr (c : Dev nD) (w : Fin cfg3.W) :
    W8 m c (Proc.devRef .tc (Pipeline.arrRef spec3 w)) = (R3.dat c (V7 m c)).arrAt w cfg3.N :=
  Pipeline.withArrays_arr spec3 launch3.win.arr_inj c _ _ w

theorem W8_of_ne (c : Dev nD) (b : Ref sig .tc) (hb : ∀ w, Pipeline.arrRef spec3 w ≠ b) :
    W8 m c (Proc.devRef .tc b) = W7 m c (Proc.devRef .tc b) :=
  Pipeline.withArrays_of_ne spec3 c _ _ b hb

noncomputable def reg3 : Pipeline.RegionSeg (pcfgs (F := F)) adm (pdats m) () defs₀ Variants.none L lv 3 :=
  plainRegion m launch3 (W7 m) (W8 m) (fun c => (R3.body_obligation c (V7 m c)).loose) (fun _ _ => rfl) (fun _ => rfl)
    (fun _ _ => rfl) (fun _ _ => rfl) (fun _ => .rfl) (fun c => R3.Phi_last c (V7 m c)) (W8_arr m) (W8_of_ne m)

end Cert.Kernel.Asm
-- ==== Proof.K.Seg4.lean ====
import proofs.«430694_j29257317220564_2_alg».proof.Proof.K.SegLib

namespace Cert.Kernel.Asm

open Cert.Kernel Cert.Kernel.Gen Idealize.ShloMosaic

variable {F : FTy → Type} [FloatOps F] (m : (ℓ : Loc nD τ sig) → Buf (Elt F) ℓ)

theorem W10_arr (c : Dev nD) (w : Fin cfg4.W) :
    W10 m c (Proc.devRef .tc (Pipeline.arrRef spec4 w)) = (R4.dat c (V9 m c)).arrAt w cfg4.N :=
  Pipeline.withArrays_arr spec4 launch4.win.arr_inj c _ _ w

theorem W10_of_ne (c : Dev nD) (b : Ref sig .tc) (hb : ∀ w, Pipeline.arrRef spec4 w ≠ b) :
    W10 m c (Proc.devRef .tc b) = W9 m c (Proc.devRef .tc b) :=
  Pipeline.withArrays_of_ne spec4 c _ _ b hb

noncomputable def reg4 : Pipeline.RegionSeg (pcfgs (F := F)) adm (pdats m) () defs₀ Variants.none L lv 4 :=
  plainRegion m launch4 (W9 m) (W10 m) (fun c => (R4.body_obligation c (V9 m c)).loose) (fun _ _ => rfl) (fun _ => rfl)
    (fun _ _ => rfl) (fun _ _ => rfl) (fun _ => .rfl) (fun c => R4.Phi_last c (V9 m c)) (W10_arr m) (W10_of_ne m)

end Cert.Kernel.Asm
-- ==== Proof.K.Seg5.lean ====
import proofs.«430694_j29257317220564_2_alg».proof.Proof.K.SegLib

namespace Cert.Kernel.Asm

open Cert.Kernel Cert.Kernel.Gen Idealize.ShloMosaic

variable {F : FTy → Type} [FloatOps F] (m : (ℓ : Loc nD τ sig) → Buf (Elt F) ℓ)

theorem W12_arr (c : Dev nD) (w : Fin cfg5.W) :
    W12 m c (Proc.devRef .tc (Pipeline.arrRef spec5 w)) = (R5.dat c (V11 m c)).arrAt w cfg5.N :=
  Pipeline.withArrays_arr spec5 launch5.win.arr_inj c _ _ w

theorem W12_of_ne (c : Dev nD) (b : Ref sig .tc) (hb : ∀ w, Pipeline.arrRef spec5 w ≠ b) :
    W12 m c (Proc.devRef .tc b) = W11 m c (Proc.devRef .tc b) :=
  Pipeline.withArrays_of_ne spec5 c _ _ b hb

noncomputable def reg5 : Pipeline.RegionSeg (pcfgs (F := F)) adm (pdats m) () defs₀ Variants.none L lv 5 :=
  plainRegion m launch5 (W11 m) (W12 m) (fun c => (R5.body_obligation c (V11 m c)).loose) (fun _ _ => rfl) (fun _ => rfl)
    (fun _ _ => rfl) (fun _ _ => rfl) (fun _ => .rfl) (fun c => R5.Phi_last c (V11 m c)) (W12_arr m) (W12_of_ne m)

end Cert.Kernel.Asm
-- ==== Proof.K.Run.lean ====
import proofs.«430694_j29257317220564_2_alg».proof.Proof.K.Seg0
import proofs.«430694_j29257317220564_2_alg».proof.Proof.K.Seg1
import proofs.«430694_j29257317220564_2_alg».proof.Proof.K.Seg2
import proofs.«430694_j29257317220564_2_alg».proof.Proof.K.Seg3
import proofs.«430694_j29257317220564_2_alg».proof.Proof.K.Seg4
import proofs.«430694_j29257317220564_2_alg».proof.Proof.K.Seg5

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

theorem W12_of_untouched (c : Dev nD) (r : Ref sig .tc)
    (h0 : r ∉ hostOps0_W) (h1 : r ∉ hostOps1_W) (h2 : r ∉ hostOps2_W) (h3 : r ∉ hostOps3_W) (h4 : r ∉ hostOps4_W) (h5 : r ∉ hostOps5_W)
    (a0 : ∀ w, Pipeline.arrRef spec0 w ≠ r) (a1 : ∀ w, Pipeline.arrRef spec1 w ≠ r) (a2 : ∀ w, Pipeline.arrRef spec2 w ≠ r)
    (a3 : ∀ w, Pipeline.arrRef spec3 w ≠ r) (a4 : ∀ w, Pipeline.arrRef spec4 w ≠ r) (a5 : ∀ w, Pipeline.arrRef spec5 w ≠ r) :
    W12 m c (Proc.devRef .tc r) = m ((c : Thread nD τ).loc r) :=
  calc W12 m c (Proc.devRef .tc r)
    _ = W11 m c (Proc.devRef .tc r) := W12_of_ne m c r a5
    _ = W10 m c (Proc.devRef .tc r) := StableHlo.after_of_writes_sub hostOps5 _ hostOps5_writes h5
    _ = W9 m c (Proc.devRef .tc r) := W10_of_ne m c r a4
    _ = W8 m c (Proc.devRef .tc r) := StableHlo.after_of_writes_sub hostOps4 _ hostOps4_writes h4
    _ = W7 m c (Proc.devRef .tc r) := W8_of_ne m c r a3
    _ = W6 m c (Proc.devRef .tc r) := StableHlo.after_of_writes_sub hostOps3 _ hostOps3_writes h3
    _ = W5 m c (Proc.devRef .tc r) := W6_of_ne m c r a2
    _ = W4 m c (Proc.devRef .tc r) := StableHlo.after_of_writes_sub hostOps2 _ hostOps2_writes h2
    _ = W3 m c (Proc.devRef .tc r) := W4_of_ne m c r a1
    _ = W2 m c (Proc.devRef .tc r) := StableHlo.after_of_writes_sub hostOps1 _ hostOps1_writes h1
    _ = W1 m c (Proc.devRef .tc r) := W2_of_ne m c r a0
    _ = W0 m c (Proc.devRef .tc r) := StableHlo.after_of_writes_sub hostOps0 _ hostOps0_writes h0
    _ = m ((c : Thread nD τ).loc r) := rfl

theorem W12_main_arg0 (c : Dev nD) : W12 m c (Proc.devRef .tc main_arg0) = m ((c : Thread nD τ).loc main_arg0) :=
  calc W12 m c (Proc.devRef .tc main_arg0)
    _ = W11 m c (Proc.devRef .tc main_arg0) := W12_of_ne m c main_arg0 (by decide)
    _ = W10 m c (Proc.devRef .tc main_arg0) := StableHlo.after_of_writes_sub hostOps5 _ hostOps5_writes (by decide)
    _ = W9 m c (Proc.devRef .tc main_arg0) := W10_of_ne m c main_arg0 (by decide)
    _ = W8 m c (Proc.devRef .tc main_arg0) := StableHlo.after_of_writes_sub hostOps4 _ hostOps4_writes (by decide)
    _ = W7 m c (Proc.devRef .tc main_arg0) := W8_of_ne m c main_arg0 (by decide)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := (W4_arr m c 2).trans (((R1.dat c (V3 m c)).arrAt_in 2 rfl _).trans (R1.A_eq c (V3 m c) 2))
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W12_args (c : Dev nD) : ∀ r ∈ [main_arg1, main_arg2, main_arg3, main_arg4, main_arg5, main_arg6, main_arg7, main_arg8],
    W12 m c (Proc.devRef .tc r) = m ((c : Thread nD τ).loc r) := by
  intro r hr
  simp only [List.mem_cons, List.mem_nil_iff, or_false] at hr
  rcases hr with rfl | rfl | rfl | rfl | rfl | rfl | rfl | rfl <;>
    exact W12_of_untouched m c _ (by decide) (by decide) (by decide) (by decide) (by decide) (by decide)
      (by decide) (by decide) (by decide) (by decide) (by decide) (by decide)

abbrev segs : List (Pipeline.Seg (pcfgs (F := F)) adm (pdats m) () defs₀ Variants.none L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m) ]

theorem main_run (c : Dev nD) : main (F := F) c = Pipeline.Seg.run (segs m) := (main_chain c).trans (by chain_rfl)

abbrev Tₙ (c : Dev nD) : sProp 𝕄 := StableHlo.held (c : Thread nD τ) (Pipeline.ucRefs τ sig) (W12 m c)

set_option backward.isDefEq.respectTransparency.types false in
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = W12 m c b)
    (hfin := fun c s' => by
      unfold Tₙ StableHlo.held
      iintro ⟨Hh, HSI⟩
      imodintro
      iapply (pointsTo_read_all (Pipeline.ucRefs τ sig) (fun b => (((c : Thread nD τ)).1, b)) (W12 m c) s')
      isplitl [Hh] <;> iassumption)
    (hQ := fun _ h => h)

theorem run_result (ρ : Dev nD → PrngReg) :
    θ_run defs (onTc (τ := τ) (main (F := F))) ⟨m, fun _ => 0, ρ⟩ (fun r => ∀ c : Dev nD,
      r.2.mem ((c.tc : Thread nD τ).loc main_v16) = (R5.dat c (V11 m c)).arrAt 5 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v16 (by decide))).trans (W12_arr m c 5),
     (h c _ (mem_uc main_arg0 (by decide))).trans (W12_main_arg0 m c),
     (h c _ (mem_uc main_arg1 (by decide))).trans (W12_args m c _ (by decide)),
     (h c _ (mem_uc main_arg2 (by decide))).trans (W12_args m c _ (by decide)),
     (h c _ (mem_uc main_arg3 (by decide))).trans (W12_args m c _ (by decide)),
     (h c _ (mem_uc main_arg4 (by decide))).trans (W12_args m c _ (by decide)),
     (h c _ (mem_uc main_arg5 (by decide))).trans (W12_args m c _ (by decide)),
     (h c _ (mem_uc main_arg6 (by decide))).trans (W12_args m c _ (by decide)),
     (h c _ (mem_uc main_arg7 (by decide))).trans (W12_args m c _ (by decide)),
     (h c _ (mem_uc main_arg8 (by decide))).trans (W12_args m c _ (by decide))⟩) (run_all m ρ)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.Kernel.Asm

end
-- ==== Proof.KI.Gather.lean ====
import proofs.«430694_j29257317220564_2_alg».proof.Proof.Gen.KernelIdeal.Skeleton
import proofs.«430694_j29257317220564_2_alg».proof.Proof.Gen.KernelIdeal.Launch
import Idealize.ShloMosaic.Lib.Tactic
import Idealize.ShloMosaic.Lib.Pipeline.Kit
import Idealize.ShloMosaic.Lib.Pipeline.Frame
import Idealize.ShloMosaic.Lib.Pipeline.FrameBody
import Idealize.ShloMosaic.Lib.Pipeline.Value

noncomputable section

namespace Cert.KernelIdeal.Gather

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

/-- Set at the points whose node block is the first. -/
def cond1 (i : grid0.Coords) : BitVec 1 :=
  Scalar.cmpi .ne (Scalar.extui (Scalar.cmpi .eq (BitVec.ofNat 32 (i 1).val) 0#32)) 0#32

/-- The accumulator after a point: the one before it (zeros at the first node block) plus the point's selector product. -/
def accStep (i : grid0.Coords) (s : Vec F S1x3200 .i32) (x : Vec F S1000x128 .bf16) (a : Vec F S3200x128 .f32) :
    FVec F S3200x128 .f32 :=
  k0_pay2 i s x (if cond1 i = 1#1 then k0_pay1 else a)

/-- The message block after a point: the narrowed accumulator at the last node block, otherwise as found. -/
def outStep (i : grid0.Coords) (s : Vec F S1x3200 .i32) (x : Vec F S1000x128 .bf16) (o : Vec F S3200x128 .bf16)
    (a : Vec F S3200x128 .f32) : Vec F S3200x128 .bf16 :=
  if k0_cond2 i = 1#1 then k0_pay3 (accStep i s x a) else o

abbrev rAcc : Rect S3200x128 := Rect.unit (s := S3200x128) ![0, 0] S3200x128.size inb_S3200x128_S3200x128_0_0

theorem off0 : (![0, 0] : Fin 2 → ℕ) = fun _ => 0 := funext fun a => by fin_cases a <;> rfl

theorem cover_head {e : EltTy} (w : S3200x128.Idx → Elt F e) (L : List (View.Piece (Elt F) S3200x128 e)) (y : S3200x128.Idx) :
    ∃ pc ∈ ((⟨rAcc, w⟩ : View.Piece (Elt F) S3200x128 e) :: L), y ∈ pc.1.set := by
  obtain ⟨p, hp, hy⟩ := View.cover_of_tiled [(⟨rAcc, w⟩ : View.Piece (Elt F) S3200x128 e)] S3200x128.size (by rfl) y
  rw [List.mem_singleton] at hp; subst hp
  exact ⟨_, List.mem_cons_self, hy⟩

theorem readCov_head {κ : Kind} {sp : Space} {e : EltTy} (v : View sig κ sp S3200x128 e) (w : S3200x128.Idx → Elt F e)
    (L : List (View.Piece (Elt F) S3200x128 e)) :
    v.readCov ((⟨rAcc, w⟩ : View.Piece (Elt F) S3200x128 e) :: L) rAcc.toLoadRect = w := by
  rw [View.readCov_eq_canon_ld _ _ _ (cover_head w L), View.canon_cons_unit_zero off0, View.ld_unit_zero off0]

/-- One point of the body on whole buffers: inputs unchanged, accumulator at `accStep`, message block at `outStep`. -/
theorem sound_kernel (c : Dev nD) (i : grid0.Coords)
    (arg2 : Memref sig .tc .vmem S1x3200 .i32) (harg2 : arg2.IsWhole) (arg3 : Memref sig .tc .vmem S1000x128 .bf16) (harg3 : arg3.IsWhole)
    (arg4 : Memref sig .tc .vmem S3200x128 .bf16) (harg4 : arg4.IsWhole) (arg5 : Memref sig .tc .vmem S3200x128 .f32) (harg5 : arg5.IsWhole)
    (s : Vec F S1x3200 .i32) (x : Vec F S1000x128 .bf16) (o : Vec F S3200x128 .bf16) (a : Vec F S3200x128 .f32)
    (K : PUnit → sProp 𝕄) :
    iprop(owns (c : Thread nD τ) arg2 fullShare s ∗ owns (c : Thread nD τ) arg3 fullShare x
        ∗ owns (c : Thread nD τ) arg4 fullShare o ∗ owns (c : Thread nD τ) arg5 fullShare a
        ∗ (iprop(owns (c : Thread nD τ) arg2 fullShare s ∗ owns (c : Thread nD τ) arg3 fullShare x
            ∗ owns (c : Thread nD τ) arg4 fullShare (outStep i s x o a) ∗ owns (c : Thread nD τ) arg5 fullShare (accStep i s x a)) -∗ K ⟨⟩))
      ⊢ wp frame (wpE (defs₀ (F := F)) Variants.none c none) Set.univ
          (cc0__phaseA_kernel i arg2 harg2 arg3 harg3 arg4 harg4 arg5 harg5) K := by
  simp only [cc0__phaseA_kernel_eq_skeleton]; unfold cc0__phaseA_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  by_cases h1 : cond1 i = 1#1 <;> by_cases h2 : k0_cond2 i = 1#1
  all_goals
    sl_exec (disch := first | exact h1 | exact h2)
    sl_step
    iapply Hk
    isplitl [H2]
    · iexists f2; isplitr
      · ipureintro; rfl
      · iexact H2
    isplitl [H3]
    · iexists f3; isplitr
      · ipureintro; rfl
      · iexact H3
    isplitl [H4]
    · iexists _; isplitr
      swap
      · iexact H4
      ipureintro
      sl_unfold_words
      unfold outStep accStep
      first
        | (rw [if_pos h2, if_pos h1, View.read_writes_eq_canon _ _ _ (cover_head _ _), View.canon_cons_unit_zero off0, readCov_head,
            readCov_head]
           simp only [View.readAt_eq_ld, View.ld_unit_zero (S := S1x3200) off0, View.ld_unit_zero (S := S1000x128) off0])
        | (rw [if_pos h2, if_neg h1, View.read_writes_eq_canon _ _ _ (cover_head _ _), View.canon_cons_unit_zero off0, readCov_head]
           simp only [View.readAt_eq_ld, View.ld_unit_zero (S := S1x3200) off0, View.ld_unit_zero (S := S1000x128) off0,
             View.ld_unit_zero (S := S3200x128) off0])
        | rw [if_neg h2]
    · iexists _; isplitr
      swap
      · iexact H5
      ipureintro
      sl_unfold_words
      unfold accStep
      first
        | (rw [if_pos h1, View.read_writes_eq_canon _ _ _ (cover_head _ _), View.canon_cons_unit_zero off0, readCov_head]
           simp only [View.readAt_eq_ld, View.ld_unit_zero (S := S1x3200) off0, View.ld_unit_zero (S := S1000x128) off0])
        | (rw [if_neg h1, View.read_writes_eq_canon _ _ _ (cover_head _ _), View.canon_cons_unit_zero off0]
           simp only [View.readAt_eq_ld, View.ld_unit_zero (S := S1x3200) off0, View.ld_unit_zero (S := S1000x128) off0,
             View.ld_unit_zero (S := S3200x128) off0])

theorem coord1 (t : Fin cfg0.N) : (grid0.coords t 1).val = t.val % 50 := by
  show t.val / grid0.stride 1 % 50 = t.val % 50
  rw [show grid0.stride 1 = 1 from by decide, Nat.div_one]

theorem cond1_coord : ∀ k : Fin 50, Scalar.cmpi .ne (Scalar.extui (Scalar.cmpi .eq (BitVec.ofNat 32 k.val) 0#32)) 0#32 = 1#1 ↔ k.val = 0 := by
  decide
theorem cond2_coord : ∀ k : Fin 50, Scalar.cmpi .ne (Scalar.extui (Scalar.cmpi .eq (BitVec.ofNat 32 k.val) 49#32)) 0#32 = 1#1 ↔ k.val = 49 := by
  decide

theorem cond1_iff (t : Fin cfg0.N) : cond1 (grid0.coords t) = 1#1 ↔ t.val % 50 = 0 := by
  rw [← coord1 t]; exact cond1_coord (grid0.coords t 1)

theorem cond2_iff (t : Fin cfg0.N) : k0_cond2 (grid0.coords t) = 1#1 ↔ t.val % 50 = 49 := by
  rw [← coord1 t]; exact cond2_coord (grid0.coords t 1)

theorem accStep_first {i : grid0.Coords} (h : cond1 i = 1#1) (s : Vec F S1x3200 .i32) (x : Vec F S1000x128 .bf16)
    (a a' : Vec F S3200x128 .f32) : accStep i s x a = accStep i s x a' := by
  unfold accStep; rw [if_pos h, if_pos h]

theorem coord0 (t : Fin cfg0.N) : (grid0.coords t 0).val = t.val / 50 % 250 := by
  show t.val / grid0.stride 0 % 250 = t.val / 50 % 250
  rw [show grid0.stride 0 = 50 from by decide]

/-- Off the last node block of an edge block the next point has the same edge block. -/
theorem coord0_succ (t : Fin cfg0.N) (hl : t.val + 1 < grid0.N) (h : t.val % 50 ≠ 49) :
    grid0.coords ⟨t.val + 1, hl⟩ 0 = grid0.coords t 0 := by
  apply Fin.ext
  rw [coord0 ⟨t.val + 1, hl⟩, coord0 t]
  show (t.val + 1) / 50 % 250 = t.val / 50 % 250
  rw [show (t.val + 1) / 50 = t.val / 50 by omega]

/-- The gather body, its payloads and its write-back condition, under names that carry no region index. -/
abbrev kernel := cc0__phaseA_kernel (F := F)
abbrev pay1 : FVec F S3200x128 .f32 := k0_pay1
abbrev pay2 := k0_pay2 (F := F)
abbrev pay3 := k0_pay3 (F := F)
abbrev cond2 := k0_cond2

end Cert.KernelIdeal.Gather

end
-- ==== Proof.KI.R0.lean ====
import proofs.«430694_j29257317220564_2_alg».proof.Proof.Gen.KernelIdeal.Skeleton
import proofs.«430694_j29257317220564_2_alg».proof.Proof.Gen.KernelIdeal.Launch
import proofs.«430694_j29257317220564_2_alg».proof.Proof.KI.Gather
import Idealize.ShloMosaic.Lib.Tactic
import Idealize.ShloMosaic.Lib.Pipeline.Kit
import Idealize.ShloMosaic.Lib.Pipeline.Frame
import Idealize.ShloMosaic.Lib.Pipeline.FrameBody
import Idealize.ShloMosaic.Lib.Pipeline.Value

noncomputable section

namespace Cert.KernelIdeal.R0

open Cert.KernelIdeal Cert.KernelIdeal.Gen Cert.KernelIdeal.Gather
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

section Data

variable (c : Dev nD) (W : (b : Ref sig .tc) → Buf (Elt F) ((c : Thread nD τ).loc b))

def blk (w : Fin cfg0.W) (t : Fin cfg0.N) : ((cfg0.win w).xblock (cfg0.grid.coords t)).Idx → Elt F (cfg0.win w).elt :=
  ((cfg0.win w).blk t).view.read (Elt F) (W (Pipeline.arrRef spec0 w))

def pt (n : ℕ) : Fin cfg0.N := ⟨n % 12500, Nat.mod_lt _ (by decide)⟩

theorem pt_val (t : Fin cfg0.N) : pt t.val = t := Fin.ext (Nat.mod_eq_of_lt t.isLt)

def acc : ℕ → FVec F S3200x128 .f32
  | 0 => accStep (grid0.coords (pt 0)) (blk c W 0 (pt 0)) (blk c W 1 (pt 0)) pay1
  | n + 1 => accStep (grid0.coords (pt (n + 1))) (blk c W 0 (pt (n + 1))) (blk c W 1 (pt (n + 1))) (acc n)

abbrev scM : Memref sig .tc .vmem S3200x128 .f32 := Memref.whole cc0_scratch0

def PhiS : ℕ → sProp 𝕄
  | 0 => Pipeline.scopedRest (Ix := Unit) (Name := ℕ) (U := UR sig nD τ) (Lvl := ℕ) (Val := Elt F) spec0 c
  | n + 1 => iprop(owns (c : Thread nD τ) scM fullShare (acc c W n)
      ∗ Pipeline.scopedRestBut (Ix := Unit) (Name := ℕ) (U := UR sig nD τ) (Lvl := ℕ) (Val := Elt F) spec0 c [cc0_scratch0])

def dat : Dat τ (Elt F) Unit ℕ (UR sig nD τ) ℕ cfg0 c where
  A w := W (Pipeline.arrRef spec0 w)
  after w t := match w with
    | ⟨0, _⟩ => blk c W 0 t
    | ⟨1, _⟩ => blk c W 1 t
    | ⟨2, _⟩ => pay3 (acc c W t.val)
  Φ t := PhiS c W t.val
  q _ := fullShare
  owed _ := 0

theorem PhiS_succ (n : ℕ) : PhiS c W (n + 1) = iprop(owns (c : Thread nD τ) scM fullShare (acc c W n)
      ∗ Pipeline.scopedRestBut (Ix := Unit) (Name := ℕ) (U := UR sig nD τ) (Lvl := ℕ) (Val := Elt F) spec0 c [cc0_scratch0]) := rfl

theorem A_eq (w : Fin cfg0.W) : (dat c W).A w = W (Pipeline.arrRef spec0 w) := by dsimp only [dat]
theorem after_0 (t : Fin cfg0.N) : (dat c W).after 0 t = blk c W 0 t := by dsimp only [dat]
theorem after_1 (t : Fin cfg0.N) : (dat c W).after 1 t = blk c W 1 t := by dsimp only [dat]
theorem after_2 (t : Fin cfg0.N) : (dat c W).after 2 t = pay3 (acc c W t.val) := by dsimp only [dat]

theorem before_0 (t : Fin cfg0.N) (d) : (dat c W).before 0 t d = blk c W 0 t :=
  ((dat c W).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (t : Fin cfg0.N) (d) : (dat c W).before 1 t d = blk c W 1 t :=
  ((dat c W).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)

theorem Phi_castSucc (t : Fin cfg0.N) : (dat c W).Φ t.castSucc = PhiS c W t.val := by
  dsimp only [dat]; simp only [Fin.coe_castSucc]
theorem Phi_succ (t : Fin cfg0.N) : (dat c W).Φ t.succ = PhiS c W (t.val + 1) := by
  dsimp only [dat]; simp only [Fin.val_succ]

theorem acc_step (t : Fin cfg0.N) (a : Vec F S3200x128 .f32) (ha : t.val % 50 ≠ 0 → a = acc c W (t.val - 1)) :
    accStep (grid0.coords t) (blk c W 0 t) (blk c W 1 t) a = acc c W t.val := by
  obtain ⟨n, hn⟩ := t
  cases n with
  | zero =>
    show _ = accStep (grid0.coords (pt 0)) (blk c W 0 (pt 0)) (blk c W 1 (pt 0)) pay1
    rw [show (pt 0 : Fin cfg0.N) = ⟨0, hn⟩ from pt_val ⟨0, hn⟩]
    exact accStep_first ((cond1_iff ⟨0, hn⟩).mpr rfl) _ _ _ _
  | succ n =>
    show _ = accStep (grid0.coords (pt (n + 1))) (blk c W 0 (pt (n + 1))) (blk c W 1 (pt (n + 1))) (acc c W n)
    rw [show (pt (n + 1) : Fin cfg0.N) = ⟨n + 1, hn⟩ from pt_val ⟨n + 1, hn⟩]
    by_cases h0 : (n + 1) % 50 = 0
    · exact accStep_first ((cond1_iff ⟨n + 1, hn⟩).mpr h0) _ _ _ _
    · rw [ha h0]; rfl

end Data

abbrev st_0 (t : Fin cfg0.N) := (cfg0.win 0).stage (cfg0.slots t 0)
abbrev st_1 (t : Fin cfg0.N) := (cfg0.win 1).stage (cfg0.slots t 1)
abbrev st_2 (t : Fin cfg0.N) := (cfg0.win 2).stage (cfg0.slots t 2)

abbrev bodyAt (t : Fin cfg0.N) : Prog (TpuEff nD τ sig (Elt F) Λ₀ .tc) PUnit :=
  kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (Memref.whole cc0_scratch0) (Memref.isWhole_whole _)

theorem no_flush (t : Fin cfg0.N) (h : t.val % 50 ≠ 49) : (cfg0.win 2).flush t = false := by
  have hN : grid0.N = 12500 := N_0
  have hlt : t.val < 12500 := hN ▸ t.isLt
  rw [Pipeline.Window.flush_eq_flushOf]
  unfold Pipeline.Window.flushOf
  have h1 : ¬ (t.val + 1 = grid0.N) := by rw [hN]; omega
  have h2 : ¬ ∃ hl : t.val + 1 < grid0.N,
      (cfg0.win 2).indexMap (grid0.coords ⟨t.val + 1, hl⟩) ≠ (cfg0.win 2).indexMap (grid0.coords t) := by
    rintro ⟨hl, hne⟩
    apply hne
    show cc0_transform_2 _ = cc0_transform_2 _
    refine hreads0_2 _ _ fun a ha => ?_
    match a, ha with
    | ⟨0, _⟩, _ => exact coord0_succ t hl h
    | ⟨1, _⟩, ha => exact (Bool.false_ne_true ha).elim
  simp [h1, h2]

section Body

variable (c : Dev nD) (W : (b : Ref sig .tc) → Buf (Elt F) ((c : Thread nD τ).loc b))

theorem PhiS_open (t : Fin cfg0.N) :
    PhiS c W t.val ⊢ (iprop(∃ a : Vec F S3200x128 .f32, ⌜t.val % 50 ≠ 0 → a = acc c W (t.val - 1)⌝
      ∗ owns (c : Thread nD τ) scM fullShare a
      ∗ Pipeline.scopedRestBut (Ix := Unit) (Name := ℕ) (U := UR sig nD τ) (Lvl := ℕ) (Val := Elt F) spec0 c [cc0_scratch0]) : sProp 𝕄) := by
  obtain ⟨n, hn⟩ := t
  cases n with
  | zero =>
    show Pipeline.scopedRest (Ix := Unit) (Name := ℕ) (U := UR sig nD τ) (Lvl := ℕ) (Val := Elt F) spec0 c ⊢ _
    rw [scopedRest0_split]
    iintro ⟨⟨%f, Hf⟩, Hr⟩
    iexists f
    isplitr
    · ipureintro; intro h; exact absurd rfl h
    isplitl [Hf]
    · rw [owns_whole]; iexact Hf
    · iexact Hr
  | succ n =>
    show PhiS c W (n + 1) ⊢ _
    rw [PhiS_succ]
    iintro ⟨Ha, Hr⟩
    iexists acc c W n
    isplitr
    · ipureintro; intro _; rfl
    isplitl [Ha]
    · iexact Ha
    · iexact Hr

def bodyPre (t : Fin cfg0.N) : sProp 𝕄 :=
  iprop((dat c W).Φ t.castSucc ∗ (dat c W).owesAt () t.castSucc
    ∗ (∃ d, owns (c : Thread nD τ) (st_0 t) fullShare ((dat c W).before 0 t d))
    ∗ (∃ d, owns (c : Thread nD τ) (st_1 t) fullShare ((dat c W).before 1 t d))
    ∗ (∃ d, owns (c : Thread nD τ) (st_2 t) fullShare ((dat c W).before 2 t d)))

def bodyPost (t : Fin cfg0.N) : sProp 𝕄 :=
  iprop((dat c W).Φ t.succ ∗ (dat c W).owesAt () t.succ
    ∗ owns (c : Thread nD τ) (st_0 t) fullShare ((dat c W).after 0 t)
    ∗ owns (c : Thread nD τ) (st_1 t) fullShare ((dat c W).after 1 t)
    ∗ (dat c W).leavesExact 2 t)

/-- What the point leaves in the message window's buffer is what the proof data say: written at the last node block, kept otherwise. -/
theorem leaves_2 (t : Fin cfg0.N) (d2) (a : Vec F S3200x128 .f32)
    (e : accStep (grid0.coords t) (blk c W 0 t) (blk c W 1 t) a = acc c W t.val) :
    owns (c : Thread nD τ) (st_2 t) fullShare
        (outStep (grid0.coords t) (blk c W 0 t) (blk c W 1 t) ((dat c W).before 2 t d2) a)
      ⊢ (dat c W).leavesExact 2 t := by
  unfold outStep
  by_cases h2 : cond2 (grid0.coords t) = 1#1
  · have hi : cfg0.idle 2 (cfg0.grid.coords t) = false := by
      show (!(cond2 (grid0.coords t) == 1#1)) = false
      rw [h2]; rfl
    have hL : (dat c W).leavesExact 2 t = owns (c : Thread nD τ) (st_2 t) fullShare ((dat c W).after 2 t) := by
      unfold Dat.leavesExact; rw [hi]
    rw [hL, after_2, if_pos h2, e]
  · have hi : cfg0.idle 2 (cfg0.grid.coords t) = true := by
      show (!(cond2 (grid0.coords t) == 1#1)) = true
      simp [h2]
    rw [(dat c W).leavesExact_idle 2 t hi (no_flush t fun h49 => h2 ((cond2_iff t).mpr h49)), if_neg h2]
    iintro H; iexists d2; iexact H

/-- The body at any point: the buffers hold their blocks and the accumulator so far, so the body's triple applies. -/
theorem sound_body (t : Fin cfg0.N) :
    bodyPre c W t ⊢ wp frame (wpE (defs₀ (F := F)) Variants.none c none) Set.univ (bodyAt t) (fun _ => bodyPost c W t) := by
  unfold bodyPre bodyPost bodyAt
  simp only [before_0, before_1]
  rw [Phi_castSucc, Phi_succ, after_0, after_1, show (dat c W).owesAt () t.succ = (dat c W).owesAt () t.castSucc from rfl]
  iintro ⟨HΦ, Ho, ⟨%d0, H0⟩, ⟨%d1, H1⟩, ⟨%d2, H2⟩⟩
  ihave HΦ' := (PhiS_open c W t) $$ HΦ
  icases HΦ' with ⟨%a, %ha, Ha, Hr⟩
  have e := acc_step c W t a ha
  iapply (sound_kernel c (grid0.coords t) _ _ _ _ _ _ scM (Memref.isWhole_whole _) (blk c W 0 t) (blk c W 1 t) ((dat c W).before 2 t d2) a _)
  isplitl [H0]; · iexact H0
  isplitl [H1]; · iexact H1
  isplitl [H2]; · iexact H2
  isplitl [Ha]; · iexact Ha
  iintro ⟨H0, H1, H2, Ha⟩
  rw [e, PhiS_succ]
  isplitl [Ha Hr]
  · isplitl [Ha]; · iexact Ha
    iexact Hr
  isplitl [Ho]; · iexact Ho
  isplitl [H0]; · iexact H0
  isplitl [H1]; · iexact H1
  iapply (leaves_2 c W t d2 a e); iexact H2

theorem body_obligation : BodyObligation (dat (F := F) c W) (defs₀ (F := F)) Variants.none () Set.univ := fun t => by
  rw [bigSep_W0, bigSep_W0]
  exact sound_body c W t

theorem Phi_last : (dat c W).Φ (Fin.last cfg0.N)
    ⊢ (Pipeline.scopedRest (Ix := Unit) (Name := ℕ) (U := UR sig nD τ) (Lvl := ℕ) (Val := Elt F) spec0 c : sProp 𝕄) := by
  show PhiS c W (12499 + 1) ⊢ _
  rw [PhiS_succ, scopedRest0_split]
  iintro ⟨Ha, Hr⟩
  isplitl [Ha]
  · unfold owns
    icases Ha with ⟨%f, -, Hf⟩
    iexists f
    simp only [Memref.view_whole, View.set_whole]
    iexact Hf
  · iexact Hr

end Body

end Cert.KernelIdeal.R0

end
-- ==== Proof.KI.Scatter.lean ====
import proofs.«430694_j29257317220564_2_alg».proof.Proof.Gen.KernelIdeal.Skeleton
import proofs.«430694_j29257317220564_2_alg».proof.Proof.Gen.KernelIdeal.Launch
import Idealize.ShloMosaic.Lib.Tactic
import Idealize.ShloMosaic.Lib.Pipeline.Kit
import Idealize.ShloMosaic.Lib.Pipeline.Frame
import Idealize.ShloMosaic.Lib.Pipeline.FrameBody
import Idealize.ShloMosaic.Lib.Pipeline.Value

noncomputable section

namespace Cert.KernelIdeal.Scatter

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

/-- The first two scatter bodies, their payloads and their write-back condition, under names that carry no region index. -/
abbrev kernel := cc1__phaseBC_kernel (F := F)
abbrev pay1 : FVec F S1000x128 .f32 := k1_pay1
abbrev pay2 := k1_pay2 (F := F)
abbrev pay3 := k1_pay3 (F := F)
abbrev cond2 := k1_cond2

/-- The second scatter body's last payload reshapes its input to the shape it already has: it is the first body's. -/
theorem pay3_eq3 (x a : Vec F S1000x128 .f32) (wt : Vec F S128x128 .f32) (b : Vec F S1x128 .f32) :
    k3_pay3 x a wt b = pay3 x a wt b := by
  unfold k3_pay3 pay3 k1_pay3
  simp only [shapeCast_self]

theorem kernel1_eq : cc1__phaseBC_kernel (F := F) = kernel := rfl

/-- So the second scatter body is the first. -/
theorem kernel3_eq : cc3__phaseBC_kernel (F := F) = kernel := by
  show cc3__phaseBC_kernel_skel (F := F) = cc1__phaseBC_kernel_skel (F := F)
  unfold cc3__phaseBC_kernel_skel cc1__phaseBC_kernel_skel
  simp only [pay3_eq3]
  rfl

theorem off0 : (![0, 0] : Fin 2 → ℕ) = fun _ => 0 := funext fun a => by fin_cases a <;> rfl

section Whole
variable {Val : EltTy → Type} [∀ e, Nonempty (Val e)] {m n : ℕ} {e : EltTy} {sg : RefSig} {κ : Kind} {sp : Space}
  (v : View sg κ sp ⟨2, ![m, n]⟩ e) (inb : ∀ a, (![0, 0] : Fin 2 → ℕ) a + ![m, n] a ≤ ![m, n] a)
  (w : Shape.Idx ⟨2, ![m, n]⟩ → Val e) (L : List (View.Piece Val ⟨2, ![m, n]⟩ e))

/-- A load of a whole two-axis buffer reads its contents. -/
theorem ld_whole : View.ld w (Rect.unit ![0, 0] ![m, n] inb) = w := View.ld_unit_zero off0 inb w

/-- A store of the whole buffer, latest in a list of stores, covers every index; -/
theorem cover_head (y : Shape.Idx ⟨2, ![m, n]⟩) : ∃ pc ∈ ((⟨Rect.unit ![0, 0] ![m, n] inb, w⟩ : View.Piece Val _ e) :: L), y ∈ pc.1.set :=
  ⟨_, List.mem_cons_self, View.mem_set_unit_zero off0 inb y⟩

/-- so the buffer then reads as what it stored, -/
theorem read_head (f : v.ty.Contents Val) : v.read Val (v.writes Val f (⟨Rect.unit ![0, 0] ![m, n] inb, w⟩ :: L)) = w := by
  rw [View.read_writes_eq_canon _ _ _ (cover_head inb w L), View.canon_cons_unit_zero off0]

/-- and so does a load of the whole buffer. -/
theorem readCov_head : v.readCov (⟨Rect.unit ![0, 0] ![m, n] inb, w⟩ :: L) (Rect.unit ![0, 0] ![m, n] inb).toLoadRect = w := by
  rw [View.readCov_eq_canon_ld _ _ _ (cover_head inb w L), View.canon_cons_unit_zero off0, View.ld_unit_zero off0]

end Whole

/-- Contents held through a memref are owned at whatever the memref reads of them. -/
theorem owns_of_read (c : Thread nD τ) {sp : Space} {sh : Shape} {e : EltTy} (m : Memref sig c.2.kind sp sh e) (q : PosShare TreeShare)
    (f : m.view.ty.Contents (Elt F)) {X : sh.Idx → Elt F e} (hX : m.view.read (Elt F) f = X) :
    (m.view.loc c ↦[m.view.set]{q} f : sProp 𝕄) ⊢ iprop(∃ g, ⌜m.view.read (Elt F) g = X⌝ ∗ (m.view.loc c ↦[m.view.set]{q} g)) := by
  subst hX; exact owns_intro c m q f

def cond1 (i : grid1.Coords) : BitVec 1 :=
  Scalar.cmpi .ne (Scalar.extui (Scalar.cmpi .eq (BitVec.ofNat 32 (i 1).val) 0#32)) 0#32

/-- The accumulator after a point: the one before it (zeros at the first edge block) plus the point's product. -/
def accStep (i : grid1.Coords) (s : Vec F S1x3200 .i32) (mg : Vec F S3200x128 .bf16) (a : Vec F S1000x128 .f32) :
    FVec F S1000x128 .f32 :=
  k1_pay2 i s mg (if cond1 i = 1#1 then k1_pay1 else a)

/-- The output block after a point: at the last edge block the layer applied to the node rows plus the accumulator. -/
def outStep (i : grid1.Coords) (s : Vec F S1x3200 .i32) (mg : Vec F S3200x128 .bf16) (x : Vec F S1000x128 .f32)
    (wt : Vec F S128x128 .f32) (b : Vec F S1x128 .f32) (o : Vec F S1000x128 .f32) (a : Vec F S1000x128 .f32) :
    Vec F S1000x128 .f32 :=
  if k1_cond2 i = 1#1 then k1_pay3 x (accStep i s mg a) wt b else o

/-- One point of the body on whole buffers: inputs unchanged, accumulator at `accStep`, output block at `outStep`. -/
theorem sound_kernel (c : Dev nD) (i : grid1.Coords)
    (arg2 : Memref sig .tc .vmem S1x3200 .i32) (harg2 : arg2.IsWhole) (arg3 : Memref sig .tc .vmem S3200x128 .bf16) (harg3 : arg3.IsWhole)
    (arg4 : Memref sig .tc .vmem S1000x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1000x128 .f32) (harg7 : arg7.IsWhole)
    (arg8 : Memref sig .tc .vmem S1000x128 .f32) (harg8 : arg8.IsWhole)
    (s : Vec F S1x3200 .i32) (mg : Vec F S3200x128 .bf16) (x : Vec F S1000x128 .f32) (wt : Vec F S128x128 .f32)
    (b : Vec F S1x128 .f32) (o : Vec F S1000x128 .f32) (a : Vec F S1000x128 .f32)
    (K : PUnit → sProp 𝕄) :
    iprop(owns (c : Thread nD τ) arg2 fullShare s ∗ owns (c : Thread nD τ) arg3 fullShare mg
        ∗ owns (c : Thread nD τ) arg4 fullShare x ∗ owns (c : Thread nD τ) arg5 fullShare wt
        ∗ owns (c : Thread nD τ) arg6 fullShare b ∗ owns (c : Thread nD τ) arg7 fullShare o
        ∗ owns (c : Thread nD τ) arg8 fullShare a
        ∗ (iprop(owns (c : Thread nD τ) arg2 fullShare s ∗ owns (c : Thread nD τ) arg3 fullShare mg
            ∗ owns (c : Thread nD τ) arg4 fullShare x ∗ owns (c : Thread nD τ) arg5 fullShare wt
            ∗ owns (c : Thread nD τ) arg6 fullShare b
            ∗ owns (c : Thread nD τ) arg7 fullShare (outStep i s mg x wt b o a)
            ∗ owns (c : Thread nD τ) arg8 fullShare (accStep i s mg a)) -∗ K ⟨⟩))
      ⊢ wp frame (wpE (defs₀ (F := F)) Variants.none c none) Set.univ
          (cc1__phaseBC_kernel i arg2 harg2 arg3 harg3 arg4 harg4 arg5 harg5 arg6 harg6 arg7 harg7 arg8 harg8) K := by
  simp only [cc1__phaseBC_kernel_eq_skeleton]; unfold cc1__phaseBC_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  by_cases h1 : cond1 i = 1#1 <;> by_cases h2 : k1_cond2 i = 1#1
  all_goals
    sl_exec (disch := first | exact h1 | exact h2)
    sl_step
    iapply Hk
    isplitl [H2]; · iapply owns_of_read _ _ _ _ rfl $$ H2
    isplitl [H3]; · iapply owns_of_read _ _ _ _ rfl $$ H3
    isplitl [H4]; · iapply owns_of_read _ _ _ _ rfl $$ H4
    isplitl [H5]; · iapply owns_of_read _ _ _ _ rfl $$ H5
    isplitl [H6]; · iapply owns_of_read _ _ _ _ rfl $$ H6
    isplitl [H7]
    · iapply owns_of_read _ _ _ _ ?_ $$ H7
      sl_unfold_words; unfold outStep accStep
      simp (disch := first | exact h1 | exact h2) only [if_pos, if_neg, read_head, readCov_head, View.readAt_eq_ld, ld_whole]
    · iapply owns_of_read _ _ _ _ ?_ $$ H8
      sl_unfold_words; unfold accStep
      simp (disch := exact h1) only [if_pos, if_neg, read_head, readCov_head, View.readAt_eq_ld, ld_whole]

theorem coord1 (t : Fin cfg1.N) : (grid1.coords t 1).val = t.val % 250 := by
  show t.val / grid1.stride 1 % 250 = t.val % 250
  rw [show grid1.stride 1 = 1 from by decide, Nat.div_one]

theorem cond1_coord : ∀ k : Fin 250, Scalar.cmpi .ne (Scalar.extui (Scalar.cmpi .eq (BitVec.ofNat 32 k.val) 0#32)) 0#32 = 1#1 ↔ k.val = 0 := by
  decide
theorem cond2_coord : ∀ k : Fin 250, Scalar.cmpi .ne (Scalar.extui (Scalar.cmpi .eq (BitVec.ofNat 32 k.val) 249#32)) 0#32 = 1#1 ↔ k.val = 249 := by
  decide

theorem cond1_iff (t : Fin cfg1.N) : cond1 (grid1.coords t) = 1#1 ↔ t.val % 250 = 0 := by
  rw [← coord1 t]; exact cond1_coord (grid1.coords t 1)

theorem cond2_iff (t : Fin cfg1.N) : k1_cond2 (grid1.coords t) = 1#1 ↔ t.val % 250 = 249 := by
  rw [← coord1 t]; exact cond2_coord (grid1.coords t 1)

theorem accStep_first {i : grid1.Coords} (h : cond1 i = 1#1) (s : Vec F S1x3200 .i32) (mg : Vec F S3200x128 .bf16)
    (a a' : Vec F S1000x128 .f32) : accStep i s mg a = accStep i s mg a' := by
  unfold accStep; rw [if_pos h, if_pos h]

theorem coord0 (t : Fin cfg1.N) : (grid1.coords t 0).val = t.val / 250 % 50 := by
  show t.val / grid1.stride 0 % 50 = t.val / 250 % 50
  rw [show grid1.stride 0 = 250 from by decide]

/-- Off the last edge block of a node block the next point has the same node block. -/
theorem coord0_succ (t : Fin cfg1.N) (hl : t.val + 1 < grid1.N) (h : t.val % 250 ≠ 249) :
    grid1.coords ⟨t.val + 1, hl⟩ 0 = grid1.coords t 0 := by
  apply Fin.ext
  rw [coord0 ⟨t.val + 1, hl⟩, coord0 t]
  show (t.val + 1) / 250 % 50 = t.val / 250 % 50
  rw [show (t.val + 1) / 250 = t.val / 250 by omega]

end Cert.KernelIdeal.Scatter

end
-- ==== Proof.KI.R1.lean ====
import proofs.«430694_j29257317220564_2_alg».proof.Proof.Gen.KernelIdeal.Skeleton
import proofs.«430694_j29257317220564_2_alg».proof.Proof.Gen.KernelIdeal.Launch
import proofs.«430694_j29257317220564_2_alg».proof.Proof.KI.Scatter
import Idealize.ShloMosaic.Lib.Tactic
import Idealize.ShloMosaic.Lib.Pipeline.Kit
import Idealize.ShloMosaic.Lib.Pipeline.Frame
import Idealize.ShloMosaic.Lib.Pipeline.FrameBody
import Idealize.ShloMosaic.Lib.Pipeline.Value

noncomputable section

namespace Cert.KernelIdeal.R1

open Cert.KernelIdeal Cert.KernelIdeal.Gen Cert.KernelIdeal.Scatter
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

section Data

variable (c : Dev nD) (W : (b : Ref sig .tc) → Buf (Elt F) ((c : Thread nD τ).loc b))

def blk (w : Fin cfg1.W) (t : Fin cfg1.N) : ((cfg1.win w).xblock (cfg1.grid.coords t)).Idx → Elt F (cfg1.win w).elt :=
  ((cfg1.win w).blk t).view.read (Elt F) (W (Pipeline.arrRef spec1 w))

def pt (n : ℕ) : Fin cfg1.N := ⟨n % 12500, Nat.mod_lt _ (by decide)⟩

theorem pt_val (t : Fin cfg1.N) : pt t.val = t := Fin.ext (Nat.mod_eq_of_lt t.isLt)

/-- The accumulator after point `n`. -/
def acc : ℕ → FVec F S1000x128 .f32
  | 0 => accStep (grid1.coords (pt 0)) (blk c W 0 (pt 0)) (blk c W 1 (pt 0)) pay1
  | n + 1 => accStep (grid1.coords (pt (n + 1))) (blk c W 0 (pt (n + 1))) (blk c W 1 (pt (n + 1))) (acc n)

abbrev scM : Memref sig .tc .vmem S1000x128 .f32 := Memref.whole cc1_scratch0

def PhiS : ℕ → sProp 𝕄
  | 0 => Pipeline.scopedRest (Ix := Unit) (Name := ℕ) (U := UR sig nD τ) (Lvl := ℕ) (Val := Elt F) spec1 c
  | n + 1 => iprop(owns (c : Thread nD τ) scM fullShare (acc c W n)
      ∗ Pipeline.scopedRestBut (Ix := Unit) (Name := ℕ) (U := UR sig nD τ) (Lvl := ℕ) (Val := Elt F) spec1 c [cc1_scratch0])

def dat : Dat τ (Elt F) Unit ℕ (UR sig nD τ) ℕ cfg1 c where
  A w := W (Pipeline.arrRef spec1 w)
  after w t := match w with
    | ⟨0, _⟩ => blk c W 0 t
    | ⟨1, _⟩ => blk c W 1 t
    | ⟨2, _⟩ => blk c W 2 t
    | ⟨3, _⟩ => blk c W 3 t
    | ⟨4, _⟩ => blk c W 4 t
    | ⟨5, _⟩ => pay3 (blk c W 2 t) (acc c W t.val) (blk c W 3 t) (blk c W 4 t)
  Φ t := PhiS c W t.val
  q _ := fullShare
  owed _ := 0

theorem PhiS_succ (n : ℕ) : PhiS c W (n + 1) = iprop(owns (c : Thread nD τ) scM fullShare (acc c W n)
      ∗ Pipeline.scopedRestBut (Ix := Unit) (Name := ℕ) (U := UR sig nD τ) (Lvl := ℕ) (Val := Elt F) spec1 c [cc1_scratch0]) := rfl

theorem A_eq (w : Fin cfg1.W) : (dat c W).A w = W (Pipeline.arrRef spec1 w) := by dsimp only [dat]
theorem after_0 (t : Fin cfg1.N) : (dat c W).after 0 t = blk c W 0 t := by dsimp only [dat]
theorem after_1 (t : Fin cfg1.N) : (dat c W).after 1 t = blk c W 1 t := by dsimp only [dat]
theorem after_2 (t : Fin cfg1.N) : (dat c W).after 2 t = blk c W 2 t := by dsimp only [dat]
theorem after_3 (t : Fin cfg1.N) : (dat c W).after 3 t = blk c W 3 t := by dsimp only [dat]
theorem after_4 (t : Fin cfg1.N) : (dat c W).after 4 t = blk c W 4 t := by dsimp only [dat]
theorem after_5 (t : Fin cfg1.N) :
    (dat c W).after 5 t = pay3 (blk c W 2 t) (acc c W t.val) (blk c W 3 t) (blk c W 4 t) := by dsimp only [dat]

theorem before_in (t : Fin cfg1.N) : (∀ d, (dat c W).before 0 t d = blk c W 0 t) ∧ (∀ d, (dat c W).before 1 t d = blk c W 1 t)
    ∧ (∀ d, (dat c W).before 2 t d = blk c W 2 t) ∧ (∀ d, (dat c W).before 3 t d = blk c W 3 t)
    ∧ (∀ d, (dat c W).before 4 t d = blk c W 4 t) := by
  refine ⟨fun d => ?_, fun d => ?_, fun d => ?_, fun d => ?_, fun d => ?_⟩
  all_goals
    refine ((dat c W).before_in_eq_fetched _ rfl (fun _ => rfl) (fun _ _ _ => rfl) (fun t => ?_) t d).trans ?_
    · simp only [after_0, after_1, after_2, after_3, after_4]; unfold Dat.blockOf blk; rw [A_eq]; try rfl
    · unfold Dat.fetched Dat.blockOf blk; rw [A_eq]; try rfl

theorem Phi_castSucc (t : Fin cfg1.N) : (dat c W).Φ t.castSucc = PhiS c W t.val := by
  dsimp only [dat]; simp only [Fin.coe_castSucc]
theorem Phi_succ (t : Fin cfg1.N) : (dat c W).Φ t.succ = PhiS c W (t.val + 1) := by
  dsimp only [dat]; simp only [Fin.val_succ]

theorem acc_step (t : Fin cfg1.N) (a : Vec F S1000x128 .f32) (ha : t.val % 250 ≠ 0 → a = acc c W (t.val - 1)) :
    accStep (grid1.coords t) (blk c W 0 t) (blk c W 1 t) a = acc c W t.val := by
  have hp := pt_val t
  rcases h : t.val with _ | n <;> rw [h] at hp ha <;> unfold acc <;> rw [hp]
  · exact accStep_first ((cond1_iff t).mpr (by rw [h])) _ _ _ _
  · by_cases h0 : (n + 1) % 250 = 0
    · exact accStep_first ((cond1_iff t).mpr (by rw [h]; exact h0)) _ _ _ _
    · rw [ha h0]; rfl

end Data

abbrev st_0 (t : Fin cfg1.N) := (cfg1.win 0).stage (cfg1.slots t 0)
abbrev st_1 (t : Fin cfg1.N) := (cfg1.win 1).stage (cfg1.slots t 1)
abbrev st_2 (t : Fin cfg1.N) := (cfg1.win 2).stage (cfg1.slots t 2)
abbrev st_3 (t : Fin cfg1.N) := (cfg1.win 3).stage (cfg1.slots t 3)
abbrev st_4 (t : Fin cfg1.N) := (cfg1.win 4).stage (cfg1.slots t 4)
abbrev st_5 (t : Fin cfg1.N) := (cfg1.win 5).stage (cfg1.slots t 5)

/-- Before the last edge block of a node block the next point has the same node block, so the output block stays. -/
theorem no_flush (t : Fin cfg1.N) (h : t.val % 250 ≠ 249) : (cfg1.win 5).flush t = false := by
  have hlt : t.val < 12500 := N_1 ▸ t.isLt
  rw [Pipeline.Window.flush_eq_flushOf]
  unfold Pipeline.Window.flushOf
  have h1 : ¬ (t.val + 1 = grid1.N) := by rw [N_1]; omega
  have h2 : ¬ ∃ hl : t.val + 1 < grid1.N,
      (cfg1.win 5).indexMap (grid1.coords ⟨t.val + 1, hl⟩) ≠ (cfg1.win 5).indexMap (grid1.coords t) := by
    rintro ⟨hl, hne⟩
    refine hne (hreads1_5 _ _ fun a ha => ?_)
    match a, ha with
    | ⟨0, _⟩, _ => exact coord0_succ t hl h
    | ⟨1, _⟩, ha => exact (Bool.false_ne_true ha).elim
  simp [h1, h2]

section Body

variable (c : Dev nD) (W : (b : Ref sig .tc) → Buf (Elt F) ((c : Thread nD τ).loc b))

theorem PhiS_open (t : Fin cfg1.N) :
    PhiS c W t.val ⊢ (iprop(∃ a : Vec F S1000x128 .f32, ⌜t.val % 250 ≠ 0 → a = acc c W (t.val - 1)⌝
      ∗ owns (c : Thread nD τ) scM fullShare a
      ∗ Pipeline.scopedRestBut (Ix := Unit) (Name := ℕ) (U := UR sig nD τ) (Lvl := ℕ) (Val := Elt F) spec1 c [cc1_scratch0]) : sProp 𝕄) := by
  rcases h : t.val with _ | n
  · unfold PhiS; rw [scopedRest1_split]
    iintro ⟨⟨%f, Hf⟩, Hr⟩
    iexists f; rw [owns_whole]; iframe Hf Hr
    ipureintro; exact fun h => absurd rfl h
  · rw [PhiS_succ]
    iintro ⟨Ha, Hr⟩
    iexists acc c W n; iframe Ha Hr
    ipureintro; exact fun _ => rfl

def bodyPre (t : Fin cfg1.N) : sProp 𝕄 :=
  iprop((dat c W).Φ t.castSucc ∗ (dat c W).owesAt () t.castSucc
    ∗ (∃ d, owns (c : Thread nD τ) (st_0 t) fullShare ((dat c W).before 0 t d))
    ∗ (∃ d, owns (c : Thread nD τ) (st_1 t) fullShare ((dat c W).before 1 t d))
    ∗ (∃ d, owns (c : Thread nD τ) (st_2 t) fullShare ((dat c W).before 2 t d))
    ∗ (∃ d, owns (c : Thread nD τ) (st_3 t) fullShare ((dat c W).before 3 t d))
    ∗ (∃ d, owns (c : Thread nD τ) (st_4 t) fullShare ((dat c W).before 4 t d))
    ∗ (∃ d, owns (c : Thread nD τ) (st_5 t) fullShare ((dat c W).before 5 t d)))

def bodyPost (t : Fin cfg1.N) : sProp 𝕄 :=
  iprop((dat c W).Φ t.succ ∗ (dat c W).owesAt () t.succ
    ∗ owns (c : Thread nD τ) (st_0 t) fullShare ((dat c W).after 0 t)
    ∗ owns (c : Thread nD τ) (st_1 t) fullShare ((dat c W).after 1 t)
    ∗ owns (c : Thread nD τ) (st_2 t) fullShare ((dat c W).after 2 t)
    ∗ owns (c : Thread nD τ) (st_3 t) fullShare ((dat c W).after 3 t)
    ∗ owns (c : Thread nD τ) (st_4 t) fullShare ((dat c W).after 4 t)
    ∗ (dat c W).leavesExact 5 t)

/-- What the body leaves in the output block's buffer is what the region is owed there: the layer's rows at the last
    edge block, and before it the buffer as found. -/
theorem out_leaves (t : Fin cfg1.N) (d) (a : Vec F S1000x128 .f32)
    (e : accStep (grid1.coords t) (blk c W 0 t) (blk c W 1 t) a = acc c W t.val) :
    owns (c : Thread nD τ) (st_5 t) fullShare (outStep (grid1.coords t) (blk c W 0 t) (blk c W 1 t) (blk c W 2 t) (blk c W 3 t)
        (blk c W 4 t) ((dat c W).before 5 t d) a) ⊢ ((dat c W).leavesExact 5 t : sProp 𝕄) := by
  unfold outStep
  by_cases h2 : cond2 (grid1.coords t) = 1#1
  · have hi : cfg1.idle 5 (cfg1.grid.coords t) = false := by
      show (!(cond2 (grid1.coords t) == 1#1)) = false
      rw [h2]; rfl
    unfold Dat.leavesExact; rw [hi, if_pos h2, e, after_5]
  · have hi : cfg1.idle 5 (cfg1.grid.coords t) = true := by
      show (!(cond2 (grid1.coords t) == 1#1)) = true
      simp [h2]
    rw [(dat c W).leavesExact_idle 5 t hi (no_flush t fun h => h2 ((cond2_iff t).mpr h)), if_neg h2]
    iintro H; iexists d; iexact H

theorem sound_body (t : Fin cfg1.N) :
    bodyPre c W t ⊢ wp frame (wpE (defs₀ (F := F)) Variants.none c none) Set.univ (defs₀ .tc cfg1.body (cfg1.bodyArgs t (cfg1.slots t))) (fun _ => bodyPost c W t) := by
  unfold bodyPre bodyPost
  sl_whnfR [defs₀, Defs.onTc]
  rw [kernel1_eq]
  simp only [before_in c W t]
  rw [Phi_castSucc, Phi_succ, after_0, after_1, after_2, after_3, after_4,
    show (dat c W).owesAt () t.succ = (dat c W).owesAt () t.castSucc from rfl]
  iintro ⟨HΦ, Ho, ⟨%d0, H0⟩, ⟨%d1, H1⟩, ⟨%d2, H2⟩, ⟨%d3, H3⟩, ⟨%d4, H4⟩, ⟨%d5, H5⟩⟩
  ihave HΦ' := (PhiS_open c W t) $$ HΦ
  icases HΦ' with ⟨%a, %ha, Ha, Hr⟩
  have e := acc_step c W t a ha
  iapply (sound_kernel c (grid1.coords t) _ _ _ _ _ _ _ _ _ _ _ _ scM (Memref.isWhole_whole _) (blk c W 0 t) (blk c W 1 t)
    (blk c W 2 t) (blk c W 3 t) (blk c W 4 t) ((dat c W).before 5 t d5) a _)
  iframe H0 H1 H2 H3 H4 H5 Ha
  iintro ⟨H0, H1, H2, H3, H4, H5, Ha⟩
  rw [e, PhiS_succ]
  iframe Ha Hr Ho H0 H1 H2 H3 H4
  iapply (out_leaves c W t d5 a e) $$ H5

theorem body_obligation : BodyObligation (dat (F := F) c W) (defs₀ (F := F)) Variants.none () Set.univ := fun t => by
  rw [bigSep_W1, bigSep_W1]
  exact sound_body c W t

theorem Phi_last : (dat c W).Φ (Fin.last cfg1.N)
    ⊢ (Pipeline.scopedRest (Ix := Unit) (Name := ℕ) (U := UR sig nD τ) (Lvl := ℕ) (Val := Elt F) spec1 c : sProp 𝕄) := by
  show PhiS c W (12499 + 1) ⊢ _
  rw [PhiS_succ, scopedRest1_split, owns_whole]
  iintro ⟨Ha, Hr⟩
  iframe Hr
  iexists _; iexact Ha

end Body

end Cert.KernelIdeal.R1

end
-- ==== Proof.KI.R2.lean ====
import proofs.«430694_j29257317220564_2_alg».proof.Proof.Gen.KernelIdeal.Skeleton
import proofs.«430694_j29257317220564_2_alg».proof.Proof.Gen.KernelIdeal.Launch
import proofs.«430694_j29257317220564_2_alg».proof.Proof.KI.Gather
import Idealize.ShloMosaic.Lib.Tactic
import Idealize.ShloMosaic.Lib.Pipeline.Kit
import Idealize.ShloMosaic.Lib.Pipeline.Frame
import Idealize.ShloMosaic.Lib.Pipeline.FrameBody
import Idealize.ShloMosaic.Lib.Pipeline.Value

noncomputable section

namespace Cert.KernelIdeal.R2

open Cert.KernelIdeal Cert.KernelIdeal.Gen Cert.KernelIdeal.Gather
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

section Data

variable (c : Dev nD) (W : (b : Ref sig .tc) → Buf (Elt F) ((c : Thread nD τ).loc b))

def blk (w : Fin cfg2.W) (t : Fin cfg2.N) : ((cfg2.win w).xblock (cfg2.grid.coords t)).Idx → Elt F (cfg2.win w).elt :=
  ((cfg2.win w).blk t).view.read (Elt F) (W (Pipeline.arrRef spec2 w))

def pt (n : ℕ) : Fin cfg2.N := ⟨n % 12500, Nat.mod_lt _ (by decide)⟩

theorem pt_val (t : Fin cfg2.N) : pt t.val = t := Fin.ext (Nat.mod_eq_of_lt t.isLt)

def acc : ℕ → FVec F S3200x128 .f32
  | 0 => accStep (grid2.coords (pt 0)) (blk c W 0 (pt 0)) (blk c W 1 (pt 0)) pay1
  | n + 1 => accStep (grid2.coords (pt (n + 1))) (blk c W 0 (pt (n + 1))) (blk c W 1 (pt (n + 1))) (acc n)

abbrev scM : Memref sig .tc .vmem S3200x128 .f32 := Memref.whole cc2_scratch0

def PhiS : ℕ → sProp 𝕄
  | 0 => Pipeline.scopedRest (Ix := Unit) (Name := ℕ) (U := UR sig nD τ) (Lvl := ℕ) (Val := Elt F) spec2 c
  | n + 1 => iprop(owns (c : Thread nD τ) scM fullShare (acc c W n)
      ∗ Pipeline.scopedRestBut (Ix := Unit) (Name := ℕ) (U := UR sig nD τ) (Lvl := ℕ) (Val := Elt F) spec2 c [cc2_scratch0])

def dat : Dat τ (Elt F) Unit ℕ (UR sig nD τ) ℕ cfg2 c where
  A w := W (Pipeline.arrRef spec2 w)
  after w t := match w with
    | ⟨0, _⟩ => blk c W 0 t
    | ⟨1, _⟩ => blk c W 1 t
    | ⟨2, _⟩ => pay3 (acc c W t.val)
  Φ t := PhiS c W t.val
  q _ := fullShare
  owed _ := 0

theorem PhiS_succ (n : ℕ) : PhiS c W (n + 1) = iprop(owns (c : Thread nD τ) scM fullShare (acc c W n)
      ∗ Pipeline.scopedRestBut (Ix := Unit) (Name := ℕ) (U := UR sig nD τ) (Lvl := ℕ) (Val := Elt F) spec2 c [cc2_scratch0]) := rfl

theorem A_eq (w : Fin cfg2.W) : (dat c W).A w = W (Pipeline.arrRef spec2 w) := by dsimp only [dat]
theorem after_0 (t : Fin cfg2.N) : (dat c W).after 0 t = blk c W 0 t := by dsimp only [dat]
theorem after_1 (t : Fin cfg2.N) : (dat c W).after 1 t = blk c W 1 t := by dsimp only [dat]
theorem after_2 (t : Fin cfg2.N) : (dat c W).after 2 t = pay3 (acc c W t.val) := by dsimp only [dat]

theorem before_0 (t : Fin cfg2.N) (d) : (dat c W).before 0 t d = blk c W 0 t :=
  ((dat c W).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (t : Fin cfg2.N) (d) : (dat c W).before 1 t d = blk c W 1 t :=
  ((dat c W).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)

theorem Phi_castSucc (t : Fin cfg2.N) : (dat c W).Φ t.castSucc = PhiS c W t.val := by
  dsimp only [dat]; simp only [Fin.coe_castSucc]
theorem Phi_succ (t : Fin cfg2.N) : (dat c W).Φ t.succ = PhiS c W (t.val + 1) := by
  dsimp only [dat]; simp only [Fin.val_succ]

theorem acc_step (t : Fin cfg2.N) (a : Vec F S3200x128 .f32) (ha : t.val % 50 ≠ 0 → a = acc c W (t.val - 1)) :
    accStep (grid2.coords t) (blk c W 0 t) (blk c W 1 t) a = acc c W t.val := by
  obtain ⟨n, hn⟩ := t
  cases n with
  | zero =>
    show _ = accStep (grid2.coords (pt 0)) (blk c W 0 (pt 0)) (blk c W 1 (pt 0)) pay1
    rw [show (pt 0 : Fin cfg2.N) = ⟨0, hn⟩ from pt_val ⟨0, hn⟩]
    exact accStep_first ((cond1_iff ⟨0, hn⟩).mpr rfl) _ _ _ _
  | succ n =>
    show _ = accStep (grid2.coords (pt (n + 1))) (blk c W 0 (pt (n + 1))) (blk c W 1 (pt (n + 1))) (acc c W n)
    rw [show (pt (n + 1) : Fin cfg2.N) = ⟨n + 1, hn⟩ from pt_val ⟨n + 1, hn⟩]
    by_cases h0 : (n + 1) % 50 = 0
    · exact accStep_first ((cond1_iff ⟨n + 1, hn⟩).mpr h0) _ _ _ _
    · rw [ha h0]; rfl

end Data

abbrev st_0 (t : Fin cfg2.N) := (cfg2.win 0).stage (cfg2.slots t 0)
abbrev st_1 (t : Fin cfg2.N) := (cfg2.win 1).stage (cfg2.slots t 1)
abbrev st_2 (t : Fin cfg2.N) := (cfg2.win 2).stage (cfg2.slots t 2)

abbrev bodyAt (t : Fin cfg2.N) : Prog (TpuEff nD τ sig (Elt F) Λ₀ .tc) PUnit :=
  kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (Memref.whole cc2_scratch0) (Memref.isWhole_whole _)

theorem no_flush (t : Fin cfg2.N) (h : t.val % 50 ≠ 49) : (cfg2.win 2).flush t = false := by
  have hN : grid2.N = 12500 := N_2
  have hlt : t.val < 12500 := hN ▸ t.isLt
  rw [Pipeline.Window.flush_eq_flushOf]
  unfold Pipeline.Window.flushOf
  have h1 : ¬ (t.val + 1 = grid2.N) := by rw [hN]; omega
  have h2 : ¬ ∃ hl : t.val + 1 < grid2.N,
      (cfg2.win 2).indexMap (grid2.coords ⟨t.val + 1, hl⟩) ≠ (cfg2.win 2).indexMap (grid2.coords t) := by
    rintro ⟨hl, hne⟩
    apply hne
    show cc2_transform_2 _ = cc2_transform_2 _
    refine hreads2_2 _ _ fun a ha => ?_
    match a, ha with
    | ⟨0, _⟩, _ => exact coord0_succ t hl h
    | ⟨1, _⟩, ha => exact (Bool.false_ne_true ha).elim
  simp [h1, h2]

section Body

variable (c : Dev nD) (W : (b : Ref sig .tc) → Buf (Elt F) ((c : Thread nD τ).loc b))

theorem PhiS_open (t : Fin cfg2.N) :
    PhiS c W t.val ⊢ (iprop(∃ a : Vec F S3200x128 .f32, ⌜t.val % 50 ≠ 0 → a = acc c W (t.val - 1)⌝
      ∗ owns (c : Thread nD τ) scM fullShare a
      ∗ Pipeline.scopedRestBut (Ix := Unit) (Name := ℕ) (U := UR sig nD τ) (Lvl := ℕ) (Val := Elt F) spec2 c [cc2_scratch0]) : sProp 𝕄) := by
  obtain ⟨n, hn⟩ := t
  cases n with
  | zero =>
    show Pipeline.scopedRest (Ix := Unit) (Name := ℕ) (U := UR sig nD τ) (Lvl := ℕ) (Val := Elt F) spec2 c ⊢ _
    rw [scopedRest2_split]
    iintro ⟨⟨%f, Hf⟩, Hr⟩
    iexists f
    isplitr
    · ipureintro; intro h; exact absurd rfl h
    isplitl [Hf]
    · rw [owns_whole]; iexact Hf
    · iexact Hr
  | succ n =>
    show PhiS c W (n + 1) ⊢ _
    rw [PhiS_succ]
    iintro ⟨Ha, Hr⟩
    iexists acc c W n
    isplitr
    · ipureintro; intro _; rfl
    isplitl [Ha]
    · iexact Ha
    · iexact Hr

def bodyPre (t : Fin cfg2.N) : sProp 𝕄 :=
  iprop((dat c W).Φ t.castSucc ∗ (dat c W).owesAt () t.castSucc
    ∗ (∃ d, owns (c : Thread nD τ) (st_0 t) fullShare ((dat c W).before 0 t d))
    ∗ (∃ d, owns (c : Thread nD τ) (st_1 t) fullShare ((dat c W).before 1 t d))
    ∗ (∃ d, owns (c : Thread nD τ) (st_2 t) fullShare ((dat c W).before 2 t d)))

def bodyPost (t : Fin cfg2.N) : sProp 𝕄 :=
  iprop((dat c W).Φ t.succ ∗ (dat c W).owesAt () t.succ
    ∗ owns (c : Thread nD τ) (st_0 t) fullShare ((dat c W).after 0 t)
    ∗ owns (c : Thread nD τ) (st_1 t) fullShare ((dat c W).after 1 t)
    ∗ (dat c W).leavesExact 2 t)

/-- What the point leaves in the message window's buffer is what the proof data say: written at the last node block, kept otherwise. -/
theorem leaves_2 (t : Fin cfg2.N) (d2) (a : Vec F S3200x128 .f32)
    (e : accStep (grid2.coords t) (blk c W 0 t) (blk c W 1 t) a = acc c W t.val) :
    owns (c : Thread nD τ) (st_2 t) fullShare
        (outStep (grid2.coords t) (blk c W 0 t) (blk c W 1 t) ((dat c W).before 2 t d2) a)
      ⊢ (dat c W).leavesExact 2 t := by
  unfold outStep
  by_cases h2 : cond2 (grid2.coords t) = 1#1
  · have hi : cfg2.idle 2 (cfg2.grid.coords t) = false := by
      show (!(cond2 (grid2.coords t) == 1#1)) = false
      rw [h2]; rfl
    have hL : (dat c W).leavesExact 2 t = owns (c : Thread nD τ) (st_2 t) fullShare ((dat c W).after 2 t) := by
      unfold Dat.leavesExact; rw [hi]
    rw [hL, after_2, if_pos h2, e]
  · have hi : cfg2.idle 2 (cfg2.grid.coords t) = true := by
      show (!(cond2 (grid2.coords t) == 1#1)) = true
      simp [h2]
    rw [(dat c W).leavesExact_idle 2 t hi (no_flush t fun h49 => h2 ((cond2_iff t).mpr h49)), if_neg h2]
    iintro H; iexists d2; iexact H

/-- The body at any point: the buffers hold their blocks and the accumulator so far, so the body's triple applies. -/
theorem sound_body (t : Fin cfg2.N) :
    bodyPre c W t ⊢ wp frame (wpE (defs₀ (F := F)) Variants.none c none) Set.univ (bodyAt t) (fun _ => bodyPost c W t) := by
  unfold bodyPre bodyPost bodyAt
  simp only [before_0, before_1]
  rw [Phi_castSucc, Phi_succ, after_0, after_1, show (dat c W).owesAt () t.succ = (dat c W).owesAt () t.castSucc from rfl]
  iintro ⟨HΦ, Ho, ⟨%d0, H0⟩, ⟨%d1, H1⟩, ⟨%d2, H2⟩⟩
  ihave HΦ' := (PhiS_open c W t) $$ HΦ
  icases HΦ' with ⟨%a, %ha, Ha, Hr⟩
  have e := acc_step c W t a ha
  iapply (sound_kernel c (grid2.coords t) _ _ _ _ _ _ scM (Memref.isWhole_whole _) (blk c W 0 t) (blk c W 1 t) ((dat c W).before 2 t d2) a _)
  isplitl [H0]; · iexact H0
  isplitl [H1]; · iexact H1
  isplitl [H2]; · iexact H2
  isplitl [Ha]; · iexact Ha
  iintro ⟨H0, H1, H2, Ha⟩
  rw [e, PhiS_succ]
  isplitl [Ha Hr]
  · isplitl [Ha]; · iexact Ha
    iexact Hr
  isplitl [Ho]; · iexact Ho
  isplitl [H0]; · iexact H0
  isplitl [H1]; · iexact H1
  iapply (leaves_2 c W t d2 a e); iexact H2

theorem body_obligation : BodyObligation (dat (F := F) c W) (defs₀ (F := F)) Variants.none () Set.univ := fun t => by
  rw [bigSep_W2, bigSep_W2]
  exact sound_body c W t

theorem Phi_last : (dat c W).Φ (Fin.last cfg2.N)
    ⊢ (Pipeline.scopedRest (Ix := Unit) (Name := ℕ) (U := UR sig nD τ) (Lvl := ℕ) (Val := Elt F) spec2 c : sProp 𝕄) := by
  show PhiS c W (12499 + 1) ⊢ _
  rw [PhiS_succ, scopedRest2_split]
  iintro ⟨Ha, Hr⟩
  isplitl [Ha]
  · unfold owns
    icases Ha with ⟨%f, -, Hf⟩
    iexists f
    simp only [Memref.view_whole, View.set_whole]
    iexact Hf
  · iexact Hr

end Body

end Cert.KernelIdeal.R2

end
-- ==== Proof.KI.R3.lean ====
import proofs.«430694_j29257317220564_2_alg».proof.Proof.Gen.KernelIdeal.Skeleton
import proofs.«430694_j29257317220564_2_alg».proof.Proof.Gen.KernelIdeal.Launch
import proofs.«430694_j29257317220564_2_alg».proof.Proof.KI.Scatter
import Idealize.ShloMosaic.Lib.Tactic
import Idealize.ShloMosaic.Lib.Pipeline.Kit
import Idealize.ShloMosaic.Lib.Pipeline.Frame
import Idealize.ShloMosaic.Lib.Pipeline.FrameBody
import Idealize.ShloMosaic.Lib.Pipeline.Value

noncomputable section

namespace Cert.KernelIdeal.R3

open Cert.KernelIdeal Cert.KernelIdeal.Gen Cert.KernelIdeal.Scatter
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

section Data

variable (c : Dev nD) (W : (b : Ref sig .tc) → Buf (Elt F) ((c : Thread nD τ).loc b))

def blk (w : Fin cfg3.W) (t : Fin cfg3.N) : ((cfg3.win w).xblock (cfg3.grid.coords t)).Idx → Elt F (cfg3.win w).elt :=
  ((cfg3.win w).blk t).view.read (Elt F) (W (Pipeline.arrRef spec3 w))

def pt (n : ℕ) : Fin cfg3.N := ⟨n % 12500, Nat.mod_lt _ (by decide)⟩

theorem pt_val (t : Fin cfg3.N) : pt t.val = t := Fin.ext (Nat.mod_eq_of_lt t.isLt)

/-- The accumulator after point `n`. -/
def acc : ℕ → FVec F S1000x128 .f32
  | 0 => accStep (grid3.coords (pt 0)) (blk c W 0 (pt 0)) (blk c W 1 (pt 0)) pay1
  | n + 1 => accStep (grid3.coords (pt (n + 1))) (blk c W 0 (pt (n + 1))) (blk c W 1 (pt (n + 1))) (acc n)

abbrev scM : Memref sig .tc .vmem S1000x128 .f32 := Memref.whole cc3_scratch0

def PhiS : ℕ → sProp 𝕄
  | 0 => Pipeline.scopedRest (Ix := Unit) (Name := ℕ) (U := UR sig nD τ) (Lvl := ℕ) (Val := Elt F) spec3 c
  | n + 1 => iprop(owns (c : Thread nD τ) scM fullShare (acc c W n)
      ∗ Pipeline.scopedRestBut (Ix := Unit) (Name := ℕ) (U := UR sig nD τ) (Lvl := ℕ) (Val := Elt F) spec3 c [cc3_scratch0])

def dat : Dat τ (Elt F) Unit ℕ (UR sig nD τ) ℕ cfg3 c where
  A w := W (Pipeline.arrRef spec3 w)
  after w t := match w with
    | ⟨0, _⟩ => blk c W 0 t
    | ⟨1, _⟩ => blk c W 1 t
    | ⟨2, _⟩ => blk c W 2 t
    | ⟨3, _⟩ => blk c W 3 t
    | ⟨4, _⟩ => blk c W 4 t
    | ⟨5, _⟩ => pay3 (blk c W 2 t) (acc c W t.val) (blk c W 3 t) (blk c W 4 t)
  Φ t := PhiS c W t.val
  q _ := fullShare
  owed _ := 0

theorem PhiS_succ (n : ℕ) : PhiS c W (n + 1) = iprop(owns (c : Thread nD τ) scM fullShare (acc c W n)
      ∗ Pipeline.scopedRestBut (Ix := Unit) (Name := ℕ) (U := UR sig nD τ) (Lvl := ℕ) (Val := Elt F) spec3 c [cc3_scratch0]) := rfl

theorem A_eq (w : Fin cfg3.W) : (dat c W).A w = W (Pipeline.arrRef spec3 w) := by dsimp only [dat]
theorem after_0 (t : Fin cfg3.N) : (dat c W).after 0 t = blk c W 0 t := by dsimp only [dat]
theorem after_1 (t : Fin cfg3.N) : (dat c W).after 1 t = blk c W 1 t := by dsimp only [dat]
theorem after_2 (t : Fin cfg3.N) : (dat c W).after 2 t = blk c W 2 t := by dsimp only [dat]
theorem after_3 (t : Fin cfg3.N) : (dat c W).after 3 t = blk c W 3 t := by dsimp only [dat]
theorem after_4 (t : Fin cfg3.N) : (dat c W).after 4 t = blk c W 4 t := by dsimp only [dat]
theorem after_5 (t : Fin cfg3.N) :
    (dat c W).after 5 t = pay3 (blk c W 2 t) (acc c W t.val) (blk c W 3 t) (blk c W 4 t) := by dsimp only [dat]

theorem before_in (t : Fin cfg3.N) : (∀ d, (dat c W).before 0 t d = blk c W 0 t) ∧ (∀ d, (dat c W).before 1 t d = blk c W 1 t)
    ∧ (∀ d, (dat c W).before 2 t d = blk c W 2 t) ∧ (∀ d, (dat c W).before 3 t d = blk c W 3 t)
    ∧ (∀ d, (dat c W).before 4 t d = blk c W 4 t) := by
  refine ⟨fun d => ?_, fun d => ?_, fun d => ?_, fun d => ?_, fun d => ?_⟩
  all_goals
    refine ((dat c W).before_in_eq_fetched _ rfl (fun _ => rfl) (fun _ _ _ => rfl) (fun t => ?_) t d).trans ?_
    · simp only [after_0, after_1, after_2, after_3, after_4]; unfold Dat.blockOf blk; rw [A_eq]; try rfl
    · unfold Dat.fetched Dat.blockOf blk; rw [A_eq]; try rfl

theorem Phi_castSucc (t : Fin cfg3.N) : (dat c W).Φ t.castSucc = PhiS c W t.val := by
  dsimp only [dat]; simp only [Fin.coe_castSucc]
theorem Phi_succ (t : Fin cfg3.N) : (dat c W).Φ t.succ = PhiS c W (t.val + 1) := by
  dsimp only [dat]; simp only [Fin.val_succ]

theorem acc_step (t : Fin cfg3.N) (a : Vec F S1000x128 .f32) (ha : t.val % 250 ≠ 0 → a = acc c W (t.val - 1)) :
    accStep (grid3.coords t) (blk c W 0 t) (blk c W 1 t) a = acc c W t.val := by
  have hp := pt_val t
  rcases h : t.val with _ | n <;> rw [h] at hp ha <;> unfold acc <;> rw [hp]
  · exact accStep_first ((cond1_iff t).mpr (by rw [h])) _ _ _ _
  · by_cases h0 : (n + 1) % 250 = 0
    · exact accStep_first ((cond1_iff t).mpr (by rw [h]; exact h0)) _ _ _ _
    · rw [ha h0]; rfl

end Data

abbrev st_0 (t : Fin cfg3.N) := (cfg3.win 0).stage (cfg3.slots t 0)
abbrev st_1 (t : Fin cfg3.N) := (cfg3.win 1).stage (cfg3.slots t 1)
abbrev st_2 (t : Fin cfg3.N) := (cfg3.win 2).stage (cfg3.slots t 2)
abbrev st_3 (t : Fin cfg3.N) := (cfg3.win 3).stage (cfg3.slots t 3)
abbrev st_4 (t : Fin cfg3.N) := (cfg3.win 4).stage (cfg3.slots t 4)
abbrev st_5 (t : Fin cfg3.N) := (cfg3.win 5).stage (cfg3.slots t 5)

/-- Before the last edge block of a node block the next point has the same node block, so the output block stays. -/
theorem no_flush (t : Fin cfg3.N) (h : t.val % 250 ≠ 249) : (cfg3.win 5).flush t = false := by
  have hlt : t.val < 12500 := N_3 ▸ t.isLt
  rw [Pipeline.Window.flush_eq_flushOf]
  unfold Pipeline.Window.flushOf
  have h1 : ¬ (t.val + 1 = grid3.N) := by rw [N_3]; omega
  have h2 : ¬ ∃ hl : t.val + 1 < grid3.N,
      (cfg3.win 5).indexMap (grid3.coords ⟨t.val + 1, hl⟩) ≠ (cfg3.win 5).indexMap (grid3.coords t) := by
    rintro ⟨hl, hne⟩
    refine hne (hreads3_5 _ _ fun a ha => ?_)
    match a, ha with
    | ⟨0, _⟩, _ => exact coord0_succ t hl h
    | ⟨1, _⟩, ha => exact (Bool.false_ne_true ha).elim
  simp [h1, h2]

section Body

variable (c : Dev nD) (W : (b : Ref sig .tc) → Buf (Elt F) ((c : Thread nD τ).loc b))

theorem PhiS_open (t : Fin cfg3.N) :
    PhiS c W t.val ⊢ (iprop(∃ a : Vec F S1000x128 .f32, ⌜t.val % 250 ≠ 0 → a = acc c W (t.val - 1)⌝
      ∗ owns (c : Thread nD τ) scM fullShare a
      ∗ Pipeline.scopedRestBut (Ix := Unit) (Name := ℕ) (U := UR sig nD τ) (Lvl := ℕ) (Val := Elt F) spec3 c [cc3_scratch0]) : sProp 𝕄) := by
  rcases h : t.val with _ | n
  · unfold PhiS; rw [scopedRest3_split]
    iintro ⟨⟨%f, Hf⟩, Hr⟩
    iexists f; rw [owns_whole]; iframe Hf Hr
    ipureintro; exact fun h => absurd rfl h
  · rw [PhiS_succ]
    iintro ⟨Ha, Hr⟩
    iexists acc c W n; iframe Ha Hr
    ipureintro; exact fun _ => rfl

def bodyPre (t : Fin cfg3.N) : sProp 𝕄 :=
  iprop((dat c W).Φ t.castSucc ∗ (dat c W).owesAt () t.castSucc
    ∗ (∃ d, owns (c : Thread nD τ) (st_0 t) fullShare ((dat c W).before 0 t d))
    ∗ (∃ d, owns (c : Thread nD τ) (st_1 t) fullShare ((dat c W).before 1 t d))
    ∗ (∃ d, owns (c : Thread nD τ) (st_2 t) fullShare ((dat c W).before 2 t d))
    ∗ (∃ d, owns (c : Thread nD τ) (st_3 t) fullShare ((dat c W).before 3 t d))
    ∗ (∃ d, owns (c : Thread nD τ) (st_4 t) fullShare ((dat c W).before 4 t d))
    ∗ (∃ d, owns (c : Thread nD τ) (st_5 t) fullShare ((dat c W).before 5 t d)))

def bodyPost (t : Fin cfg3.N) : sProp 𝕄 :=
  iprop((dat c W).Φ t.succ ∗ (dat c W).owesAt () t.succ
    ∗ owns (c : Thread nD τ) (st_0 t) fullShare ((dat c W).after 0 t)
    ∗ owns (c : Thread nD τ) (st_1 t) fullShare ((dat c W).after 1 t)
    ∗ owns (c : Thread nD τ) (st_2 t) fullShare ((dat c W).after 2 t)
    ∗ owns (c : Thread nD τ) (st_3 t) fullShare ((dat c W).after 3 t)
    ∗ owns (c : Thread nD τ) (st_4 t) fullShare ((dat c W).after 4 t)
    ∗ (dat c W).leavesExact 5 t)

/-- What the body leaves in the output block's buffer is what the region is owed there: the layer's rows at the last
    edge block, and before it the buffer as found. -/
theorem out_leaves (t : Fin cfg3.N) (d) (a : Vec F S1000x128 .f32)
    (e : accStep (grid3.coords t) (blk c W 0 t) (blk c W 1 t) a = acc c W t.val) :
    owns (c : Thread nD τ) (st_5 t) fullShare (outStep (grid3.coords t) (blk c W 0 t) (blk c W 1 t) (blk c W 2 t) (blk c W 3 t)
        (blk c W 4 t) ((dat c W).before 5 t d) a) ⊢ ((dat c W).leavesExact 5 t : sProp 𝕄) := by
  unfold outStep
  by_cases h2 : cond2 (grid3.coords t) = 1#1
  · have hi : cfg3.idle 5 (cfg3.grid.coords t) = false := by
      show (!(cond2 (grid3.coords t) == 1#1)) = false
      rw [h2]; rfl
    unfold Dat.leavesExact; rw [hi, if_pos h2, e, after_5]
  · have hi : cfg3.idle 5 (cfg3.grid.coords t) = true := by
      show (!(cond2 (grid3.coords t) == 1#1)) = true
      simp [h2]
    rw [(dat c W).leavesExact_idle 5 t hi (no_flush t fun h => h2 ((cond2_iff t).mpr h)), if_neg h2]
    iintro H; iexists d; iexact H

theorem sound_body (t : Fin cfg3.N) :
    bodyPre c W t ⊢ wp frame (wpE (defs₀ (F := F)) Variants.none c none) Set.univ (defs₀ .tc cfg3.body (cfg3.bodyArgs t (cfg3.slots t))) (fun _ => bodyPost c W t) := by
  unfold bodyPre bodyPost
  sl_whnfR [defs₀, Defs.onTc]
  rw [kernel3_eq]
  simp only [before_in c W t]
  rw [Phi_castSucc, Phi_succ, after_0, after_1, after_2, after_3, after_4,
    show (dat c W).owesAt () t.succ = (dat c W).owesAt () t.castSucc from rfl]
  iintro ⟨HΦ, Ho, ⟨%d0, H0⟩, ⟨%d1, H1⟩, ⟨%d2, H2⟩, ⟨%d3, H3⟩, ⟨%d4, H4⟩, ⟨%d5, H5⟩⟩
  ihave HΦ' := (PhiS_open c W t) $$ HΦ
  icases HΦ' with ⟨%a, %ha, Ha, Hr⟩
  have e := acc_step c W t a ha
  iapply (sound_kernel c (grid3.coords t) _ _ _ _ _ _ _ _ _ _ _ _ scM (Memref.isWhole_whole _) (blk c W 0 t) (blk c W 1 t)
    (blk c W 2 t) (blk c W 3 t) (blk c W 4 t) ((dat c W).before 5 t d5) a _)
  iframe H0 H1 H2 H3 H4 H5 Ha
  iintro ⟨H0, H1, H2, H3, H4, H5, Ha⟩
  rw [e, PhiS_succ]
  iframe Ha Hr Ho H0 H1 H2 H3 H4
  iapply (out_leaves c W t d5 a e) $$ H5

theorem body_obligation : BodyObligation (dat (F := F) c W) (defs₀ (F := F)) Variants.none () Set.univ := fun t => by
  rw [bigSep_W3, bigSep_W3]
  exact sound_body c W t

theorem Phi_last : (dat c W).Φ (Fin.last cfg3.N)
    ⊢ (Pipeline.scopedRest (Ix := Unit) (Name := ℕ) (U := UR sig nD τ) (Lvl := ℕ) (Val := Elt F) spec3 c : sProp 𝕄) := by
  show PhiS c W (12499 + 1) ⊢ _
  rw [PhiS_succ, scopedRest3_split, owns_whole]
  iintro ⟨Ha, Hr⟩
  iframe Hr
  iexists _; iexact Ha

end Body

end Cert.KernelIdeal.R3

end
-- ==== Proof.KI.R4.lean ====
import proofs.«430694_j29257317220564_2_alg».proof.Proof.Gen.KernelIdeal.Skeleton
import proofs.«430694_j29257317220564_2_alg».proof.Proof.Gen.KernelIdeal.Launch
import proofs.«430694_j29257317220564_2_alg».proof.Proof.KI.Gather
import Idealize.ShloMosaic.Lib.Tactic
import Idealize.ShloMosaic.Lib.Pipeline.Kit
import Idealize.ShloMosaic.Lib.Pipeline.Frame
import Idealize.ShloMosaic.Lib.Pipeline.FrameBody
import Idealize.ShloMosaic.Lib.Pipeline.Value

noncomputable section

namespace Cert.KernelIdeal.R4

open Cert.KernelIdeal Cert.KernelIdeal.Gen Cert.KernelIdeal.Gather
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

section Data

variable (c : Dev nD) (W : (b : Ref sig .tc) → Buf (Elt F) ((c : Thread nD τ).loc b))

def blk (w : Fin cfg4.W) (t : Fin cfg4.N) : ((cfg4.win w).xblock (cfg4.grid.coords t)).Idx → Elt F (cfg4.win w).elt :=
  ((cfg4.win w).blk t).view.read (Elt F) (W (Pipeline.arrRef spec4 w))

def pt (n : ℕ) : Fin cfg4.N := ⟨n % 12500, Nat.mod_lt _ (by decide)⟩

theorem pt_val (t : Fin cfg4.N) : pt t.val = t := Fin.ext (Nat.mod_eq_of_lt t.isLt)

def acc : ℕ → FVec F S3200x128 .f32
  | 0 => accStep (grid4.coords (pt 0)) (blk c W 0 (pt 0)) (blk c W 1 (pt 0)) pay1
  | n + 1 => accStep (grid4.coords (pt (n + 1))) (blk c W 0 (pt (n + 1))) (blk c W 1 (pt (n + 1))) (acc n)

abbrev scM : Memref sig .tc .vmem S3200x128 .f32 := Memref.whole cc4_scratch0

def PhiS : ℕ → sProp 𝕄
  | 0 => Pipeline.scopedRest (Ix := Unit) (Name := ℕ) (U := UR sig nD τ) (Lvl := ℕ) (Val := Elt F) spec4 c
  | n + 1 => iprop(owns (c : Thread nD τ) scM fullShare (acc c W n)
      ∗ Pipeline.scopedRestBut (Ix := Unit) (Name := ℕ) (U := UR sig nD τ) (Lvl := ℕ) (Val := Elt F) spec4 c [cc4_scratch0])

def dat : Dat τ (Elt F) Unit ℕ (UR sig nD τ) ℕ cfg4 c where
  A w := W (Pipeline.arrRef spec4 w)
  after w t := match w with
    | ⟨0, _⟩ => blk c W 0 t
    | ⟨1, _⟩ => blk c W 1 t
    | ⟨2, _⟩ => pay3 (acc c W t.val)
  Φ t := PhiS c W t.val
  q _ := fullShare
  owed _ := 0

theorem PhiS_succ (n : ℕ) : PhiS c W (n + 1) = iprop(owns (c : Thread nD τ) scM fullShare (acc c W n)
      ∗ Pipeline.scopedRestBut (Ix := Unit) (Name := ℕ) (U := UR sig nD τ) (Lvl := ℕ) (Val := Elt F) spec4 c [cc4_scratch0]) := rfl

theorem A_eq (w : Fin cfg4.W) : (dat c W).A w = W (Pipeline.arrRef spec4 w) := by dsimp only [dat]
theorem after_0 (t : Fin cfg4.N) : (dat c W).after 0 t = blk c W 0 t := by dsimp only [dat]
theorem after_1 (t : Fin cfg4.N) : (dat c W).after 1 t = blk c W 1 t := by dsimp only [dat]
theorem after_2 (t : Fin cfg4.N) : (dat c W).after 2 t = pay3 (acc c W t.val) := by dsimp only [dat]

theorem before_0 (t : Fin cfg4.N) (d) : (dat c W).before 0 t d = blk c W 0 t :=
  ((dat c W).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (t : Fin cfg4.N) (d) : (dat c W).before 1 t d = blk c W 1 t :=
  ((dat c W).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)

theorem Phi_castSucc (t : Fin cfg4.N) : (dat c W).Φ t.castSucc = PhiS c W t.val := by
  dsimp only [dat]; simp only [Fin.coe_castSucc]
theorem Phi_succ (t : Fin cfg4.N) : (dat c W).Φ t.succ = PhiS c W (t.val + 1) := by
  dsimp only [dat]; simp only [Fin.val_succ]

theorem acc_step (t : Fin cfg4.N) (a : Vec F S3200x128 .f32) (ha : t.val % 50 ≠ 0 → a = acc c W (t.val - 1)) :
    accStep (grid4.coords t) (blk c W 0 t) (blk c W 1 t) a = acc c W t.val := by
  obtain ⟨n, hn⟩ := t
  cases n with
  | zero =>
    show _ = accStep (grid4.coords (pt 0)) (blk c W 0 (pt 0)) (blk c W 1 (pt 0)) pay1
    rw [show (pt 0 : Fin cfg4.N) = ⟨0, hn⟩ from pt_val ⟨0, hn⟩]
    exact accStep_first ((cond1_iff ⟨0, hn⟩).mpr rfl) _ _ _ _
  | succ n =>
    show _ = accStep (grid4.coords (pt (n + 1))) (blk c W 0 (pt (n + 1))) (blk c W 1 (pt (n + 1))) (acc c W n)
    rw [show (pt (n + 1) : Fin cfg4.N) = ⟨n + 1, hn⟩ from pt_val ⟨n + 1, hn⟩]
    by_cases h0 : (n + 1) % 50 = 0
    · exact accStep_first ((cond1_iff ⟨n + 1, hn⟩).mpr h0) _ _ _ _
    · rw [ha h0]; rfl

end Data

abbrev st_0 (t : Fin cfg4.N) := (cfg4.win 0).stage (cfg4.slots t 0)
abbrev st_1 (t : Fin cfg4.N) := (cfg4.win 1).stage (cfg4.slots t 1)
abbrev st_2 (t : Fin cfg4.N) := (cfg4.win 2).stage (cfg4.slots t 2)

abbrev bodyAt (t : Fin cfg4.N) : Prog (TpuEff nD τ sig (Elt F) Λ₀ .tc) PUnit :=
  kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (Memref.whole cc4_scratch0) (Memref.isWhole_whole _)

theorem no_flush (t : Fin cfg4.N) (h : t.val % 50 ≠ 49) : (cfg4.win 2).flush t = false := by
  have hN : grid4.N = 12500 := N_4
  have hlt : t.val < 12500 := hN ▸ t.isLt
  rw [Pipeline.Window.flush_eq_flushOf]
  unfold Pipeline.Window.flushOf
  have h1 : ¬ (t.val + 1 = grid4.N) := by rw [hN]; omega
  have h2 : ¬ ∃ hl : t.val + 1 < grid4.N,
      (cfg4.win 2).indexMap (grid4.coords ⟨t.val + 1, hl⟩) ≠ (cfg4.win 2).indexMap (grid4.coords t) := by
    rintro ⟨hl, hne⟩
    apply hne
    show cc4_transform_2 _ = cc4_transform_2 _
    refine hreads4_2 _ _ fun a ha => ?_
    match a, ha with
    | ⟨0, _⟩, _ => exact coord0_succ t hl h
    | ⟨1, _⟩, ha => exact (Bool.false_ne_true ha).elim
  simp [h1, h2]

section Body

variable (c : Dev nD) (W : (b : Ref sig .tc) → Buf (Elt F) ((c : Thread nD τ).loc b))

theorem PhiS_open (t : Fin cfg4.N) :
    PhiS c W t.val ⊢ (iprop(∃ a : Vec F S3200x128 .f32, ⌜t.val % 50 ≠ 0 → a = acc c W (t.val - 1)⌝
      ∗ owns (c : Thread nD τ) scM fullShare a
      ∗ Pipeline.scopedRestBut (Ix := Unit) (Name := ℕ) (U := UR sig nD τ) (Lvl := ℕ) (Val := Elt F) spec4 c [cc4_scratch0]) : sProp 𝕄) := by
  obtain ⟨n, hn⟩ := t
  cases n with
  | zero =>
    show Pipeline.scopedRest (Ix := Unit) (Name := ℕ) (U := UR sig nD τ) (Lvl := ℕ) (Val := Elt F) spec4 c ⊢ _
    rw [scopedRest4_split]
    iintro ⟨⟨%f, Hf⟩, Hr⟩
    iexists f
    isplitr
    · ipureintro; intro h; exact absurd rfl h
    isplitl [Hf]
    · rw [owns_whole]; iexact Hf
    · iexact Hr
  | succ n =>
    show PhiS c W (n + 1) ⊢ _
    rw [PhiS_succ]
    iintro ⟨Ha, Hr⟩
    iexists acc c W n
    isplitr
    · ipureintro; intro _; rfl
    isplitl [Ha]
    · iexact Ha
    · iexact Hr

def bodyPre (t : Fin cfg4.N) : sProp 𝕄 :=
  iprop((dat c W).Φ t.castSucc ∗ (dat c W).owesAt () t.castSucc
    ∗ (∃ d, owns (c : Thread nD τ) (st_0 t) fullShare ((dat c W).before 0 t d))
    ∗ (∃ d, owns (c : Thread nD τ) (st_1 t) fullShare ((dat c W).before 1 t d))
    ∗ (∃ d, owns (c : Thread nD τ) (st_2 t) fullShare ((dat c W).before 2 t d)))

def bodyPost (t : Fin cfg4.N) : sProp 𝕄 :=
  iprop((dat c W).Φ t.succ ∗ (dat c W).owesAt () t.succ
    ∗ owns (c : Thread nD τ) (st_0 t) fullShare ((dat c W).after 0 t)
    ∗ owns (c : Thread nD τ) (st_1 t) fullShare ((dat c W).after 1 t)
    ∗ (dat c W).leavesExact 2 t)

/-- What the point leaves in the message window's buffer is what the proof data say: written at the last node block, kept otherwise. -/
theorem leaves_2 (t : Fin cfg4.N) (d2) (a : Vec F S3200x128 .f32)
    (e : accStep (grid4.coords t) (blk c W 0 t) (blk c W 1 t) a = acc c W t.val) :
    owns (c : Thread nD τ) (st_2 t) fullShare
        (outStep (grid4.coords t) (blk c W 0 t) (blk c W 1 t) ((dat c W).before 2 t d2) a)
      ⊢ (dat c W).leavesExact 2 t := by
  unfold outStep
  by_cases h2 : cond2 (grid4.coords t) = 1#1
  · have hi : cfg4.idle 2 (cfg4.grid.coords t) = false := by
      show (!(cond2 (grid4.coords t) == 1#1)) = false
      rw [h2]; rfl
    have hL : (dat c W).leavesExact 2 t = owns (c : Thread nD τ) (st_2 t) fullShare ((dat c W).after 2 t) := by
      unfold Dat.leavesExact; rw [hi]
    rw [hL, after_2, if_pos h2, e]
  · have hi : cfg4.idle 2 (cfg4.grid.coords t) = true := by
      show (!(cond2 (grid4.coords t) == 1#1)) = true
      simp [h2]
    rw [(dat c W).leavesExact_idle 2 t hi (no_flush t fun h49 => h2 ((cond2_iff t).mpr h49)), if_neg h2]
    iintro H; iexists d2; iexact H

/-- The body at any point: the buffers hold their blocks and the accumulator so far, so the body's triple applies. -/
theorem sound_body (t : Fin cfg4.N) :
    bodyPre c W t ⊢ wp frame (wpE (defs₀ (F := F)) Variants.none c none) Set.univ (bodyAt t) (fun _ => bodyPost c W t) := by
  unfold bodyPre bodyPost bodyAt
  simp only [before_0, before_1]
  rw [Phi_castSucc, Phi_succ, after_0, after_1, show (dat c W).owesAt () t.succ = (dat c W).owesAt () t.castSucc from rfl]
  iintro ⟨HΦ, Ho, ⟨%d0, H0⟩, ⟨%d1, H1⟩, ⟨%d2, H2⟩⟩
  ihave HΦ' := (PhiS_open c W t) $$ HΦ
  icases HΦ' with ⟨%a, %ha, Ha, Hr⟩
  have e := acc_step c W t a ha
  iapply (sound_kernel c (grid4.coords t) _ _ _ _ _ _ scM (Memref.isWhole_whole _) (blk c W 0 t) (blk c W 1 t) ((dat c W).before 2 t d2) a _)
  isplitl [H0]; · iexact H0
  isplitl [H1]; · iexact H1
  isplitl [H2]; · iexact H2
  isplitl [Ha]; · iexact Ha
  iintro ⟨H0, H1, H2, Ha⟩
  rw [e, PhiS_succ]
  isplitl [Ha Hr]
  · isplitl [Ha]; · iexact Ha
    iexact Hr
  isplitl [Ho]; · iexact Ho
  isplitl [H0]; · iexact H0
  isplitl [H1]; · iexact H1
  iapply (leaves_2 c W t d2 a e); iexact H2

theorem body_obligation : BodyObligation (dat (F := F) c W) (defs₀ (F := F)) Variants.none () Set.univ := fun t => by
  rw [bigSep_W4, bigSep_W4]
  exact sound_body c W t

theorem Phi_last : (dat c W).Φ (Fin.last cfg4.N)
    ⊢ (Pipeline.scopedRest (Ix := Unit) (Name := ℕ) (U := UR sig nD τ) (Lvl := ℕ) (Val := Elt F) spec4 c : sProp 𝕄) := by
  show PhiS c W (12499 + 1) ⊢ _
  rw [PhiS_succ, scopedRest4_split]
  iintro ⟨Ha, Hr⟩
  isplitl [Ha]
  · unfold owns
    icases Ha with ⟨%f, -, Hf⟩
    iexists f
    simp only [Memref.view_whole, View.set_whole]
    iexact Hf
  · iexact Hr

end Body

end Cert.KernelIdeal.R4

end
-- ==== Proof.KI.R5.lean ====
import proofs.«430694_j29257317220564_2_alg».proof.Proof.Gen.KernelIdeal.Skeleton
import proofs.«430694_j29257317220564_2_alg».proof.Proof.Gen.KernelIdeal.Launch
import proofs.«430694_j29257317220564_2_alg».proof.Proof.KI.Scatter
import Idealize.ShloMosaic.Lib.Tactic
import Idealize.ShloMosaic.Lib.Pipeline.Kit
import Idealize.ShloMosaic.Lib.Pipeline.Frame
import Idealize.ShloMosaic.Lib.Pipeline.FrameBody
import Idealize.ShloMosaic.Lib.Pipeline.Value

noncomputable section

namespace Cert.KernelIdeal.R5

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

def cond1 (i : grid5.Coords) : BitVec 1 :=
  Scalar.cmpi .ne (Scalar.extui (Scalar.cmpi .eq (BitVec.ofNat 32 (i 1).val) 0#32)) 0#32

/-- The accumulator after a point: the one before it (zeros at the first edge block) plus the point's product. -/
def accStep (i : grid5.Coords) (s : Vec F S1x3200 .i32) (mg : Vec F S3200x128 .bf16) (a : Vec F S1000x128 .f32) :
    FVec F S1000x128 .f32 :=
  k5_pay2 i s mg (if cond1 i = 1#1 then k5_pay1 else a)

/-- The output block after a point: at the last edge block the layer applied to the node rows plus the accumulator. -/
def outStep (i : grid5.Coords) (s : Vec F S1x3200 .i32) (mg : Vec F S3200x128 .bf16) (x : Vec F S1000x128 .f32)
    (wt : Vec F S128x64 .f32) (b : Vec F S1x64 .f32) (o : Vec F S1000x64 .f32) (a : Vec F S1000x128 .f32) :
    Vec F S1000x64 .f32 :=
  if k5_cond2 i = 1#1 then k5_pay3 x (accStep i s mg a) wt b else o

theorem sound_kernel (c : Dev nD) (i : grid5.Coords)
    (arg2 : Memref sig .tc .vmem S1x3200 .i32) (harg2 : arg2.IsWhole) (arg3 : Memref sig .tc .vmem S3200x128 .bf16) (harg3 : arg3.IsWhole)
    (arg4 : Memref sig .tc .vmem S1000x128 .f32) (harg4 : arg4.IsWhole) (arg5 : Memref sig .tc .vmem S128x64 .f32) (harg5 : arg5.IsWhole)
    (arg6 : Memref sig .tc .vmem S1x64 .f32) (harg6 : arg6.IsWhole) (arg7 : Memref sig .tc .vmem S1000x64 .f32) (harg7 : arg7.IsWhole)
    (arg8 : Memref sig .tc .vmem S1000x128 .f32) (harg8 : arg8.IsWhole)
    (s : Vec F S1x3200 .i32) (mg : Vec F S3200x128 .bf16) (x : Vec F S1000x128 .f32) (wt : Vec F S128x64 .f32)
    (b : Vec F S1x64 .f32) (o : Vec F S1000x64 .f32) (a : Vec F S1000x128 .f32)
    (K : PUnit → sProp 𝕄) :
    iprop(owns (c : Thread nD τ) arg2 fullShare s ∗ owns (c : Thread nD τ) arg3 fullShare mg
        ∗ owns (c : Thread nD τ) arg4 fullShare x ∗ owns (c : Thread nD τ) arg5 fullShare wt
        ∗ owns (c : Thread nD τ) arg6 fullShare b ∗ owns (c : Thread nD τ) arg7 fullShare o
        ∗ owns (c : Thread nD τ) arg8 fullShare a
        ∗ (iprop(owns (c : Thread nD τ) arg2 fullShare s ∗ owns (c : Thread nD τ) arg3 fullShare mg
            ∗ owns (c : Thread nD τ) arg4 fullShare x ∗ owns (c : Thread nD τ) arg5 fullShare wt
            ∗ owns (c : Thread nD τ) arg6 fullShare b
            ∗ owns (c : Thread nD τ) arg7 fullShare (outStep i s mg x wt b o a)
            ∗ owns (c : Thread nD τ) arg8 fullShare (accStep i s mg a)) -∗ K ⟨⟩))
      ⊢ wp frame (wpE (defs₀ (F := F)) Variants.none c none) Set.univ
          (cc5__phaseBC_kernel i arg2 harg2 arg3 harg3 arg4 harg4 arg5 harg5 arg6 harg6 arg7 harg7 arg8 harg8) K := by
  simp only [cc5__phaseBC_kernel_eq_skeleton]; unfold cc5__phaseBC_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  by_cases h1 : cond1 i = 1#1 <;> by_cases h2 : k5_cond2 i = 1#1
  all_goals
    sl_exec (disch := first | exact h1 | exact h2)
    sl_step
    iapply Hk
    isplitl [H2]; · iapply Scatter.owns_of_read _ _ _ _ rfl $$ H2
    isplitl [H3]; · iapply Scatter.owns_of_read _ _ _ _ rfl $$ H3
    isplitl [H4]; · iapply Scatter.owns_of_read _ _ _ _ rfl $$ H4
    isplitl [H5]; · iapply Scatter.owns_of_read _ _ _ _ rfl $$ H5
    isplitl [H6]; · iapply Scatter.owns_of_read _ _ _ _ rfl $$ H6
    isplitl [H7]
    · iapply Scatter.owns_of_read _ _ _ _ ?_ $$ H7
      sl_unfold_words; unfold outStep accStep
      simp (disch := first | exact h1 | exact h2) only [if_pos, if_neg, Scatter.read_head, Scatter.readCov_head, View.readAt_eq_ld, Scatter.ld_whole]
    · iapply Scatter.owns_of_read _ _ _ _ ?_ $$ H8
      sl_unfold_words; unfold accStep
      simp (disch := exact h1) only [if_pos, if_neg, Scatter.read_head, Scatter.readCov_head, View.readAt_eq_ld, Scatter.ld_whole]

theorem coord1 (t : Fin cfg5.N) : (grid5.coords t 1).val = t.val % 250 := by
  show t.val / grid5.stride 1 % 250 = t.val % 250
  rw [show grid5.stride 1 = 1 from by decide, Nat.div_one]

theorem cond1_iff (t : Fin cfg5.N) : cond1 (grid5.coords t) = 1#1 ↔ t.val % 250 = 0 := by
  rw [← coord1 t]; exact Scatter.cond1_coord (grid5.coords t 1)

theorem cond2_iff (t : Fin cfg5.N) : k5_cond2 (grid5.coords t) = 1#1 ↔ t.val % 250 = 249 := by
  rw [← coord1 t]; exact Scatter.cond2_coord (grid5.coords t 1)

theorem accStep_first {i : grid5.Coords} (h : cond1 i = 1#1) (s : Vec F S1x3200 .i32) (mg : Vec F S3200x128 .bf16)
    (a a' : Vec F S1000x128 .f32) : accStep i s mg a = accStep i s mg a' := by
  unfold accStep; rw [if_pos h, if_pos h]

section Data

variable (c : Dev nD) (W : (b : Ref sig .tc) → Buf (Elt F) ((c : Thread nD τ).loc b))

def blk (w : Fin cfg5.W) (t : Fin cfg5.N) : ((cfg5.win w).xblock (cfg5.grid.coords t)).Idx → Elt F (cfg5.win w).elt :=
  ((cfg5.win w).blk t).view.read (Elt F) (W (Pipeline.arrRef spec5 w))

def pt (n : ℕ) : Fin cfg5.N := ⟨n % 12500, Nat.mod_lt _ (by decide)⟩

theorem pt_val (t : Fin cfg5.N) : pt t.val = t := Fin.ext (Nat.mod_eq_of_lt t.isLt)

/-- The accumulator after point `n`. -/
def acc : ℕ → FVec F S1000x128 .f32
  | 0 => accStep (grid5.coords (pt 0)) (blk c W 0 (pt 0)) (blk c W 1 (pt 0)) k5_pay1
  | n + 1 => accStep (grid5.coords (pt (n + 1))) (blk c W 0 (pt (n + 1))) (blk c W 1 (pt (n + 1))) (acc n)

abbrev scM : Memref sig .tc .vmem S1000x128 .f32 := Memref.whole cc5_scratch0

def PhiS : ℕ → sProp 𝕄
  | 0 => Pipeline.scopedRest (Ix := Unit) (Name := ℕ) (U := UR sig nD τ) (Lvl := ℕ) (Val := Elt F) spec5 c
  | n + 1 => iprop(owns (c : Thread nD τ) scM fullShare (acc c W n)
      ∗ Pipeline.scopedRestBut (Ix := Unit) (Name := ℕ) (U := UR sig nD τ) (Lvl := ℕ) (Val := Elt F) spec5 c [cc5_scratch0])

def dat : Dat τ (Elt F) Unit ℕ (UR sig nD τ) ℕ cfg5 c where
  A w := W (Pipeline.arrRef spec5 w)
  after w t := match w with
    | ⟨0, _⟩ => blk c W 0 t
    | ⟨1, _⟩ => blk c W 1 t
    | ⟨2, _⟩ => blk c W 2 t
    | ⟨3, _⟩ => blk c W 3 t
    | ⟨4, _⟩ => blk c W 4 t
    | ⟨5, _⟩ => k5_pay3 (blk c W 2 t) (acc c W t.val) (blk c W 3 t) (blk c W 4 t)
  Φ t := PhiS c W t.val
  q _ := fullShare
  owed _ := 0

theorem PhiS_succ (n : ℕ) : PhiS c W (n + 1) = iprop(owns (c : Thread nD τ) scM fullShare (acc c W n)
      ∗ Pipeline.scopedRestBut (Ix := Unit) (Name := ℕ) (U := UR sig nD τ) (Lvl := ℕ) (Val := Elt F) spec5 c [cc5_scratch0]) := rfl

theorem A_eq (w : Fin cfg5.W) : (dat c W).A w = W (Pipeline.arrRef spec5 w) := by dsimp only [dat]
theorem after_0 (t : Fin cfg5.N) : (dat c W).after 0 t = blk c W 0 t := by dsimp only [dat]
theorem after_1 (t : Fin cfg5.N) : (dat c W).after 1 t = blk c W 1 t := by dsimp only [dat]
theorem after_2 (t : Fin cfg5.N) : (dat c W).after 2 t = blk c W 2 t := by dsimp only [dat]
theorem after_3 (t : Fin cfg5.N) : (dat c W).after 3 t = blk c W 3 t := by dsimp only [dat]
theorem after_4 (t : Fin cfg5.N) : (dat c W).after 4 t = blk c W 4 t := by dsimp only [dat]
theorem after_5 (t : Fin cfg5.N) :
    (dat c W).after 5 t = k5_pay3 (blk c W 2 t) (acc c W t.val) (blk c W 3 t) (blk c W 4 t) := by dsimp only [dat]

theorem before_in (t : Fin cfg5.N) : (∀ d, (dat c W).before 0 t d = blk c W 0 t) ∧ (∀ d, (dat c W).before 1 t d = blk c W 1 t)
    ∧ (∀ d, (dat c W).before 2 t d = blk c W 2 t) ∧ (∀ d, (dat c W).before 3 t d = blk c W 3 t)
    ∧ (∀ d, (dat c W).before 4 t d = blk c W 4 t) := by
  refine ⟨fun d => ?_, fun d => ?_, fun d => ?_, fun d => ?_, fun d => ?_⟩
  all_goals
    refine ((dat c W).before_in_eq_fetched _ rfl (fun _ => rfl) (fun _ _ _ => rfl) (fun t => ?_) t d).trans ?_
    · simp only [after_0, after_1, after_2, after_3, after_4]; unfold Dat.blockOf blk; rw [A_eq]; try rfl
    · unfold Dat.fetched Dat.blockOf blk; rw [A_eq]; try rfl

theorem Phi_castSucc (t : Fin cfg5.N) : (dat c W).Φ t.castSucc = PhiS c W t.val := by
  dsimp only [dat]; simp only [Fin.coe_castSucc]
theorem Phi_succ (t : Fin cfg5.N) : (dat c W).Φ t.succ = PhiS c W (t.val + 1) := by
  dsimp only [dat]; simp only [Fin.val_succ]

theorem acc_step (t : Fin cfg5.N) (a : Vec F S1000x128 .f32) (ha : t.val % 250 ≠ 0 → a = acc c W (t.val - 1)) :
    accStep (grid5.coords t) (blk c W 0 t) (blk c W 1 t) a = acc c W t.val := by
  have hp := pt_val t
  rcases h : t.val with _ | n <;> rw [h] at hp ha <;> unfold acc <;> rw [hp]
  · exact accStep_first ((cond1_iff t).mpr (by rw [h])) _ _ _ _
  · by_cases h0 : (n + 1) % 250 = 0
    · exact accStep_first ((cond1_iff t).mpr (by rw [h]; exact h0)) _ _ _ _
    · rw [ha h0]; rfl

end Data

abbrev st_0 (t : Fin cfg5.N) := (cfg5.win 0).stage (cfg5.slots t 0)
abbrev st_1 (t : Fin cfg5.N) := (cfg5.win 1).stage (cfg5.slots t 1)
abbrev st_2 (t : Fin cfg5.N) := (cfg5.win 2).stage (cfg5.slots t 2)
abbrev st_3 (t : Fin cfg5.N) := (cfg5.win 3).stage (cfg5.slots t 3)
abbrev st_4 (t : Fin cfg5.N) := (cfg5.win 4).stage (cfg5.slots t 4)
abbrev st_5 (t : Fin cfg5.N) := (cfg5.win 5).stage (cfg5.slots t 5)

theorem coord0 (t : Fin cfg5.N) : (grid5.coords t 0).val = t.val / 250 % 50 := by
  show t.val / grid5.stride 0 % 50 = t.val / 250 % 50
  rw [show grid5.stride 0 = 250 from by decide]

/-- Before the last edge block of a node block the next point has the same node block, so the output block stays. -/
theorem no_flush (t : Fin cfg5.N) (h : t.val % 250 ≠ 249) : (cfg5.win 5).flush t = false := by
  have hlt : t.val < 12500 := N_5 ▸ t.isLt
  rw [Pipeline.Window.flush_eq_flushOf]
  unfold Pipeline.Window.flushOf
  have h1 : ¬ (t.val + 1 = grid5.N) := by rw [N_5]; omega
  have h2 : ¬ ∃ hl : t.val + 1 < grid5.N,
      (cfg5.win 5).indexMap (grid5.coords ⟨t.val + 1, hl⟩) ≠ (cfg5.win 5).indexMap (grid5.coords t) := by
    rintro ⟨hl, hne⟩
    refine hne (hreads5_5 _ _ fun a ha => ?_)
    match a, ha with
    | ⟨0, _⟩, _ => exact Scatter.coord0_succ t hl h
    | ⟨1, _⟩, ha => exact (Bool.false_ne_true ha).elim
  simp [h1, h2]

section Body

variable (c : Dev nD) (W : (b : Ref sig .tc) → Buf (Elt F) ((c : Thread nD τ).loc b))

theorem PhiS_open (t : Fin cfg5.N) :
    PhiS c W t.val ⊢ (iprop(∃ a : Vec F S1000x128 .f32, ⌜t.val % 250 ≠ 0 → a = acc c W (t.val - 1)⌝
      ∗ owns (c : Thread nD τ) scM fullShare a
      ∗ Pipeline.scopedRestBut (Ix := Unit) (Name := ℕ) (U := UR sig nD τ) (Lvl := ℕ) (Val := Elt F) spec5 c [cc5_scratch0]) : sProp 𝕄) := by
  rcases h : t.val with _ | n
  · unfold PhiS; rw [scopedRest5_split]
    iintro ⟨⟨%f, Hf⟩, Hr⟩
    iexists f; rw [owns_whole]; iframe Hf Hr
    ipureintro; exact fun h => absurd rfl h
  · rw [PhiS_succ]
    iintro ⟨Ha, Hr⟩
    iexists acc c W n; iframe Ha Hr
    ipureintro; exact fun _ => rfl

def bodyPre (t : Fin cfg5.N) : sProp 𝕄 :=
  iprop((dat c W).Φ t.castSucc ∗ (dat c W).owesAt () t.castSucc
    ∗ (∃ d, owns (c : Thread nD τ) (st_0 t) fullShare ((dat c W).before 0 t d))
    ∗ (∃ d, owns (c : Thread nD τ) (st_1 t) fullShare ((dat c W).before 1 t d))
    ∗ (∃ d, owns (c : Thread nD τ) (st_2 t) fullShare ((dat c W).before 2 t d))
    ∗ (∃ d, owns (c : Thread nD τ) (st_3 t) fullShare ((dat c W).before 3 t d))
    ∗ (∃ d, owns (c : Thread nD τ) (st_4 t) fullShare ((dat c W).before 4 t d))
    ∗ (∃ d, owns (c : Thread nD τ) (st_5 t) fullShare ((dat c W).before 5 t d)))

def bodyPost (t : Fin cfg5.N) : sProp 𝕄 :=
  iprop((dat c W).Φ t.succ ∗ (dat c W).owesAt () t.succ
    ∗ owns (c : Thread nD τ) (st_0 t) fullShare ((dat c W).after 0 t)
    ∗ owns (c : Thread nD τ) (st_1 t) fullShare ((dat c W).after 1 t)
    ∗ owns (c : Thread nD τ) (st_2 t) fullShare ((dat c W).after 2 t)
    ∗ owns (c : Thread nD τ) (st_3 t) fullShare ((dat c W).after 3 t)
    ∗ owns (c : Thread nD τ) (st_4 t) fullShare ((dat c W).after 4 t)
    ∗ (dat c W).leavesExact 5 t)

/-- What the body leaves in the output block's buffer is what the region is owed there: the layer's rows at the last
    edge block, and before it the buffer as found. -/
theorem out_leaves (t : Fin cfg5.N) (d) (a : Vec F S1000x128 .f32)
    (e : accStep (grid5.coords t) (blk c W 0 t) (blk c W 1 t) a = acc c W t.val) :
    owns (c : Thread nD τ) (st_5 t) fullShare (outStep (grid5.coords t) (blk c W 0 t) (blk c W 1 t) (blk c W 2 t) (blk c W 3 t)
        (blk c W 4 t) ((dat c W).before 5 t d) a) ⊢ ((dat c W).leavesExact 5 t : sProp 𝕄) := by
  unfold outStep
  by_cases h2 : k5_cond2 (grid5.coords t) = 1#1
  · have hi : cfg5.idle 5 (cfg5.grid.coords t) = false := by
      show (!(k5_cond2 (grid5.coords t) == 1#1)) = false
      rw [h2]; rfl
    unfold Dat.leavesExact; rw [hi, if_pos h2, e, after_5]
  · have hi : cfg5.idle 5 (cfg5.grid.coords t) = true := by
      show (!(k5_cond2 (grid5.coords t) == 1#1)) = true
      simp [h2]
    rw [(dat c W).leavesExact_idle 5 t hi (no_flush t fun h => h2 ((cond2_iff t).mpr h)), if_neg h2]
    iintro H; iexists d; iexact H

theorem sound_body (t : Fin cfg5.N) :
    bodyPre c W t ⊢ wp frame (wpE (defs₀ (F := F)) Variants.none c none) Set.univ (defs₀ .tc cfg5.body (cfg5.bodyArgs t (cfg5.slots t))) (fun _ => bodyPost c W t) := by
  unfold bodyPre bodyPost
  sl_whnfR [defs₀, Defs.onTc]
  simp only [before_in c W t]
  rw [Phi_castSucc, Phi_succ, after_0, after_1, after_2, after_3, after_4,
    show (dat c W).owesAt () t.succ = (dat c W).owesAt () t.castSucc from rfl]
  iintro ⟨HΦ, Ho, ⟨%d0, H0⟩, ⟨%d1, H1⟩, ⟨%d2, H2⟩, ⟨%d3, H3⟩, ⟨%d4, H4⟩, ⟨%d5, H5⟩⟩
  ihave HΦ' := (PhiS_open c W t) $$ HΦ
  icases HΦ' with ⟨%a, %ha, Ha, Hr⟩
  have e := acc_step c W t a ha
  iapply (sound_kernel c (grid5.coords t) _ _ _ _ _ _ _ _ _ _ _ _ scM (Memref.isWhole_whole _) (blk c W 0 t) (blk c W 1 t)
    (blk c W 2 t) (blk c W 3 t) (blk c W 4 t) ((dat c W).before 5 t d5) a _)
  iframe H0 H1 H2 H3 H4 H5 Ha
  iintro ⟨H0, H1, H2, H3, H4, H5, Ha⟩
  rw [e, PhiS_succ]
  iframe Ha Hr Ho H0 H1 H2 H3 H4
  iapply (out_leaves c W t d5 a e) $$ H5

theorem body_obligation : BodyObligation (dat (F := F) c W) (defs₀ (F := F)) Variants.none () Set.univ := fun t => by
  rw [bigSep_W5, bigSep_W5]
  exact sound_body c W t

theorem Phi_last : (dat c W).Φ (Fin.last cfg5.N)
    ⊢ (Pipeline.scopedRest (Ix := Unit) (Name := ℕ) (U := UR sig nD τ) (Lvl := ℕ) (Val := Elt F) spec5 c : sProp 𝕄) := by
  show PhiS c W (12499 + 1) ⊢ _
  rw [PhiS_succ, scopedRest5_split, owns_whole]
  iintro ⟨Ha, Hr⟩
  iframe Hr
  iexists _; iexact Ha

end Body

end Cert.KernelIdeal.R5

end
-- ==== Proof.KI.Chain.lean ====
import proofs.«430694_j29257317220564_2_alg».proof.Proof.KI.R0
import proofs.«430694_j29257317220564_2_alg».proof.Proof.KI.R1
import proofs.«430694_j29257317220564_2_alg».proof.Proof.KI.R2
import proofs.«430694_j29257317220564_2_alg».proof.Proof.KI.R3
import proofs.«430694_j29257317220564_2_alg».proof.Proof.KI.R4
import proofs.«430694_j29257317220564_2_alg».proof.Proof.KI.R5
import proofs.«430694_j29257317220564_2_alg».proof.Proof.Gen.KernelIdeal.Regions
import Idealize.ShloMosaic.Lib.Pipeline.Regions
import Idealize.ShloMosaic.Lib.Pipeline.RegionsLoop
import Idealize.ShloMosaic.Lib.Pipeline.FrameSuffix

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (R0.dat c (V1 m c)).arrAt w cfg0.N
abbrev V2 : (c : Dev nD) → (b : Ref sig .tc) → Buf (Elt F) ((c : Thread nD τ).loc b) := fun c b => W2 m c b
abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (R1.dat c (V3 m c)).arrAt w cfg1.N
abbrev V4 : (c : Dev nD) → (b : Ref sig .tc) → Buf (Elt F) ((c : Thread nD τ).loc b) := fun c b => W4 m c b
abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (R2.dat c (V5 m c)).arrAt w cfg2.N
abbrev V6 : (c : Dev nD) → (b : Ref sig .tc) → Buf (Elt F) ((c : Thread nD τ).loc b) := fun c b => W6 m c b
abbrev W7 : Dev nD → Valuation τ sig (Elt F) := fun c => StableHlo.after hostOps3 (W6 m c)
abbrev V7 : (c : Dev nD) → (b : Ref sig .tc) → Buf (Elt F) ((c : Thread nD τ).loc b) := fun c b => W7 m c b
def W8 (c : Dev nD) : Valuation τ sig (Elt F) :=
  Pipeline.withArrays spec3 c (W7 m c) fun w => (R3.dat c (V7 m c)).arrAt w cfg3.N
abbrev V8 : (c : Dev nD) → (b : Ref sig .tc) → Buf (Elt F) ((c : Thread nD τ).loc b) := fun c b => W8 m c b
abbrev W9 : Dev nD → Valuation τ sig (Elt F) := fun c => StableHlo.after hostOps4 (W8 m c)
abbrev V9 : (c : Dev nD) → (b : Ref sig .tc) → Buf (Elt F) ((c : Thread nD τ).loc b) := fun c b => W9 m c b
def W10 (c : Dev nD) : Valuation τ sig (Elt F) :=
  Pipeline.withArrays spec4 c (W9 m c) fun w => (R4.dat c (V9 m c)).arrAt w cfg4.N
abbrev V10 : (c : Dev nD) → (b : Ref sig .tc) → Buf (Elt F) ((c : Thread nD τ).loc b) := fun c b => W10 m c b
abbrev W11 : Dev nD → Valuation τ sig (Elt F) := fun c => StableHlo.after hostOps5 (W10 m c)
abbrev V11 : (c : Dev nD) → (b : Ref sig .tc) → Buf (Elt F) ((c : Thread nD τ).loc b) := fun c b => W11 m c b
def W12 (c : Dev nD) : Valuation τ sig (Elt F) :=
  Pipeline.withArrays spec5 c (W11 m c) fun w => (R5.dat c (V11 m c)).arrAt w cfg5.N
abbrev V12 : (c : Dev nD) → (b : Ref sig .tc) → Buf (Elt F) ((c : Thread nD τ).loc b) := fun c b => W12 m c b

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => R0.dat c (V1 m c)
  | ⟨1, _⟩ => fun c => R1.dat c (V3 m c)
  | ⟨2, _⟩ => fun c => R2.dat c (V5 m c)
  | ⟨3, _⟩ => fun c => R3.dat c (V7 m c)
  | ⟨4, _⟩ => fun c => R4.dat c (V9 m c)
  | ⟨5, _⟩ => fun c => R5.dat c (V11 m c)

abbrev L : GSem nD τ sig → Finset Unit := fun _ => ∅
abbrev lv : GSem nD τ sig → Unit → ℕ := fun _ _ => 0

abbrev R (c : Dev nD) : sProp 𝕄 := iprop(∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Asm

end
-- ==== Proof.KI.SegLib.lean ====
import proofs.«430694_j29257317220564_2_alg».proof.Proof.KI.Chain

noncomputable section

namespace Cert.KernelIdeal.Asm

open Cert.KernelIdeal Cert.KernelIdeal.Gen Idealize.ShloMosaic Idealize.ShloMosaic.TcCoe Idealize.SL Idealize.SL.RA Idealize.SL.BI Idealize.SL.BI.BIBase
open scoped Idealize.SL.BI

variable {F : FTy → Type} [FloatOps F] (m : (ℓ : Loc nD τ sig) → Buf (Elt F) ℓ)

/-- A region with no semaphore or table of its own that owes nothing takes the unscoped buffers from `Wi` to `Wo`, which differ at its arrays only. -/
def plainRegion {p : Fin 6} (lf : Pipeline.LaunchFacts (nD := nD) (τ := τ) cfgs p) (Wi Wo : Dev nD → Valuation τ sig (Elt F))
    (hbody : ∀ c, Pipeline.BodyObligationLoose (pdats m p c) defs₀ Variants.none () Set.univ)
    (howed : ∀ c t, (pdats m p c).owed t = 0) (hrec : ∀ c, (pdats m p c).recorded 0 = Set.univ)
    (hq : ∀ c w, (pdats m p c).q w = fullShare)
    (hA : ∀ c w, (pdats m p c).A w = Wi c (Pipeline.arrRef (cfgs p).spec w))
    (hΦ0 : ∀ c, Pipeline.scopedRest (cfgs p).spec c ⊢ (pdats m p c).Φ 0)
    (hΦN : ∀ c, (pdats m p c).Φ (Fin.last _) ⊢ Pipeline.scopedRest (cfgs p).spec c)
    (harr : ∀ c w, Wo c (Pipeline.arrRef (cfgs p).spec w) = (pdats m p c).arrAt w (cfgs p).N)
    (hne : ∀ c (b : Ref sig .tc), (∀ w, Pipeline.arrRef (cfgs p).spec w ≠ b) → Wo c b = Wi c b) :
    Pipeline.RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(emp)
  Y c := iprop(emp)
  Z c := Pipeline.unscopedRest (cfgs p).spec c fun b => Wi c b
  hentry c := by
    have hsplit := Pipeline.arrays_of_unscopedBufs (p := p) (pcfgs (F := F)) adm (pdats m) lf.win lf.arr_whole c
      ((pdats m p c).share_full (hq c)) (fun b => Wi c b) (hA c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c]
      icases HO with ⟨%W, HO⟩; iexists W; isplitr; · ipureintro; exact fun _ _ => Or.inl trivial
      iexact HO
    isplitr; · iempintro
    iexact Hrest
  hin c := by
    iintro ⟨-, -, Hr⟩
    iapply hΦ0 c; iexact Hr
  hout c := by
    rw [Pipeline.ownSems0_none]
    iintro H
    isplitr; · iempintro
    isplitr; · iempintro
    iapply hΦN c; iexact H
  hexit c := by
    rw [← Pipeline.unscopedBufs_held]
    iintro ⟨Ha, HO, -, Hrest⟩
    imodintro
    isplitl [Ha Hrest]
    · iapply Pipeline.unscopedBufs_of_arrays (p := p) (pcfgs (F := F)) adm lf.win lf.arr_whole c (pdats m)
        ((pdats m p c).share_full (hq c)) (fun b => Wi c b) _ _ (fun w => (harr c w).symm)
        fun b hb => hne c b fun w e => hb (Finset.mem_image.mpr ⟨w, Finset.mem_univ _, e⟩)
      isplitl [Ha] <;> iassumption
    unfold Pipeline.Dat.owesAt Pipeline.owesWithin
    rw [howed c]
    icases HO with ⟨%W, -, HO⟩; iexists W; iexact HO

end Cert.KernelIdeal.Asm

end
-- ==== Proof.KI.Seg0.lean ====
import proofs.«430694_j29257317220564_2_alg».proof.Proof.KI.SegLib

namespace Cert.KernelIdeal.Asm

open Cert.KernelIdeal Cert.KernelIdeal.Gen Idealize.ShloMosaic

variable {F : FTy → Type} [FloatOps F] (m : (ℓ : Loc nD τ sig) → Buf (Elt F) ℓ)

theorem W2_arr (c : Dev nD) (w : Fin cfg0.W) :
    W2 m c (Proc.devRef .tc (Pipeline.arrRef spec0 w)) = (R0.dat c (V1 m c)).arrAt w cfg0.N :=
  Pipeline.withArrays_arr spec0 launch0.win.arr_inj c _ _ w

theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb

noncomputable def reg0 : Pipeline.RegionSeg (pcfgs (F := F)) adm (pdats m) () defs₀ Variants.none L lv 0 :=
  plainRegion m launch0 (W1 m) (W2 m) (fun c => (R0.body_obligation c (V1 m c)).loose) (fun _ _ => rfl) (fun _ => rfl)
    (fun _ _ => rfl) (fun _ _ => rfl) (fun _ => .rfl) (fun c => R0.Phi_last c (V1 m c)) (W2_arr m) (W2_of_ne m)

end Cert.KernelIdeal.Asm
-- ==== Proof.KI.Seg1.lean ====
import proofs.«430694_j29257317220564_2_alg».proof.Proof.KI.SegLib

namespace Cert.KernelIdeal.Asm

open Cert.KernelIdeal Cert.KernelIdeal.Gen Idealize.ShloMosaic

variable {F : FTy → Type} [FloatOps F] (m : (ℓ : Loc nD τ sig) → Buf (Elt F) ℓ)

theorem W4_arr (c : Dev nD) (w : Fin cfg1.W) :
    W4 m c (Proc.devRef .tc (Pipeline.arrRef spec1 w)) = (R1.dat c (V3 m c)).arrAt w cfg1.N :=
  Pipeline.withArrays_arr spec1 launch1.win.arr_inj c _ _ w

theorem W4_of_ne (c : Dev nD) (b : Ref sig .tc) (hb : ∀ w, Pipeline.arrRef spec1 w ≠ b) :
    W4 m c (Proc.devRef .tc b) = W3 m c (Proc.devRef .tc b) :=
  Pipeline.withArrays_of_ne spec1 c _ _ b hb

noncomputable def reg1 : Pipeline.RegionSeg (pcfgs (F := F)) adm (pdats m) () defs₀ Variants.none L lv 1 :=
  plainRegion m launch1 (W3 m) (W4 m) (fun c => (R1.body_obligation c (V3 m c)).loose) (fun _ _ => rfl) (fun _ => rfl)
    (fun _ _ => rfl) (fun _ _ => rfl) (fun _ => .rfl) (fun c => R1.Phi_last c (V3 m c)) (W4_arr m) (W4_of_ne m)

end Cert.KernelIdeal.Asm
-- ==== Proof.KI.Seg2.lean ====
import proofs.«430694_j29257317220564_2_alg».proof.Proof.KI.SegLib

namespace Cert.KernelIdeal.Asm

open Cert.KernelIdeal Cert.KernelIdeal.Gen Idealize.ShloMosaic

variable {F : FTy → Type} [FloatOps F] (m : (ℓ : Loc nD τ sig) → Buf (Elt F) ℓ)

theorem W6_arr (c : Dev nD) (w : Fin cfg2.W) :
    W6 m c (Proc.devRef .tc (Pipeline.arrRef spec2 w)) = (R2.dat c (V5 m c)).arrAt w cfg2.N :=
  Pipeline.withArrays_arr spec2 launch2.win.arr_inj c _ _ w

theorem W6_of_ne (c : Dev nD) (b : Ref sig .tc) (hb : ∀ w, Pipeline.arrRef spec2 w ≠ b) :
    W6 m c (Proc.devRef .tc b) = W5 m c (Proc.devRef .tc b) :=
  Pipeline.withArrays_of_ne spec2 c _ _ b hb

noncomputable def reg2 : Pipeline.RegionSeg (pcfgs (F := F)) adm (pdats m) () defs₀ Variants.none L lv 2 :=
  plainRegion m launch2 (W5 m) (W6 m) (fun c => (R2.body_obligation c (V5 m c)).loose) (fun _ _ => rfl) (fun _ => rfl)
    (fun _ _ => rfl) (fun _ _ => rfl) (fun _ => .rfl) (fun c => R2.Phi_last c (V5 m c)) (W6_arr m) (W6_of_ne m)

end Cert.KernelIdeal.Asm
-- ==== Proof.KI.Seg3.lean ====
import proofs.«430694_j29257317220564_2_alg».proof.Proof.KI.SegLib

namespace Cert.KernelIdeal.Asm

open Cert.KernelIdeal Cert.KernelIdeal.Gen Idealize.ShloMosaic

variable {F : FTy → Type} [FloatOps F] (m : (ℓ : Loc nD τ sig) → Buf (Elt F) ℓ)

theorem W8_arr (c : Dev nD) (w : Fin cfg3.W) :
    W8 m c (Proc.devRef .tc (Pipeline.arrRef spec3 w)) = (R3.dat c (V7 m c)).arrAt w cfg3.N :=
  Pipeline.withArrays_arr spec3 launch3.win.arr_inj c _ _ w

theorem W8_of_ne (c : Dev nD) (b : Ref sig .tc) (hb : ∀ w, Pipeline.arrRef spec3 w ≠ b) :
    W8 m c (Proc.devRef .tc b) = W7 m c (Proc.devRef .tc b) :=
  Pipeline.withArrays_of_ne spec3 c _ _ b hb

noncomputable def reg3 : Pipeline.RegionSeg (pcfgs (F := F)) adm (pdats m) () defs₀ Variants.none L lv 3 :=
  plainRegion m launch3 (W7 m) (W8 m) (fun c => (R3.body_obligation c (V7 m c)).loose) (fun _ _ => rfl) (fun _ => rfl)
    (fun _ _ => rfl) (fun _ _ => rfl) (fun _ => .rfl) (fun c => R3.Phi_last c (V7 m c)) (W8_arr m) (W8_of_ne m)

end Cert.KernelIdeal.Asm
-- ==== Proof.KI.Seg4.lean ====
import proofs.«430694_j29257317220564_2_alg».proof.Proof.KI.SegLib

namespace Cert.KernelIdeal.Asm

open Cert.KernelIdeal Cert.KernelIdeal.Gen Idealize.ShloMosaic

variable {F : FTy → Type} [FloatOps F] (m : (ℓ : Loc nD τ sig) → Buf (Elt F) ℓ)

theorem W10_arr (c : Dev nD) (w : Fin cfg4.W) :
    W10 m c (Proc.devRef .tc (Pipeline.arrRef spec4 w)) = (R4.dat c (V9 m c)).arrAt w cfg4.N :=
  Pipeline.withArrays_arr spec4 launch4.win.arr_inj c _ _ w

theorem W10_of_ne (c : Dev nD) (b : Ref sig .tc) (hb : ∀ w, Pipeline.arrRef spec4 w ≠ b) :
    W10 m c (Proc.devRef .tc b) = W9 m c (Proc.devRef .tc b) :=
  Pipeline.withArrays_of_ne spec4 c _ _ b hb

noncomputable def reg4 : Pipeline.RegionSeg (pcfgs (F := F)) adm (pdats m) () defs₀ Variants.none L lv 4 :=
  plainRegion m launch4 (W9 m) (W10 m) (fun c => (R4.body_obligation c (V9 m c)).loose) (fun _ _ => rfl) (fun _ => rfl)
    (fun _ _ => rfl) (fun _ _ => rfl) (fun _ => .rfl) (fun c => R4.Phi_last c (V9 m c)) (W10_arr m) (W10_of_ne m)

end Cert.KernelIdeal.Asm
-- ==== Proof.KI.Seg5.lean ====
import proofs.«430694_j29257317220564_2_alg».proof.Proof.KI.SegLib

namespace Cert.KernelIdeal.Asm

open Cert.KernelIdeal Cert.KernelIdeal.Gen Idealize.ShloMosaic

variable {F : FTy → Type} [FloatOps F] (m : (ℓ : Loc nD τ sig) → Buf (Elt F) ℓ)

theorem W12_arr (c : Dev nD) (w : Fin cfg5.W) :
    W12 m c (Proc.devRef .tc (Pipeline.arrRef spec5 w)) = (R5.dat c (V11 m c)).arrAt w cfg5.N :=
  Pipeline.withArrays_arr spec5 launch5.win.arr_inj c _ _ w

theorem W12_of_ne (c : Dev nD) (b : Ref sig .tc) (hb : ∀ w, Pipeline.arrRef spec5 w ≠ b) :
    W12 m c (Proc.devRef .tc b) = W11 m c (Proc.devRef .tc b) :=
  Pipeline.withArrays_of_ne spec5 c _ _ b hb

noncomputable def reg5 : Pipeline.RegionSeg (pcfgs (F := F)) adm (pdats m) () defs₀ Variants.none L lv 5 :=
  plainRegion m launch5 (W11 m) (W12 m) (fun c => (R5.body_obligation c (V11 m c)).loose) (fun _ _ => rfl) (fun _ => rfl)
    (fun _ _ => rfl) (fun _ _ => rfl) (fun _ => .rfl) (fun c => R5.Phi_last c (V11 m c)) (W12_arr m) (W12_of_ne m)

end Cert.KernelIdeal.Asm
-- ==== Proof.KI.Run.lean ====
import proofs.«430694_j29257317220564_2_alg».proof.Proof.KI.Seg0
import proofs.«430694_j29257317220564_2_alg».proof.Proof.KI.Seg1
import proofs.«430694_j29257317220564_2_alg».proof.Proof.KI.Seg2
import proofs.«430694_j29257317220564_2_alg».proof.Proof.KI.Seg3
import proofs.«430694_j29257317220564_2_alg».proof.Proof.KI.Seg4
import proofs.«430694_j29257317220564_2_alg».proof.Proof.KI.Seg5

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

theorem W12_of_untouched (c : Dev nD) (r : Ref sig .tc)
    (h0 : r ∉ hostOps0_W) (h1 : r ∉ hostOps1_W) (h2 : r ∉ hostOps2_W) (h3 : r ∉ hostOps3_W) (h4 : r ∉ hostOps4_W) (h5 : r ∉ hostOps5_W)
    (a0 : ∀ w, Pipeline.arrRef spec0 w ≠ r) (a1 : ∀ w, Pipeline.arrRef spec1 w ≠ r) (a2 : ∀ w, Pipeline.arrRef spec2 w ≠ r)
    (a3 : ∀ w, Pipeline.arrRef spec3 w ≠ r) (a4 : ∀ w, Pipeline.arrRef spec4 w ≠ r) (a5 : ∀ w, Pipeline.arrRef spec5 w ≠ r) :
    W12 m c (Proc.devRef .tc r) = m ((c : Thread nD τ).loc r) :=
  calc W12 m c (Proc.devRef .tc r)
    _ = W11 m c (Proc.devRef .tc r) := W12_of_ne m c r a5
    _ = W10 m c (Proc.devRef .tc r) := StableHlo.after_of_writes_sub hostOps5 _ hostOps5_writes h5
    _ = W9 m c (Proc.devRef .tc r) := W10_of_ne m c r a4
    _ = W8 m c (Proc.devRef .tc r) := StableHlo.after_of_writes_sub hostOps4 _ hostOps4_writes h4
    _ = W7 m c (Proc.devRef .tc r) := W8_of_ne m c r a3
    _ = W6 m c (Proc.devRef .tc r) := StableHlo.after_of_writes_sub hostOps3 _ hostOps3_writes h3
    _ = W5 m c (Proc.devRef .tc r) := W6_of_ne m c r a2
    _ = W4 m c (Proc.devRef .tc r) := StableHlo.after_of_writes_sub hostOps2 _ hostOps2_writes h2
    _ = W3 m c (Proc.devRef .tc r) := W4_of_ne m c r a1
    _ = W2 m c (Proc.devRef .tc r) := StableHlo.after_of_writes_sub hostOps1 _ hostOps1_writes h1
    _ = W1 m c (Proc.devRef .tc r) := W2_of_ne m c r a0
    _ = W0 m c (Proc.devRef .tc r) := StableHlo.after_of_writes_sub hostOps0 _ hostOps0_writes h0
    _ = m ((c : Thread nD τ).loc r) := rfl

theorem W12_main_arg0 (c : Dev nD) : W12 m c (Proc.devRef .tc main_arg0) = m ((c : Thread nD τ).loc main_arg0) :=
  calc W12 m c (Proc.devRef .tc main_arg0)
    _ = W11 m c (Proc.devRef .tc main_arg0) := W12_of_ne m c main_arg0 (by decide)
    _ = W10 m c (Proc.devRef .tc main_arg0) := StableHlo.after_of_writes_sub hostOps5 _ hostOps5_writes (by decide)
    _ = W9 m c (Proc.devRef .tc main_arg0) := W10_of_ne m c main_arg0 (by decide)
    _ = W8 m c (Proc.devRef .tc main_arg0) := StableHlo.after_of_writes_sub hostOps4 _ hostOps4_writes (by decide)
    _ = W7 m c (Proc.devRef .tc main_arg0) := W8_of_ne m c main_arg0 (by decide)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := (W4_arr m c 2).trans (((R1.dat c (V3 m c)).arrAt_in 2 rfl _).trans (R1.A_eq c (V3 m c) 2))
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W12_args (c : Dev nD) : ∀ r ∈ [main_arg1, main_arg2, main_arg3, main_arg4, main_arg5, main_arg6, main_arg7, main_arg8],
    W12 m c (Proc.devRef .tc r) = m ((c : Thread nD τ).loc r) := by
  intro r hr
  simp only [List.mem_cons, List.mem_nil_iff, or_false] at hr
  rcases hr with rfl | rfl | rfl | rfl | rfl | rfl | rfl | rfl <;>
    exact W12_of_untouched m c _ (by decide) (by decide) (by decide) (by decide) (by decide) (by decide)
      (by decide) (by decide) (by decide) (by decide) (by decide) (by decide)

abbrev segs : List (Pipeline.Seg (pcfgs (F := F)) adm (pdats m) () defs₀ Variants.none L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m) ]

theorem main_run (c : Dev nD) : main (F := F) c = Pipeline.Seg.run (segs m) := (main_chain c).trans (by chain_rfl)

abbrev Tₙ (c : Dev nD) : sProp 𝕄 := StableHlo.held (c : Thread nD τ) (Pipeline.ucRefs τ sig) (W12 m c)

set_option backward.isDefEq.respectTransparency.types false in
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = W12 m c b)
    (hfin := fun c s' => by
      unfold Tₙ StableHlo.held
      iintro ⟨Hh, HSI⟩
      imodintro
      iapply (pointsTo_read_all (Pipeline.ucRefs τ sig) (fun b => (((c : Thread nD τ)).1, b)) (W12 m c) s')
      isplitl [Hh] <;> iassumption)
    (hQ := fun _ h => h)

theorem run_result (ρ : Dev nD → PrngReg) :
    θ_run defs (onTc (τ := τ) (main (F := F))) ⟨m, fun _ => 0, ρ⟩ (fun r => ∀ c : Dev nD,
      r.2.mem ((c.tc : Thread nD τ).loc main_v16) = (R5.dat c (V11 m c)).arrAt 5 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v16 (by decide))).trans (W12_arr m c 5),
     (h c _ (mem_uc main_arg0 (by decide))).trans (W12_main_arg0 m c),
     (h c _ (mem_uc main_arg1 (by decide))).trans (W12_args m c _ (by decide)),
     (h c _ (mem_uc main_arg2 (by decide))).trans (W12_args m c _ (by decide)),
     (h c _ (mem_uc main_arg3 (by decide))).trans (W12_args m c _ (by decide)),
     (h c _ (mem_uc main_arg4 (by decide))).trans (W12_args m c _ (by decide)),
     (h c _ (mem_uc main_arg5 (by decide))).trans (W12_args m c _ (by decide)),
     (h c _ (mem_uc main_arg6 (by decide))).trans (W12_args m c _ (by decide)),
     (h c _ (mem_uc main_arg7 (by decide))).trans (W12_args m c _ (by decide)),
     (h c _ (mem_uc main_arg8 (by decide))).trans (W12_args m c _ (by decide))⟩) (run_all m ρ)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.KernelIdeal.Asm

end
-- ==== Proof.KI.NetStages.lean ====
import proofs.«430694_j29257317220564_2_alg».proof.Proof.KI.Seg0
import proofs.«430694_j29257317220564_2_alg».proof.Proof.KI.Seg1
import proofs.«430694_j29257317220564_2_alg».proof.Proof.KI.Seg2
import proofs.«430694_j29257317220564_2_alg».proof.Proof.KI.Seg3
import proofs.«430694_j29257317220564_2_alg».proof.Proof.KI.Seg4
import proofs.«430694_j29257317220564_2_alg».proof.Proof.KI.Seg5
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Net

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

abbrev xA : S50000x128.Idx → EReal := m ((c.tc : Thread nD τ).loc main_arg0)
abbrev w1A : S128x128.Idx → EReal := m ((c.tc : Thread nD τ).loc main_arg1)
abbrev b1A : S128.Idx → EReal := m ((c.tc : Thread nD τ).loc main_arg2)
abbrev w2A : S128x128.Idx → EReal := m ((c.tc : Thread nD τ).loc main_arg3)
abbrev b2A : S128.Idx → EReal := m ((c.tc : Thread nD τ).loc main_arg4)
abbrev w3A : S64x128.Idx → EReal := m ((c.tc : Thread nD τ).loc main_arg5)
abbrev b3A : S64.Idx → EReal := m ((c.tc : Thread nD τ).loc main_arg6)
abbrev srcA : S800000.Idx → BitVec 32 := m ((c.tc : Thread nD τ).loc main_arg7)
abbrev dstA : S800000.Idx → BitVec 32 := m ((c.tc : Thread nD τ).loc main_arg8)

theorem host0_keep {r : Ref sig .tc} (h : r ∉ hostOps0_W) :
    Asm.W1 m c (Proc.devRef .tc r) = Asm.W0 m c (Proc.devRef .tc r) :=
  StableHlo.after_of_writes_sub hostOps0 _ hostOps0_writes h
theorem host1_keep {r : Ref sig .tc} (h : r ∉ hostOps1_W) :
    Asm.W3 m c (Proc.devRef .tc r) = Asm.W2 m c (Proc.devRef .tc r) :=
  StableHlo.after_of_writes_sub hostOps1 _ hostOps1_writes h
theorem host2_keep {r : Ref sig .tc} (h : r ∉ hostOps2_W) :
    Asm.W5 m c (Proc.devRef .tc r) = Asm.W4 m c (Proc.devRef .tc r) :=
  StableHlo.after_of_writes_sub hostOps2 _ hostOps2_writes h
theorem host3_keep {r : Ref sig .tc} (h : r ∉ hostOps3_W) :
    Asm.W7 m c (Proc.devRef .tc r) = Asm.W6 m c (Proc.devRef .tc r) :=
  StableHlo.after_of_writes_sub hostOps3 _ hostOps3_writes h
theorem host4_keep {r : Ref sig .tc} (h : r ∉ hostOps4_W) :
    Asm.W9 m c (Proc.devRef .tc r) = Asm.W8 m c (Proc.devRef .tc r) :=
  StableHlo.after_of_writes_sub hostOps4 _ hostOps4_writes h
theorem host5_keep {r : Ref sig .tc} (h : r ∉ hostOps5_W) :
    Asm.W11 m c (Proc.devRef .tc r) = Asm.W10 m c (Proc.devRef .tc r) :=
  StableHlo.after_of_writes_sub hostOps5 _ hostOps5_writes h
theorem reg0_keep {r : Ref sig .tc} (h : ∀ w, Pipeline.arrRef spec0 w ≠ r) :
    Asm.W2 m c (Proc.devRef .tc r) = Asm.W1 m c (Proc.devRef .tc r) :=
  Asm.W2_of_ne m c r h
theorem reg0_in (w : Fin cfg0.W) (hw : (cfg0.win w).isOut = false) :
    Asm.W2 m c (Proc.devRef .tc (Pipeline.arrRef spec0 w)) = Asm.W1 m c (Proc.devRef .tc (Pipeline.arrRef spec0 w)) :=
  (Asm.W2_arr m c w).trans (((R0.dat c (Asm.V1 m c)).arrAt_in w hw _).trans (R0.A_eq c (Asm.V1 m c) w))
theorem reg1_keep {r : Ref sig .tc} (h : ∀ w, Pipeline.arrRef spec1 w ≠ r) :
    Asm.W4 m c (Proc.devRef .tc r) = Asm.W3 m c (Proc.devRef .tc r) :=
  Asm.W4_of_ne m c r h
theorem reg1_in (w : Fin cfg1.W) (hw : (cfg1.win w).isOut = false) :
    Asm.W4 m c (Proc.devRef .tc (Pipeline.arrRef spec1 w)) = Asm.W3 m c (Proc.devRef .tc (Pipeline.arrRef spec1 w)) :=
  (Asm.W4_arr m c w).trans (((R1.dat c (Asm.V3 m c)).arrAt_in w hw _).trans (R1.A_eq c (Asm.V3 m c) w))
theorem reg2_keep {r : Ref sig .tc} (h : ∀ w, Pipeline.arrRef spec2 w ≠ r) :
    Asm.W6 m c (Proc.devRef .tc r) = Asm.W5 m c (Proc.devRef .tc r) :=
  Asm.W6_of_ne m c r h
theorem reg2_in (w : Fin cfg2.W) (hw : (cfg2.win w).isOut = false) :
    Asm.W6 m c (Proc.devRef .tc (Pipeline.arrRef spec2 w)) = Asm.W5 m c (Proc.devRef .tc (Pipeline.arrRef spec2 w)) :=
  (Asm.W6_arr m c w).trans (((R2.dat c (Asm.V5 m c)).arrAt_in w hw _).trans (R2.A_eq c (Asm.V5 m c) w))
theorem reg3_keep {r : Ref sig .tc} (h : ∀ w, Pipeline.arrRef spec3 w ≠ r) :
    Asm.W8 m c (Proc.devRef .tc r) = Asm.W7 m c (Proc.devRef .tc r) :=
  Asm.W8_of_ne m c r h
theorem reg3_in (w : Fin cfg3.W) (hw : (cfg3.win w).isOut = false) :
    Asm.W8 m c (Proc.devRef .tc (Pipeline.arrRef spec3 w)) = Asm.W7 m c (Proc.devRef .tc (Pipeline.arrRef spec3 w)) :=
  (Asm.W8_arr m c w).trans (((R3.dat c (Asm.V7 m c)).arrAt_in w hw _).trans (R3.A_eq c (Asm.V7 m c) w))
theorem reg4_keep {r : Ref sig .tc} (h : ∀ w, Pipeline.arrRef spec4 w ≠ r) :
    Asm.W10 m c (Proc.devRef .tc r) = Asm.W9 m c (Proc.devRef .tc r) :=
  Asm.W10_of_ne m c r h

theorem W1_v0 (e : Fin 800000) :
    (Asm.W1 m c (Proc.devRef .tc main_v0) : S1x800000.Idx → BitVec 32) (ix2 (0 : Fin 1) e) = srcA m c (ix1 e) := by
  have h : (Asm.W1 m c (Proc.devRef .tc main_v0) : S1x800000.Idx → BitVec 32)
      = shapeCast S1x800000 (srcA m c) shapeCasts_S800000_S1x800000 := by
    dsimp only [Asm.W1, hostOps0]; after_results <;> rfl
  rw [h]; exact shapeCast_a_1a_apply _ _ 0 e

theorem W1_v1 (e : Fin 800000) :
    (Asm.W1 m c (Proc.devRef .tc main_v1) : S1x800000.Idx → BitVec 32) (ix2 (0 : Fin 1) e) = dstA m c (ix1 e) := by
  have h : (Asm.W1 m c (Proc.devRef .tc main_v1) : S1x800000.Idx → BitVec 32)
      = shapeCast S1x800000 (dstA m c) shapeCasts_S800000_S1x800000 := by
    dsimp only [Asm.W1, hostOps0]; after_results <;> rfl
  rw [h]; exact shapeCast_a_1a_apply _ _ 0 e

theorem W1_v2 : (Asm.W1 m c (Proc.devRef .tc main_v2) : S50000x128.Idx → EReal) = xA m c := by
  dsimp only [Asm.W1, hostOps0]; after_results <;> rfl

theorem W3_v1 (e : Fin 800000) :
    (Asm.W3 m c (Proc.devRef .tc main_v1) : S1x800000.Idx → BitVec 32) (ix2 (0 : Fin 1) e) = dstA m c (ix1 e) := by
  rw [show Asm.W3 m c (Proc.devRef .tc main_v1) = Asm.W1 m c (Proc.devRef .tc main_v1) from
    (host1_keep m c (by decide)).trans (reg0_keep m c (by decide))]
  exact W1_v1 m c e

theorem W3_v3 : (Asm.W3 m c (Proc.devRef .tc main_v3) : S800000x128.Idx → EReal)
    = (Asm.W2 m c (Proc.devRef .tc main_v3) : S800000x128.Idx → EReal) :=
  host1_keep m c (by decide)

theorem W3_arg0 : (Asm.W3 m c (Proc.devRef .tc main_arg0) : S50000x128.Idx → EReal) = xA m c :=
  (host1_keep m c (by decide)).trans ((reg0_keep m c (by decide)).trans (host0_keep m c (by decide)))

theorem W3_v4 (k : Fin 128) (o : Fin 128) :
    (Asm.W3 m c (Proc.devRef .tc main_v4) : S128x128.Idx → EReal) (ix2 k o) = w1A m c (ix2 o k) := by
  have h : (Asm.W3 m c (Proc.devRef .tc main_v4) : S128x128.Idx → EReal)
      = transpose S128x128 [1, 0] (Asm.W2 m c (Proc.devRef .tc main_arg1) : S128x128.Idx → EReal) transposes_S128x128_S128x128_1_0 := by
    dsimp only [Asm.W3, hostOps1]; after_results <;> rfl
  rw [h, show (Asm.W2 m c (Proc.devRef .tc main_arg1) : S128x128.Idx → EReal) = w1A m c from
    (reg0_keep m c (by decide)).trans (host0_keep m c (by decide))]
  exact transpose_ix2_apply _ _ k o

theorem W3_v5 (o : Fin 128) :
    (Asm.W3 m c (Proc.devRef .tc main_v5) : S1x128.Idx → EReal) (ix2 (0 : Fin 1) o) = b1A m c (ix1 o) := by
  have h : (Asm.W3 m c (Proc.devRef .tc main_v5) : S1x128.Idx → EReal)
      = shapeCast S1x128 (Asm.W2 m c (Proc.devRef .tc main_arg2) : S128.Idx → EReal) shapeCasts_S128_S1x128 := by
    dsimp only [Asm.W3, hostOps1]; after_results <;> rfl
  rw [h, show (Asm.W2 m c (Proc.devRef .tc main_arg2) : S128.Idx → EReal) = b1A m c from
    (reg0_keep m c (by decide)).trans (host0_keep m c (by decide))]
  exact shapeCast_a_1a_apply _ _ 0 o

theorem W5_v0 (e : Fin 800000) :
    (Asm.W5 m c (Proc.devRef .tc main_v0) : S1x800000.Idx → BitVec 32) (ix2 (0 : Fin 1) e) = srcA m c (ix1 e) := by
  rw [show Asm.W5 m c (Proc.devRef .tc main_v0) = Asm.W1 m c (Proc.devRef .tc main_v0) from
    (host2_keep m c (by decide)).trans ((reg1_keep m c (by decide)).trans ((host1_keep m c (by decide)).trans (reg0_in m c 0 rfl)))]
  exact W1_v0 m c e

theorem W5_v7 : (Asm.W5 m c (Proc.devRef .tc main_v7) : S50000x128.Idx → EReal)
    = (Asm.W4 m c (Proc.devRef .tc main_v6) : S50000x128.Idx → EReal) := by
  dsimp only [Asm.W5, hostOps2]; after_results <;> rfl

theorem W7_v1 (e : Fin 800000) :
    (Asm.W7 m c (Proc.devRef .tc main_v1) : S1x800000.Idx → BitVec 32) (ix2 (0 : Fin 1) e) = dstA m c (ix1 e) := by
  rw [show Asm.W7 m c (Proc.devRef .tc main_v1) = Asm.W3 m c (Proc.devRef .tc main_v1) from
    (host3_keep m c (by decide)).trans ((reg2_keep m c (by decide)).trans ((host2_keep m c (by decide)).trans (reg1_in m c 0 rfl)))]
  exact W3_v1 m c e

theorem W7_v8 : (Asm.W7 m c (Proc.devRef .tc main_v8) : S800000x128.Idx → EReal)
    = (Asm.W6 m c (Proc.devRef .tc main_v8) : S800000x128.Idx → EReal) :=
  host3_keep m c (by decide)

theorem W7_v6 : (Asm.W7 m c (Proc.devRef .tc main_v6) : S50000x128.Idx → EReal)
    = (Asm.W4 m c (Proc.devRef .tc main_v6) : S50000x128.Idx → EReal) :=
  (host3_keep m c (by decide)).trans ((reg2_keep m c (by decide)).trans (host2_keep m c (by decide)))

theorem W6_of_untouched {r : Ref sig .tc} (h0 : r ∉ hostOps0_W) (h1 : r ∉ hostOps1_W) (h2 : r ∉ hostOps2_W)
    (a0 : ∀ w, Pipeline.arrRef spec0 w ≠ r) (a1 : ∀ w, Pipeline.arrRef spec1 w ≠ r) (a2 : ∀ w, Pipeline.arrRef spec2 w ≠ r) :
    Asm.W6 m c (Proc.devRef .tc r) = m ((c.tc : Thread nD τ).loc r) :=
  (reg2_keep m c a2).trans ((host2_keep m c h2).trans ((reg1_keep m c a1).trans ((host1_keep m c h1).trans
    ((reg0_keep m c a0).trans (host0_keep m c h0)))))

theorem W7_v9 (k : Fin 128) (o : Fin 128) :
    (Asm.W7 m c (Proc.devRef .tc main_v9) : S128x128.Idx → EReal) (ix2 k o) = w2A m c (ix2 o k) := by
  have h : (Asm.W7 m c (Proc.devRef .tc main_v9) : S128x128.Idx → EReal)
      = transpose S128x128 [1, 0] (Asm.W6 m c (Proc.devRef .tc main_arg3) : S128x128.Idx → EReal) transposes_S128x128_S128x128_1_0 := by
    dsimp only [Asm.W7, hostOps3]; after_results <;> rfl
  rw [h, show (Asm.W6 m c (Proc.devRef .tc main_arg3) : S128x128.Idx → EReal) = w2A m c from
    W6_of_untouched m c (by decide) (by decide) (by decide) (by decide) (by decide) (by decide)]
  exact transpose_ix2_apply _ _ k o

theorem W7_v10 (o : Fin 128) :
    (Asm.W7 m c (Proc.devRef .tc main_v10) : S1x128.Idx → EReal) (ix2 (0 : Fin 1) o) = b2A m c (ix1 o) := by
  have h : (Asm.W7 m c (Proc.devRef .tc main_v10) : S1x128.Idx → EReal)
      = shapeCast S1x128 (Asm.W6 m c (Proc.devRef .tc main_arg4) : S128.Idx → EReal) shapeCasts_S128_S1x128 := by
    dsimp only [Asm.W7, hostOps3]; after_results <;> rfl
  rw [h, show (Asm.W6 m c (Proc.devRef .tc main_arg4) : S128.Idx → EReal) = b2A m c from
    W6_of_untouched m c (by decide) (by decide) (by decide) (by decide) (by decide) (by decide)]
  exact shapeCast_a_1a_apply _ _ 0 o

theorem W9_v0 (e : Fin 800000) :
    (Asm.W9 m c (Proc.devRef .tc main_v0) : S1x800000.Idx → BitVec 32) (ix2 (0 : Fin 1) e) = srcA m c (ix1 e) := by
  rw [show Asm.W9 m c (Proc.devRef .tc main_v0) = Asm.W5 m c (Proc.devRef .tc main_v0) from
    (host4_keep m c (by decide)).trans ((reg3_keep m c (by decide)).trans ((host3_keep m c (by decide)).trans (reg2_in m c 0 rfl)))]
  exact W5_v0 m c e

theorem W9_v12 : (Asm.W9 m c (Proc.devRef .tc main_v12) : S50000x128.Idx → EReal)
    = (Asm.W8 m c (Proc.devRef .tc main_v11) : S50000x128.Idx → EReal) := by
  dsimp only [Asm.W9, hostOps4]; after_results <;> rfl

theorem W11_v1 (e : Fin 800000) :
    (Asm.W11 m c (Proc.devRef .tc main_v1) : S1x800000.Idx → BitVec 32) (ix2 (0 : Fin 1) e) = dstA m c (ix1 e) := by
  rw [show Asm.W11 m c (Proc.devRef .tc main_v1) = Asm.W7 m c (Proc.devRef .tc main_v1) from
    (host5_keep m c (by decide)).trans ((reg4_keep m c (by decide)).trans ((host4_keep m c (by decide)).trans (reg3_in m c 0 rfl)))]
  exact W7_v1 m c e

theorem W11_v13 : (Asm.W11 m c (Proc.devRef .tc main_v13) : S800000x128.Idx → EReal)
    = (Asm.W10 m c (Proc.devRef .tc main_v13) : S800000x128.Idx → EReal) :=
  host5_keep m c (by decide)

theorem W11_v11 : (Asm.W11 m c (Proc.devRef .tc main_v11) : S50000x128.Idx → EReal)
    = (Asm.W8 m c (Proc.devRef .tc main_v11) : S50000x128.Idx → EReal) :=
  (host5_keep m c (by decide)).trans ((reg4_keep m c (by decide)).trans (host4_keep m c (by decide)))

theorem W10_of_untouched {r : Ref sig .tc} (h0 : r ∉ hostOps0_W) (h1 : r ∉ hostOps1_W) (h2 : r ∉ hostOps2_W)
    (h3 : r ∉ hostOps3_W) (h4 : r ∉ hostOps4_W)
    (a0 : ∀ w, Pipeline.arrRef spec0 w ≠ r) (a1 : ∀ w, Pipeline.arrRef spec1 w ≠ r) (a2 : ∀ w, Pipeline.arrRef spec2 w ≠ r)
    (a3 : ∀ w, Pipeline.arrRef spec3 w ≠ r) (a4 : ∀ w, Pipeline.arrRef spec4 w ≠ r) :
    Asm.W10 m c (Proc.devRef .tc r) = m ((c.tc : Thread nD τ).loc r) :=
  (reg4_keep m c a4).trans ((host4_keep m c h4).trans ((reg3_keep m c a3).trans ((host3_keep m c h3).trans
    (W6_of_untouched m c h0 h1 h2 a0 a1 a2))))

theorem W11_v14 (k : Fin 128) (o : Fin 64) :
    (Asm.W11 m c (Proc.devRef .tc main_v14) : S128x64.Idx → EReal) (ix2 k o) = w3A m c (ix2 o k) := by
  have h : (Asm.W11 m c (Proc.devRef .tc main_v14) : S128x64.Idx → EReal)
      = transpose S128x64 [1, 0] (Asm.W10 m c (Proc.devRef .tc main_arg5) : S64x128.Idx → EReal) transposes_S64x128_S128x64_1_0 := by
    dsimp only [Asm.W11, hostOps5]; after_results <;> rfl
  rw [h, show (Asm.W10 m c (Proc.devRef .tc main_arg5) : S64x128.Idx → EReal) = w3A m c from
    W10_of_untouched m c (by decide) (by decide) (by decide) (by decide) (by decide) (by decide) (by decide) (by decide) (by decide) (by decide)]
  exact transpose_ix2_apply _ _ k o

theorem W11_v15 (o : Fin 64) :
    (Asm.W11 m c (Proc.devRef .tc main_v15) : S1x64.Idx → EReal) (ix2 (0 : Fin 1) o) = b3A m c (ix1 o) := by
  have h : (Asm.W11 m c (Proc.devRef .tc main_v15) : S1x64.Idx → EReal)
      = shapeCast S1x64 (Asm.W10 m c (Proc.devRef .tc main_arg6) : S64.Idx → EReal) shapeCasts_S64_S1x64 := by
    dsimp only [Asm.W11, hostOps5]; after_results <;> rfl
  rw [h, show (Asm.W10 m c (Proc.devRef .tc main_arg6) : S64.Idx → EReal) = b3A m c from
    W10_of_untouched m c (by decide) (by decide) (by decide) (by decide) (by decide) (by decide) (by decide) (by decide) (by decide) (by decide)]
  exact shapeCast_a_1a_apply _ _ 0 o

theorem W2_out : (Asm.W2 m c (Proc.devRef .tc main_v3) : S800000x128.Idx → EReal) = (R0.dat c (Asm.V1 m c)).arrAt 2 cfg0.N := Asm.W2_arr m c 2
theorem W4_out : (Asm.W4 m c (Proc.devRef .tc main_v6) : S50000x128.Idx → EReal) = (R1.dat c (Asm.V3 m c)).arrAt 5 cfg1.N := Asm.W4_arr m c 5
theorem W6_out : (Asm.W6 m c (Proc.devRef .tc main_v8) : S800000x128.Idx → EReal) = (R2.dat c (Asm.V5 m c)).arrAt 2 cfg2.N := Asm.W6_arr m c 2
theorem W8_out : (Asm.W8 m c (Proc.devRef .tc main_v11) : S50000x128.Idx → EReal) = (R3.dat c (Asm.V7 m c)).arrAt 5 cfg3.N := Asm.W8_arr m c 5
theorem W10_out : (Asm.W10 m c (Proc.devRef .tc main_v13) : S800000x128.Idx → EReal) = (R4.dat c (Asm.V9 m c)).arrAt 2 cfg4.N := Asm.W10_arr m c 2

end Cert.KernelIdeal.Net

end
-- ==== Proof.KI.ValueBits.lean ====
import Idealize.ShloMosaic.Lib.StackMember
import Idealize.ShloMosaic.Lib.ValueLayout

noncomputable section

open scoped BigOperators

namespace Cert.KernelIdeal.ValueBits

open Idealize.ShloMosaic Idealize.ShloMosaic.ValueIdx

theorem matmul_plain_apply {m k n : Nat} {φ₁ φ₂ : FTy} (d : DotDims ⟨2, ![m, k]⟩ ⟨2, ![k, n]⟩ ⟨2, ![m, n]⟩)
    (hd : d = DotDims.plain m k n) (prec : Option ContractPrecision) (A : FVec Ideal ⟨2, ![m, k]⟩ φ₁)
    (B : FVec Ideal ⟨2, ![k, n]⟩ φ₂) (acc : FVec Ideal ⟨2, ![m, n]⟩ .f32) (a : Fin m) (b : Fin n) :
    matmul d prec A B acc (ix2 a b) = acc (ix2 a b) + ∑ c : Fin k, A (ix2 a c) * B (ix2 c b) := by
  subst hd
  rw [← StackMember.dotGeneral_plain_apply prec A B a b]
  exact congrArg (acc (ix2 a b) + ·) (Ideal.dotGeneral_apply _ prec _ A B _).symm

theorem sitofp_eq_bit (x y : BitVec 32) :
    FloatOps.sitofp (F := Ideal) .f32 ((IntOp.cmpi .eq x y).setWidth 32) = if x = y then 1 else 0 := by
  show (((((IntOp.cmpi .eq x y).setWidth 32).toInt : ℤ) : ℝ) : EReal) = _
  rw [toInt_setWidth_bit]
  split
  · next h => subst h; simp [IntOp.cmpi]
  · next h => simp [IntOp.cmpi, beq_false_of_ne h]

end Cert.KernelIdeal.ValueBits

end
-- ==== Proof.Spec.lean ====
import Idealize.ShloMosaic.PureOps.Ideal
import Idealize.ShloMosaic.Lib.ValueIdx

noncomputable section

open scoped BigOperators

namespace Cert.Gin

open Idealize.ShloMosaic Idealize.ShloMosaic.ValueIdx

def rowOf (v : BitVec 32) : Fin 50000 := ⟨min v.toInt.toNat 49999, by omega⟩

def agg (x : (⟨2, ![50000, 128]⟩ : Shape).Idx → EReal) (src dst : (⟨1, ![800000]⟩ : Shape).Idx → BitVec 32)
    (n : Fin 50000) (k : Fin 128) : EReal :=
  ∑ e ∈ Finset.univ.filter (fun e : Fin 800000 => (dst (ix1 e)).toInt = (n.val : ℤ)), x (ix2 (rowOf (src (ix1 e))) k)

def layerAt {Do : Nat} (x : (⟨2, ![50000, 128]⟩ : Shape).Idx → EReal) (W : (⟨2, ![Do, 128]⟩ : Shape).Idx → EReal)
    (b : (⟨1, ![Do]⟩ : Shape).Idx → EReal) (src dst : (⟨1, ![800000]⟩ : Shape).Idx → BitVec 32)
    (n : Fin 50000) (o : Fin Do) : EReal :=
  max ((0 + ∑ k : Fin 128, (x (ix2 n k) + (0 + agg x src dst n k)) * W (ix2 o k)) + b (ix1 o)) 0

def layer {Do : Nat} (x : (⟨2, ![50000, 128]⟩ : Shape).Idx → EReal) (W : (⟨2, ![Do, 128]⟩ : Shape).Idx → EReal)
    (b : (⟨1, ![Do]⟩ : Shape).Idx → EReal) (src dst : (⟨1, ![800000]⟩ : Shape).Idx → BitVec 32) :
    (⟨2, ![50000, Do]⟩ : Shape).Idx → EReal :=
  fun j => layerAt x W b src dst ⟨(j 0).val, (j 0).isLt⟩ ⟨(j 1).val, (j 1).isLt⟩

def net (x : (⟨2, ![50000, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![64, 128]⟩ : Shape).Idx → EReal) (b3 : (⟨1, ![64]⟩ : Shape).Idx → EReal)
    (src dst : (⟨1, ![800000]⟩ : Shape).Idx → BitVec 32) : (⟨2, ![50000, 64]⟩ : Shape).Idx → EReal :=
  layer (layer (layer x W1 b1 src dst) W2 b2 src dst) W3 b3 src dst

def SrcInRange (src : (⟨1, ![800000]⟩ : Shape).Idx → BitVec 32) : Prop :=
  ∀ e : Fin 800000, 0 ≤ (src (ix1 e)).toInt ∧ (src (ix1 e)).toInt < 50000

end Cert.Gin

end
-- ==== Proof.KI.GatherValue.lean ====
import proofs.«430694_j29257317220564_2_alg».proof.Proof.KI.Gather
import proofs.«430694_j29257317220564_2_alg».proof.Proof.KI.ValueBits
import proofs.«430694_j29257317220564_2_alg».proof.Proof.Spec

noncomputable section

open scoped BigOperators

namespace Cert.KernelIdeal.GatherValue

open Cert.KernelIdeal Cert.KernelIdeal.Gen Cert.KernelIdeal.Gather Cert.KernelIdeal.ValueBits Cert.Gin
open Idealize.ShloMosaic Idealize.ShloMosaic.TcCoe Idealize.ShloMosaic.ValueIdx

/-- The grid coordinates of point t, as words: t / 50 and t % 50. -/
theorem word_coords (t : Fin grid0.N) :
    (BitVec.ofNat 32 (grid0.coords t 0).val).toNat = t.val / 50 ∧ (BitVec.ofNat 32 (grid0.coords t 1).val).toNat = t.val % 50 := by
  have hlt : t.val < 12500 := t.isLt
  rw [BitVec.toNat_ofNat, BitVec.toNat_ofNat, coord0 t, coord1 t]
  omega

/-- The gathered array: entry (e, k) is entry (row named by the e-th source word, k) of the feature array. -/
def gathered (src : S1x800000.Idx → BitVec 32) (x : S50000x128.Idx → EReal) : S800000x128.Idx → EReal := fun j =>
  x (ix2 (rowOf (src (ix2 (0 : Fin 1) (⟨(j 0).val, (j 0).isLt⟩ : Fin 800000)))) (⟨(j 1).val, (j 1).isLt⟩ : Fin 128))

/-- A window indexed by the edge block is written back at the last node block of every edge block. -/
theorem flushOf_last {r : ℕ} (ix : grid0.Coords → Fin r → ℕ) (a : Fin r) (hix : ∀ t : Fin grid0.N, ix (grid0.coords t) a = t.val / 50)
    (t : Fin grid0.N) (h : t.val % 50 = 49) : Pipeline.Window.flushOf grid0 true ix t = true := by
  have hlt : t.val < 12500 := t.isLt
  unfold Pipeline.Window.flushOf
  by_cases h1 : t.val + 1 = grid0.N
  · simp [h1]
  · have hl : t.val + 1 < grid0.N := by have := N_0; omega
    have h2 : ∃ hl : t.val + 1 < grid0.N, ix (grid0.coords ⟨t.val + 1, hl⟩) ≠ ix (grid0.coords t) :=
      ⟨hl, fun heq => by
        have e0 := congrFun heq a
        rw [hix, hix] at e0
        have e1 : (t.val + 1) / 50 = t.val / 50 := e0
        omega⟩
    simp [h1, h2]

/-- The product contracts the node block's 1000 rows: at output entry (e, k) and row n it reads (n, e) and (n, k). -/
theorem dot_idx (e : Fin 3200) (k : Fin 128) (n : Fin 1000) :
    dot_S1000x3200_S1000x128_S3200x128_0_0_1_1_n_n.lhsIdx (ix2 e k)
        ((contrEquiv1 dot_S1000x3200_S1000x128_S3200x128_0_0_1_1_n_n 1000 rfl rfl).symm n) = ix2 n e
      ∧ dot_S1000x3200_S1000x128_S3200x128_0_0_1_1_n_n.rhsIdx (ix2 e k)
        ((contrEquiv1 dot_S1000x3200_S1000x128_S3200x128_0_0_1_1_n_n 1000 rfl rfl).symm n) = ix2 n k := by
  have c := contrEquiv1_symm_val dot_S1000x3200_S1000x128_S3200x128_0_0_1_1_n_n 1000 rfl rfl n
  constructor <;> funext ax <;> apply Fin.ext <;> match ax with
  | ⟨0, _⟩ => simp [DotDims.lhsIdx, DotDims.rhsIdx, dot_S1000x3200_S1000x128_S3200x128_0_0_1_1_n_n]; exact c
  | ⟨1, _⟩ => simp [DotDims.lhsIdx, DotDims.rhsIdx, dot_S1000x3200_S1000x128_S3200x128_0_0_1_1_n_n]; rfl

/-- A point adds, at entry (e, k), the sum over the block's rows n of [n = source word of e less the block's offset] times row n's entry. -/
theorem accStep_apply (i : grid0.Coords) (s : S1x3200.Idx → BitVec 32) (x : S1000x128.Idx → EReal) (a : S3200x128.Idx → EReal)
    (e : Fin 3200) (k : Fin 128) :
    (accStep (F := Ideal) i s x a : S3200x128.Idx → EReal) (ix2 e k)
      = (if (i 1).val = 0 then 0 else a (ix2 e k)) + ∑ n : Fin 1000,
          (if BitVec.ofNat 32 n.val = s (ix2 (0 : Fin 1) e) - BitVec.ofNat 32 (i 1).val * 1000#32 then (1 : EReal) else 0) * x (ix2 n k) := by
  unfold accStep k0_pay2
  simp only [shapeCast_self, matmul]
  rw [addf_apply, Ideal.matmul_constant_zero_apply,
    ← Equiv.sum_comp (contrEquiv1 dot_S1000x3200_S1000x128_S3200x128_0_0_1_1_n_n 1000 rfl rfl).symm]
  have hc : cond1 i = 1#1 ↔ (i 1).val = 0 := cond1_coord (i 1)
  congr 1
  · by_cases h : (i 1).val = 0
    · rw [if_pos h, if_pos (hc.mpr h)]
      unfold k0_pay1
      simp only [shapeCast_self]
      exact Ideal.ofBits_zero_f32
    · rw [if_neg h, if_neg (mt hc.mp h)]
  · refine Finset.sum_congr rfl fun n _ => ?_
    rw [(dot_idx e k n).1, (dot_idx e k n).2, truncf_apply, sitofp_apply, extui_apply]
    refine congrArg (· * x (ix2 n k)) ((sitofp_eq_bit _ _).trans (if_congr ?_ rfl rfl))
    rw [iota_single_apply,
      broadcastTo_apply _ broadcasts_S1x3200_S1000x3200 (ix2 n e) (ix2 (0 : Fin 1) e) (fun ax => by
        match ax with
        | ⟨0, _⟩ => rfl
        | ⟨1, _⟩ => rfl)]
    rfl

/-- For a source word v naming a node, row n of node block b is selected exactly when v names row 1000 b + n. -/
theorem sel_iff (v : BitVec 32) (hv : 0 ≤ v.toInt ∧ v.toInt < 50000) (b n : ℕ) (hb : b < 50) (hn : n < 1000) :
    BitVec.ofNat 32 n = v - BitVec.ofNat 32 b * 1000#32 ↔ (rowOf v).val = 1000 * b + n := by
  have hc := BitVec.toInt_eq_toNat_cond v
  have hlt := v.isLt
  rw [← BitVec.toNat_inj]
  show _ ↔ min v.toInt.toNat 49999 = _
  simp only [BitVec.toNat_sub, BitVec.toNat_mul, BitVec.toNat_ofNat]
  omega

/-- One node block's sum is the entry of the row the source word names when that row lies in the block, and 0 when not. -/
theorem block_sum (v : BitVec 32) (hv : 0 ≤ v.toInt ∧ v.toInt < 50000) (b : ℕ) (hb : b < 50) (X : S1000x128.Idx → EReal)
    (x : S50000x128.Idx → EReal) (k : Fin 128)
    (hX : ∀ (r : Fin 1000) (p : Fin 50000), p.val = 1000 * b + r.val → X (ix2 r k) = x (ix2 p k)) :
    ∑ r : Fin 1000, (if BitVec.ofNat 32 r.val = v - BitVec.ofNat 32 b * 1000#32 then (1 : EReal) else 0) * X (ix2 r k)
      = if 1000 * b ≤ (rowOf v).val ∧ (rowOf v).val < 1000 * b + 1000 then x (ix2 (rowOf v) k) else 0 := by
  by_cases hin : 1000 * b ≤ (rowOf v).val ∧ (rowOf v).val < 1000 * b + 1000
  · have hr : (rowOf v).val = 1000 * b + ((rowOf v).val - 1000 * b) := by omega
    rw [if_pos hin, Finset.sum_eq_single_of_mem (⟨(rowOf v).val - 1000 * b, by omega⟩ : Fin 1000) (Finset.mem_univ _)
        fun r _ hne => by
          rw [if_neg fun h => hne (Fin.ext (by have := (sel_iff v hv b r hb r.isLt).mp h; show r.val = (rowOf v).val - 1000 * b; omega)), zero_mul],
      if_pos ((sel_iff v hv b _ hb (by omega)).mpr hr), one_mul]
    exact hX _ _ hr
  · rw [if_neg hin]
    refine Finset.sum_eq_zero fun r _ => ?_
    rw [if_neg fun h => hin (by have := (sel_iff v hv b r hb r.isLt).mp h; have := r.isLt; omega), zero_mul]

section Acc

variable (I : ℕ → grid0.Coords) (S : ℕ → S1x3200.Idx → BitVec 32) (X : ℕ → S1000x128.Idx → EReal) (A : ℕ → S3200x128.Idx → EReal)
  (src : S1x800000.Idx → BitVec 32) (x : S50000x128.Idx → EReal)
  (hI : ∀ n < 12500, (I n 1).val = n % 50)
  (hA0 : A 0 = accStep (F := Ideal) (I 0) (S 0) (X 0) (pay1 (F := Ideal)))
  (hA : ∀ n, A (n + 1) = accStep (F := Ideal) (I (n + 1)) (S (n + 1)) (X (n + 1)) (A n))
  (hS : ∀ n < 12500, ∀ (e : Fin 3200) (m : Fin 800000), m.val = 3200 * (n / 50) + e.val → S n (ix2 (0 : Fin 1) e) = src (ix2 (0 : Fin 1) m))
  (hX : ∀ n < 12500, ∀ (r : Fin 1000) (k : Fin 128) (p : Fin 50000), p.val = 1000 * (n % 50) + r.val → X n (ix2 r k) = x (ix2 p k))
  (hsrc : ∀ m : Fin 800000, 0 ≤ (src (ix2 (0 : Fin 1) m)).toInt ∧ (src (ix2 (0 : Fin 1) m)).toInt < 50000)
include hI hS hX hsrc

/-- Point n adds, at entry (e, k), the entry of the row edge e's source word names when that row lies in the point's node block. -/
theorem step_apply (n : ℕ) (hn : n < 12500) (a : S3200x128.Idx → EReal) (e : Fin 3200) (k : Fin 128) (m : Fin 800000)
    (hm : m.val = 3200 * (n / 50) + e.val) :
    (accStep (F := Ideal) (I n) (S n) (X n) a : S3200x128.Idx → EReal) (ix2 e k)
      = (if n % 50 = 0 then 0 else a (ix2 e k))
        + if 1000 * (n % 50) ≤ (rowOf (src (ix2 (0 : Fin 1) m))).val ∧ (rowOf (src (ix2 (0 : Fin 1) m))).val < 1000 * (n % 50) + 1000
          then x (ix2 (rowOf (src (ix2 (0 : Fin 1) m))) k) else 0 := by
  rw [accStep_apply, hS n hn e m hm, hI n hn]
  exact congrArg _ (block_sum _ (hsrc m) _ (Nat.mod_lt _ (by decide)) _ x k fun r p => hX n hn r k p)

include hA0 hA

/-- After point n the accumulator's entry (e, k) is the named row's entry if that row lies in a node block up to n's, else 0. -/
theorem acc_apply (n : ℕ) (hn : n < 12500) (e : Fin 3200) (k : Fin 128) (m : Fin 800000) (hm : m.val = 3200 * (n / 50) + e.val) :
    A n (ix2 e k) = if (rowOf (src (ix2 (0 : Fin 1) m))).val < 1000 * (n % 50) + 1000
      then x (ix2 (rowOf (src (ix2 (0 : Fin 1) m))) k) else 0 := by
  induction n with
  | zero =>
    rw [hA0, step_apply I S X src x hI hS hX hsrc 0 hn _ e k m hm, if_pos rfl, zero_add]
    exact if_congr (by omega) rfl rfl
  | succ n ih =>
    rw [hA, step_apply I S X src x hI hS hX hsrc (n + 1) hn _ e k m hm]
    by_cases h0 : (n + 1) % 50 = 0
    · rw [if_pos h0, zero_add]
      exact if_congr (by omega) rfl rfl
    · rw [if_neg h0, ih (by omega) (by omega), show (n + 1) % 50 = n % 50 + 1 by omega]
      by_cases h : (rowOf (src (ix2 (0 : Fin 1) m))).val < 1000 * (n % 50) + 1000
      · rw [if_pos h, if_neg (by omega), if_pos (by omega), add_zero]
      · rw [if_neg h, zero_add]
        exact if_congr (by omega) rfl rfl

/-- After an edge block's last node block, the accumulator's entry (e, k) is entry (row named by the edge's source word, k). -/
theorem acc_last (n : ℕ) (hn : n < 12500) (h49 : n % 50 = 49) (y : S3200x128.Idx) (i : S800000x128.Idx)
    (h0 : (i 0).val = 3200 * (n / 50) + (y 0).val) (h1 : (i 1).val = (y 1).val) :
    A n y = gathered src x i := by
  obtain ⟨e, k, rfl⟩ : ∃ (e : Fin 3200) (k : Fin 128), y = ix2 e k := ⟨y 0, y 1, eq_ix2 y⟩
  rw [acc_apply I S X A src x hI hA0 hA hS hX hsrc n hn e k ⟨(i 0).val, (i 0).isLt⟩ h0,
    if_pos (by have := (rowOf (src (ix2 (0 : Fin 1) (⟨(i 0).val, (i 0).isLt⟩ : Fin 800000)))).isLt; omega)]
  exact congrArg (fun q => x (ix2 _ q)) (Fin.ext h1.symm)

end Acc

end Cert.KernelIdeal.GatherValue

end
-- ==== Proof.KI.V0.lean ====
import proofs.«430694_j29257317220564_2_alg».proof.Proof.KI.R0
import proofs.«430694_j29257317220564_2_alg».proof.Proof.KI.GatherValue

noncomputable section

namespace Cert.KernelIdeal.R0

open Cert.KernelIdeal Cert.KernelIdeal.Gen Cert.KernelIdeal.Gather Cert.KernelIdeal.GatherValue
open Idealize.ShloMosaic Idealize.ShloMosaic.TcCoe Idealize.ShloMosaic.ValueIdx

/-- At point t the source window is at block (0, t / 50), the node window at (t % 50, 0), the message window at (t / 50, 0). -/
theorem index_src (t : Fin cfg0.N) : win0_0.index t 1 = t.val / 50 := (word_coords t).1
theorem index_node (t : Fin cfg0.N) : win0_1.index t 0 = t.val % 50 := (word_coords t).2
theorem index_msg (t : Fin cfg0.N) : win0_2.index t 0 = t.val / 50 := (word_coords t).1

theorem pt_lt {n : ℕ} (hn : n < 12500) : (pt n).val = n := Nat.mod_eq_of_lt hn

theorem flush_last (t : Fin cfg0.N) (h : t.val % 50 = 49) : (cfg0.win 2).flush t = true :=
  flushOf_last (cfg0.win 2).indexMap 0 index_msg t h

theorem cover (i : S800000x128.Idx) :
    ∃ t : Fin cfg0.N, (cfg0.win 2).flush t = true ∧ i ∈ ((cfg0.win 2).blk t).view.set := by
  have h0 : (i 0).val < 800000 := (i 0).isLt
  have h1 : (i 1).val < 128 := (i 1).isLt
  have hp : 50 * ((i 0).val / 3200) + 49 < 12500 := by omega
  refine ⟨⟨_, hp⟩, flush_last _ (by show (50 * ((i 0).val / 3200) + 49) % 50 = 49; omega), ?_⟩
  show i ∈ ((View.whole (Pipeline.arrRef spec0 2)).slice (win0_2.rect ⟨_, hp⟩)).set
  rw [View.set_slice_whole, Rect.mem_set_unit]
  intro a
  match a with
  | ⟨0, _⟩ =>
    show win0_2.index ⟨_, hp⟩ 0 * 3200 ≤ (i 0).val ∧ (i 0).val < win0_2.index ⟨_, hp⟩ 0 * 3200 + 3200
    rw [index_msg]
    dsimp only
    omega
  | ⟨1, _⟩ =>
    show 0 * 128 ≤ (i 1).val ∧ (i 1).val < 0 * 128 + 128
    omega

section Array

variable (c : Dev nD) (W : (b : Ref sig .tc) → Buf (Elt Ideal) ((c : Thread nD τ).loc b))

/-- Word e of the source block at point n is word 3200 (n / 50) + e of the source array. -/
theorem blk_src_apply (n : ℕ) (hn : n < 12500) (e : Fin 3200) (m : Fin 800000) (hm : m.val = 3200 * (n / 50) + e.val) :
    (blk (F := Ideal) c W 0 (pt n) : S1x3200.Idx → BitVec 32) (ix2 (0 : Fin 1) e)
      = (W (Pipeline.arrRef spec0 0) : S1x800000.Idx → BitVec 32) (ix2 (0 : Fin 1) m) := by
  unfold blk
  rw [View.read_apply]
  refine congrArg (W (Pipeline.arrRef spec0 0) : S1x800000.Idx → BitVec 32) (funext fun a => Fin.ext ?_)
  match a with
  | ⟨0, _⟩ => rfl
  | ⟨1, _⟩ => show win0_0.index (pt n) 1 * 3200 + 1 * e.val = m.val; rw [index_src, pt_lt hn, hm]; omega

/-- Entry (r, k) of the node block at point n is entry (1000 (n % 50) + r, k) of the feature array. -/
theorem blk_node_apply (n : ℕ) (hn : n < 12500) (r : Fin 1000) (k : Fin 128) (p : Fin 50000) (hp : p.val = 1000 * (n % 50) + r.val) :
    (blk (F := Ideal) c W 1 (pt n) : S1000x128.Idx → EReal) (ix2 r k)
      = (W (Pipeline.arrRef spec0 1) : S50000x128.Idx → EReal) (ix2 p k) := by
  unfold blk
  rw [View.read_apply]
  refine congrArg (W (Pipeline.arrRef spec0 1) : S50000x128.Idx → EReal) (funext fun a => Fin.ext ?_)
  match a with
  | ⟨0, _⟩ => show win0_1.index (pt n) 0 * 1000 + 1 * r.val = p.val; rw [index_node, pt_lt hn, hp]; omega
  | ⟨1, _⟩ => show 0 * 128 + 1 * k.val = k.val; omega

end Array

theorem final (c : Dev nD) (W : (b : Ref sig .tc) → Buf (Elt Ideal) ((c : Thread nD τ).loc b))
    (hsrc : ∀ e : Fin 800000, 0 ≤ ((W (Pipeline.arrRef spec0 0) : S1x800000.Idx → BitVec 32) (ix2 (0 : Fin 1) e)).toInt
      ∧ ((W (Pipeline.arrRef spec0 0) : S1x800000.Idx → BitVec 32) (ix2 (0 : Fin 1) e)).toInt < 50000) :
    ((dat (F := Ideal) c W).arrAt 2 cfg0.N : S800000x128.Idx → EReal)
      = fun j => (W (Pipeline.arrRef spec0 1) : S50000x128.Idx → EReal)
          (ix2 (Cert.Gin.rowOf ((W (Pipeline.arrRef spec0 0) : S1x800000.Idx → BitVec 32) (ix2 (0 : Fin 1) (⟨(j 0).val, (j 0).isLt⟩ : Fin 800000))))
            (⟨(j 1).val, (j 1).isLt⟩ : Fin 128)) := by
  refine (dat (F := Ideal) c W).arrAt_eq_of_cover 2 (gathered (W (Pipeline.arrRef spec0 0)) (W (Pipeline.arrRef spec0 1))) (fun t hf => ?_) cover
  have h49 : t.val % 50 = 49 := by_contra fun h => Bool.false_ne_true ((no_flush t h).symm.trans hf)
  show (cfg0.win 2).cut (grid0.coords t) ((dat (F := Ideal) c W).after 2 t) = _
  rw [after_2]
  funext j
  refine acc_last (fun n => grid0.coords (pt n)) (fun n => blk (F := Ideal) c W 0 (pt n)) (fun n => blk (F := Ideal) c W 1 (pt n))
    (acc (F := Ideal) c W) _ _ (fun n hn => (coord1 (pt n)).trans (congrArg (· % 50) (pt_lt hn))) rfl (fun _ => rfl)
    (blk_src_apply c W) (blk_node_apply c W) hsrc t.val t.isLt h49 (fun a => ⟨(j a).val, (j a).isLt⟩)
    (((cfg0.win 2).blk t).view.emb j) ?_ ?_
  · show win0_2.index t 0 * 3200 + 1 * (j 0).val = 3200 * (t.val / 50) + (j 0).val
    rw [index_msg]; omega
  · show 0 * 128 + 1 * (j 1).val = (j 1).val
    omega

end Cert.KernelIdeal.R0

end
-- ==== Proof.KI.ScatterValue.lean ====
import proofs.«430694_j29257317220564_2_alg».proof.Proof.KI.Scatter
import proofs.«430694_j29257317220564_2_alg».proof.Proof.KI.ValueBits
import Mathlib.Algebra.BigOperators.Fin
import Mathlib.Logic.Equiv.Fin.Basic

noncomputable section

open scoped BigOperators

namespace Cert.KernelIdeal.ScatterValue

open Cert.KernelIdeal Cert.KernelIdeal.Gen Cert.KernelIdeal.Scatter Cert.KernelIdeal.ValueBits
open Idealize.ShloMosaic Idealize.ShloMosaic.ValueIdx

/-- Two rank-2 indices with equal coordinates are equal. -/
theorem idx2_ext {a b : ℕ} (p q : (⟨2, ![a, b]⟩ : Shape).Idx) (h0 : (p 0).val = (q 0).val) (h1 : (p 1).val = (q 1).val) : p = q :=
  funext fun i => Fin.ext (match i with
    | ⟨0, _⟩ => h0
    | ⟨1, _⟩ => h1)

/-- Summing over all edges is summing block by block: edge 3200 b + e is edge e of block b. -/
theorem sum_blocks {M : Type*} [AddCommMonoid M] (f : Fin 800000 → M) :
    ∑ b ∈ Finset.range 250, ∑ e : Fin 3200, f ⟨3200 * (b % 250) + e.val, by have := e.isLt; omega⟩ = ∑ e : Fin 800000, f e := by
  rw [Finset.sum_range (fun b => ∑ e : Fin 3200, f ⟨3200 * (b % 250) + e.val, by have := e.isLt; omega⟩)]
  rw [← Fintype.sum_prod_type (f := fun p : Fin 250 × Fin 3200 => f ⟨3200 * (p.1.val % 250) + p.2.val, by have := p.2.isLt; omega⟩)]
  refine Fintype.sum_equiv (finProdFinEquiv.trans (finCongr (by norm_num : 250 * 3200 = 800000))) _ _ fun p => ?_
  refine congrArg f (Fin.ext ?_)
  have h1 := p.1.isLt
  simp only [Equiv.trans_apply, finCongr_apply, Fin.coe_cast, finProdFinEquiv_apply_val]
  omega

/-- As 32-bit words n = v - 1000 ni exactly when v, read signed, is the number n + 1000 ni; nothing wraps since n < 1000 and ni < 50. -/
theorem word_sel (v : BitVec 32) (ni n : Nat) (hni : ni < 50) (hn : n < 1000) :
    (BitVec.ofNat 32 n = v - BitVec.ofNat 32 ni * 1000#32) ↔ v.toInt = ((n + 1000 * ni : ℕ) : ℤ) := by
  rw [BitVec.eq_sub_iff_add_eq, BitVec.toInt_eq_toNat_cond]
  constructor
  · intro h
    have h' := congrArg BitVec.toNat h
    simp only [BitVec.toNat_add, BitVec.toNat_mul, BitVec.toNat_ofNat] at h'
    split <;> omega
  · intro h
    apply BitVec.eq_of_toNat_eq
    simp only [BitVec.toNat_add, BitVec.toNat_mul, BitVec.toNat_ofNat]
    have := v.isLt
    split at h <;> omega

/-- 1 if the destination word v names row n of node block ni, else 0. -/
def sel (ni : ℕ) (v : BitVec 32) (n : Fin 1000) : EReal := if v.toInt = ((n.val + 1000 * ni : ℕ) : ℤ) then 1 else 0

/-- The one-hot product: entry (n, k) gains the messages of those edges of the block whose destination is row n. -/
theorem step_apply (ni : ℕ) (hni : ni < 50) (s : IVec S1x3200 32) (mg : FVec Ideal S3200x128 .bf16)
    (a : FVec Ideal S1000x128 .f32) (hi : S1000x3200.Iotas .tc 32 [0]) (hb : S1x3200.Broadcasts S1000x3200) (h1 : 1 < 32)
    (hf : FTy.bf16.bits < FTy.f32.bits) (n : Fin 1000) (k : Fin 128) :
    addf a (matmul dot_S1000x3200_S3200x128_S1000x128_1_0_0_1_n_n none
      (truncf .bf16 (sitofp .f32 (extui 32 (cmpi .eq (iota .tc S1000x3200 32 [0] hi)
        (broadcastTo S1000x3200 (subi s (broadcast S1x3200 (Scalar.muli (BitVec.ofNat 32 ni) 1000#32))) hb)) h1)) hf)
      mg (constant S1000x128 .f32 0x00000000#32)) (ix2 n k)
      = a (ix2 n k) + ∑ e : Fin 3200, sel ni (s (ix2 (0 : Fin 1) e)) n * mg (ix2 e k) := by
  rw [addf_apply, matmul_plain_apply dot_S1000x3200_S3200x128_S1000x128_1_0_0_1_n_n rfl, constant_apply,
    Ideal.ofBits_zero_f32, zero_add]
  refine congrArg (a (ix2 n k) + ·) (Finset.sum_congr rfl fun e _ => congrArg (· * mg (ix2 e k)) ?_)
  rw [truncf_apply, sitofp_apply, extui_apply,
    show ∀ (x y : IVec S1000x3200 32) (j : S1000x3200.Idx), cmpi .eq x y j = IntOp.cmpi .eq (x j) (y j) from fun _ _ _ => rfl,
    sitofp_eq_bit, iota_single_apply, broadcastTo_1b_ab_apply]
  show (if BitVec.ofNat 32 n.val = s (ix2 0 e) - BitVec.ofNat 32 ni * 1000#32 then (1 : EReal) else 0) = sel ni (s (ix2 0 e)) n
  unfold sel
  exact if_congr (word_sel _ _ _ hni n.isLt) rfl rfl

/-- The dense layer at (n, o): x + a times the weights, plus the bias, cut below at zero. -/
theorem out_apply {D : ℕ} (d : DotDims S1000x128 ⟨2, ![128, D]⟩ ⟨2, ![1000, D]⟩) (hd : d = DotDims.plain 1000 128 D)
    (x a : FVec Ideal S1000x128 .f32) (wt : FVec Ideal ⟨2, ![128, D]⟩ .f32) (b : FVec Ideal ⟨2, ![1, D]⟩ .f32)
    (hf : FTy.bf16.bits < FTy.f32.bits) (hb : (⟨2, ![1, D]⟩ : Shape).Broadcasts ⟨2, ![1000, D]⟩) (n : Fin 1000) (o : Fin D) :
    maximumf (addf (matmul d none (truncf .bf16 (addf x a) hf) (truncf .bf16 wt hf) (constant ⟨2, ![1000, D]⟩ .f32 0x00000000#32))
        (broadcastTo ⟨2, ![1000, D]⟩ b hb)) (broadcast ⟨2, ![1000, D]⟩ (Scalar.ofBits .f32 0x00000000#32)) (ix2 n o)
      = max ((0 + ∑ k : Fin 128, (x (ix2 n k) + a (ix2 n k)) * wt (ix2 k o)) + b (ix2 (0 : Fin 1) o)) 0 := by
  rw [maximumf_apply, addf_apply, matmul_plain_apply d hd, constant_apply, broadcastTo_1b_ab_apply, broadcast_apply]
  show max ((Ideal.ofBits .f32 0x00000000#32 + _) + _) (Ideal.ofBits .f32 0x00000000#32) = _
  rw [Ideal.ofBits_zero_f32]
  rfl

/-- The payloads of the first two scatter bodies, read at an index. -/
theorem pay1_apply (j : S1000x128.Idx) : (pay1 (F := Ideal)) j = 0 := by
  unfold pay1 k1_pay1
  rw [shapeCast_self]
  exact Ideal.ofBits_zero_f32
theorem pay2_apply (i : grid1.Coords) (s : Vec Ideal S1x3200 .i32) (mg : Vec Ideal S3200x128 .bf16) (a : Vec Ideal S1000x128 .f32)
    (n : Fin 1000) (k : Fin 128) :
    pay2 i s mg a (ix2 n k) = a (ix2 n k) + ∑ e : Fin 3200, sel (i 0).val (s (ix2 (0 : Fin 1) e)) n * mg (ix2 e k) := by
  unfold pay2 k1_pay2
  simp only [shapeCast_self]
  exact step_apply _ (i 0).isLt s mg a _ _ _ _ n k
theorem pay3_apply (x a : Vec Ideal S1000x128 .f32) (wt : Vec Ideal S128x128 .f32) (b : Vec Ideal S1x128 .f32)
    (n : Fin 1000) (o : Fin 128) :
    pay3 x a wt b (ix2 n o)
      = max ((0 + ∑ k : Fin 128, (x (ix2 n k) + a (ix2 n k)) * wt (ix2 k o)) + b (ix2 (0 : Fin 1) o)) 0 := by
  unfold pay3 k1_pay3
  simp only [shapeCast_self]
  exact out_apply _ rfl x a wt b _ _ n o

theorem accStep_apply (i : grid1.Coords) (s : Vec Ideal S1x3200 .i32) (mg : Vec Ideal S3200x128 .bf16) (a : Vec Ideal S1000x128 .f32)
    (n : Fin 1000) (k : Fin 128) :
    accStep i s mg a (ix2 n k)
      = (if cond1 i = 1#1 then 0 else a (ix2 n k)) + ∑ e : Fin 3200, sel (i 0).val (s (ix2 (0 : Fin 1) e)) n * mg (ix2 e k) := by
  unfold accStep
  refine (pay2_apply i s mg _ n k).trans ?_
  congr 1
  split
  · exact pay1_apply _
  · rfl

/-- An output window leaves at the last point, and wherever its block index differs at the next point. -/
theorem flushOf_of_ne (G : Pipeline.Grid) {r : ℕ} (ix : G.Coords → Fin r → ℕ) (t : Fin G.N)
    (h : ∀ h' : t.val + 1 < G.N, ix (G.coords ⟨t.val + 1, h'⟩) ≠ ix (G.coords t)) :
    Pipeline.Window.flushOf G true ix t = true := by
  unfold Pipeline.Window.flushOf
  by_cases hl : t.val + 1 = G.N
  · simp [hl]
  · have hne : ∃ h' : t.val + 1 < G.N, ix (G.coords ⟨t.val + 1, h'⟩) ≠ ix (G.coords t) :=
      ⟨by have := t.isLt; omega, h _⟩
    simp [hne]

/-- What edge block b adds to entry (n, k) of node block ni. -/
def addend (dst : S1x800000.Idx → BitVec 32) (msg : S800000x128.Idx → EReal) (ni b : ℕ) (n : Fin 1000) (k : Fin 128) : EReal :=
  ∑ e : Fin 3200, sel ni (dst (ix2 (0 : Fin 1) (⟨3200 * (b % 250) + e.val, by have := e.isLt; omega⟩ : Fin 800000))) n
    * msg (ix2 (⟨3200 * (b % 250) + e.val, by have := e.isLt; omega⟩ : Fin 800000) k)

/-- A sequence that restarts every 250 steps and otherwise adds g is, within run ni, a partial sum of g ni. -/
theorem run_sum {M : Type*} [AddCommMonoid M] (A : ℕ → M) (g : ℕ → ℕ → M)
    (h : ∀ m, m < 12500 → A m = (if m % 250 = 0 then 0 else A (m - 1)) + g (m / 250) (m % 250)) (ni : ℕ) (hni : ni < 50) :
    ∀ ei : ℕ, ei < 250 → A (250 * ni + ei) = 0 + ∑ b ∈ Finset.range (ei + 1), g ni b
  | 0, _ => by
    rw [h _ (by omega), if_pos (by omega), Finset.sum_range_one,
      show (250 * ni + 0) / 250 = ni from by omega, show (250 * ni + 0) % 250 = 0 from by omega]
  | ei + 1, _ => by
    rw [h _ (by omega), if_neg (by omega), show 250 * ni + (ei + 1) - 1 = 250 * ni + ei from by omega,
      run_sum A g h ni hni ei (by omega), Finset.sum_range_succ _ (ei + 1), add_assoc,
      show (250 * ni + (ei + 1)) / 250 = ni from by omega, show (250 * ni + (ei + 1)) % 250 = ei + 1 from by omega]

/-- At the end of run t / 250 such a sequence has collected every edge whose destination is node N. -/
theorem acc_closed (A : ℕ → EReal) (dst : S1x800000.Idx → BitVec 32) (msg : S800000x128.Idx → EReal) (n : Fin 1000) (k : Fin 128)
    (h : ∀ m, m < 12500 → A m = (if m % 250 = 0 then 0 else A (m - 1)) + addend dst msg (m / 250) (m % 250) n k)
    (t : ℕ) (ht : t < 12500) (hl : t % 250 = 249) (N : Fin 50000) (hN : N.val = n.val + 1000 * (t / 250)) :
    A t = 0 + ∑ e ∈ Finset.univ.filter (fun e : Fin 800000 => (dst (ix2 (0 : Fin 1) e)).toInt = (N.val : ℤ)), msg (ix2 e k) := by
  have e1 : A t = 0 + ∑ b ∈ Finset.range 250, addend dst msg (t / 250) b n k := by
    have e0 := run_sum A (fun ni b => addend dst msg ni b n k) h (t / 250) (by omega) 249 (by omega)
    rw [show 250 * (t / 250) + 249 = t from by omega] at e0
    exact e0
  rw [e1]
  refine congrArg (fun z : EReal => 0 + z) ?_
  unfold addend
  rw [sum_blocks (fun e' : Fin 800000 => sel (t / 250) (dst (ix2 (0 : Fin 1) e')) n * msg (ix2 e' k)), Finset.sum_filter]
  refine Finset.sum_congr rfl fun e _ => ?_
  unfold sel
  rw [← hN, ite_mul, one_mul, zero_mul]

end Cert.KernelIdeal.ScatterValue

end
-- ==== Proof.KI.V1.lean ====
import proofs.«430694_j29257317220564_2_alg».proof.Proof.KI.R1
import proofs.«430694_j29257317220564_2_alg».proof.Proof.KI.ScatterValue

noncomputable section

open scoped BigOperators

namespace Cert.KernelIdeal.R1

open Cert.KernelIdeal Cert.KernelIdeal.Gen Cert.KernelIdeal.Scatter Cert.KernelIdeal.ScatterValue
open Idealize.ShloMosaic Idealize.ShloMosaic.TcCoe Idealize.ShloMosaic.ValueIdx
open Idealize.ShloMosaic.Pipeline (Dat Cfg Window)

/-- Entry (n, o) of the layer, computed from the five arrays the region reads. -/
def outAt (dst : S1x800000.Idx → BitVec 32) (msg : S800000x128.Idx → EReal) (x : S50000x128.Idx → EReal)
    (wt : S128x128.Idx → EReal) (b : S1x128.Idx → EReal) (n : Fin 50000) (o : Fin 128) : EReal :=
  max ((0 + ∑ k : Fin 128, (x (ix2 n k)
      + (0 + ∑ e ∈ Finset.univ.filter (fun e : Fin 800000 => (dst (ix2 (0 : Fin 1) e)).toInt = (n.val : ℤ)), msg (ix2 e k)))
      * wt (ix2 k o)) + b (ix2 (0 : Fin 1) o)) 0

theorem lt_N (t : Fin cfg1.N) : t.val < 12500 := (N_1 : grid1.N = 12500) ▸ t.isLt

/-- Point t's node block and edge block, as the words the index maps use. -/
theorem word0 (t : Fin cfg1.N) : (BitVec.ofNat 32 (grid1.coords t 0).val).toNat = t.val / 250 := by
  have := lt_N t
  rw [BitVec.toNat_ofNat, coord0 t]
  omega
theorem word1 (t : Fin cfg1.N) : (BitVec.ofNat 32 (grid1.coords t 1).val).toNat = t.val % 250 := by
  rw [BitVec.toNat_ofNat, coord1 t]
  omega

section Reads

variable (c : Dev nD) (W : (b : Ref sig .tc) → Buf (Elt Ideal) ((c : Thread nD τ).loc b))

/-- The arrays read: destination words, messages, node rows, transposed weights, bias. -/
abbrev dstW : S1x800000.Idx → BitVec 32 := W (Pipeline.arrRef spec1 0)
abbrev msgW : S800000x128.Idx → EReal := W (Pipeline.arrRef spec1 1)
abbrev rowW : S50000x128.Idx → EReal := W (Pipeline.arrRef spec1 2)
abbrev wtW : S128x128.Idx → EReal := W (Pipeline.arrRef spec1 3)
abbrev biasW : S1x128.Idx → EReal := W (Pipeline.arrRef spec1 4)

/-- Each window's block at point t, entry by entry in its array: edge blocks step by 3200, node blocks by 1000. -/
theorem blk0_apply (t : Fin cfg1.N) (y : S1x3200.Idx) (z : S1x800000.Idx) (h0 : (z 0).val = (y 0).val)
    (h1 : (z 1).val = 3200 * (t.val % 250) + (y 1).val) :
    (blk c W 0 t : Vec Ideal S1x3200 .i32) y = dstW c W z := by
  have e1 := word1 t
  exact congrArg (dstW c W) (idx2_ext _ _ (by show 0 * 1 + 1 * (y 0).val = (z 0).val; omega)
    (by show (BitVec.ofNat 32 (grid1.coords t 1).val).toNat * 3200 + 1 * (y 1).val = (z 1).val; omega))
theorem blk1_apply (t : Fin cfg1.N) (y : S3200x128.Idx) (z : S800000x128.Idx)
    (h0 : (z 0).val = 3200 * (t.val % 250) + (y 0).val) (h1 : (z 1).val = (y 1).val) :
    (blk c W 1 t : Vec Ideal S3200x128 .bf16) y = msgW c W z := by
  have e1 := word1 t
  exact congrArg (msgW c W) (idx2_ext _ _
    (by show (BitVec.ofNat 32 (grid1.coords t 1).val).toNat * 3200 + 1 * (y 0).val = (z 0).val; omega)
    (by show 0 * 128 + 1 * (y 1).val = (z 1).val; omega))
theorem blk2_apply (t : Fin cfg1.N) (y : S1000x128.Idx) (z : S50000x128.Idx)
    (h0 : (z 0).val = 1000 * (t.val / 250) + (y 0).val) (h1 : (z 1).val = (y 1).val) :
    (blk c W 2 t : Vec Ideal S1000x128 .f32) y = rowW c W z := by
  have e0 := word0 t
  exact congrArg (rowW c W) (idx2_ext _ _
    (by show (BitVec.ofNat 32 (grid1.coords t 0).val).toNat * 1000 + 1 * (y 0).val = (z 0).val; omega)
    (by show 0 * 128 + 1 * (y 1).val = (z 1).val; omega))
theorem blk3_apply (t : Fin cfg1.N) (y : S128x128.Idx) : (blk c W 3 t : Vec Ideal S128x128 .f32) y = wtW c W y :=
  congrArg (wtW c W) (idx2_ext _ _ (by show 0 * 128 + 1 * (y 0).val = (y 0).val; omega)
    (by show 0 * 128 + 1 * (y 1).val = (y 1).val; omega))
theorem blk4_apply (t : Fin cfg1.N) (y : S1x128.Idx) : (blk c W 4 t : Vec Ideal S1x128 .f32) y = biasW c W y :=
  congrArg (biasW c W) (idx2_ext _ _ (by show 0 * 1 + 1 * (y 0).val = (y 0).val; omega)
    (by show 0 * 128 + 1 * (y 1).val = (y 1).val; omega))

/-- One step at point t: restart or keep a, then add edge block t % 250 of node block t / 250. -/
theorem step_at (t : Fin cfg1.N) (a : Vec Ideal S1000x128 .f32) (n : Fin 1000) (k : Fin 128) :
    accStep (grid1.coords t) (blk c W 0 t) (blk c W 1 t) a (ix2 n k)
      = (if t.val % 250 = 0 then 0 else a (ix2 n k)) + addend (dstW c W) (msgW c W) (t.val / 250) (t.val % 250) n k := by
  have hlt := lt_N t
  refine (accStep_apply (grid1.coords t) (blk c W 0 t) (blk c W 1 t) a n k).trans ?_
  refine congr (congrArg HAdd.hAdd (if_congr (cond1_iff t) rfl rfl)) ?_
  unfold addend
  refine Finset.sum_congr rfl fun e _ => ?_
  refine congr (congrArg HMul.hMul ?_) ?_
  · rw [coord0 t, show t.val / 250 % 50 = t.val / 250 from by omega]
    exact congrArg (fun v => sel (t.val / 250) v n)
      (blk0_apply c W t (ix2 (0 : Fin 1) e) (ix2 (0 : Fin 1) (⟨3200 * (t.val % 250 % 250) + e.val, by have := e.isLt; omega⟩ : Fin 800000)) rfl
        (by show 3200 * (t.val % 250 % 250) + e.val = 3200 * (t.val % 250) + e.val; omega))
  · exact blk1_apply c W t (ix2 e k) (ix2 (⟨3200 * (t.val % 250 % 250) + e.val, by have := e.isLt; omega⟩ : Fin 800000) k)
      (by show 3200 * (t.val % 250 % 250) + e.val = 3200 * (t.val % 250) + e.val; omega) rfl

/-- The accumulator's recurrence over the points. -/
theorem acc_apply (n : Fin 1000) (k : Fin 128) (m : ℕ) (hm : m < 12500) :
    acc c W m (ix2 n k) = (if m % 250 = 0 then 0 else acc c W (m - 1) (ix2 n k))
      + addend (dstW c W) (msgW c W) (m / 250) (m % 250) n k :=
  (congrFun (acc_step c W ⟨m, Nat.lt_of_lt_of_eq hm N_1.symm⟩ (acc c W (m - 1)) fun _ => rfl).symm (ix2 n k)).trans
    (step_at c W ⟨m, Nat.lt_of_lt_of_eq hm N_1.symm⟩ _ n k)

end Reads

section Final

variable (c : Dev nD) (W : (b : Ref sig .tc) → Buf (Elt Ideal) ((c : Thread nD τ).loc b))

/-- The layer as an array. -/
def layerOut : S50000x128.Idx → EReal := fun j =>
  outAt (dstW c W) (msgW c W) (rowW c W) (wtW c W) (biasW c W) (⟨(j 0).val, (j 0).isLt⟩ : Fin 50000) (⟨(j 1).val, (j 1).isLt⟩ : Fin 128)

/-- The output block leaves at the last edge block of a node block: the next point belongs to another node block. -/
theorem flush_last (t : Fin cfg1.N) (h : t.val % 250 = 249) : (cfg1.win 5).flush t = true := by
  have hlt := lt_N t
  refine flushOf_of_ne grid1 (cfg1.win 5).indexMap t fun h' he => ?_
  have e : (BitVec.ofNat 32 (grid1.coords ⟨t.val + 1, h'⟩ 0).val).toNat = (BitVec.ofNat 32 (grid1.coords t 0).val).toNat :=
    congrFun he (0 : Fin 2)
  rw [word0, word0] at e
  have e' : (t.val + 1) / 250 = t.val / 250 := e
  omega

/-- Every output row lies in the block that leaves at the end of its node block. -/
theorem cover (i : S50000x128.Idx) :
    ∃ t : Fin cfg1.N, (cfg1.win 5).flush t = true ∧ i ∈ ((cfg1.win 5).blk t).view.set := by
  have hN : grid1.N = 12500 := N_1
  have h0 : (i 0).val < 50000 := (i 0).isLt
  have h1 : (i 1).val < 128 := (i 1).isLt
  have hb : 250 * ((i 0).val / 1000) + 249 < grid1.N := by rw [hN]; omega
  obtain ⟨t, htv⟩ : ∃ t : Fin cfg1.N, t.val = 250 * ((i 0).val / 1000) + 249 := ⟨⟨_, hb⟩, rfl⟩
  refine ⟨t, flush_last t (by rw [htv]; omega), ?_⟩
  show i ∈ ((View.whole (Pipeline.arrRef spec1 5)).slice (win1_5.rect t)).set
  rw [View.set_slice_whole, Rect.mem_set_unit]
  have e0 := word0 t
  intro a
  match a with
  | ⟨0, _⟩ =>
    show (BitVec.ofNat 32 (grid1.coords t 0).val).toNat * 1000 ≤ (i 0).val
      ∧ (i 0).val < (BitVec.ofNat 32 (grid1.coords t 0).val).toNat * 1000 + 1000
    omega
  | ⟨1, _⟩ => show 0 * 128 ≤ (i 1).val ∧ (i 1).val < 0 * 128 + 128; omega

/-- At the end of node block t / 250 the value at row j of the block is the layer at row 1000 (t / 250) + j. -/
theorem point_eq (t : Fin cfg1.N) (ht : t.val % 250 = 249) (j : S1000x128.Idx) (J : S50000x128.Idx)
    (h0 : (J 0).val = 1000 * (t.val / 250) + (j 0).val) (h1 : (J 1).val = (j 1).val) :
    pay3 (blk c W 2 t) (acc c W t.val) (blk c W 3 t) (blk c W 4 t) j = layerOut c W J := by
  obtain ⟨n, o, rfl⟩ : ∃ (n : Fin 1000) (o : Fin 128), j = ix2 n o := ⟨j 0, j 1, eq_ix2 j⟩
  have hO : (⟨(J 1).val, (J 1).isLt⟩ : Fin 128) = o := Fin.ext h1
  refine (pay3_apply (blk c W 2 t) (acc c W t.val) (blk c W 3 t) (blk c W 4 t) n o).trans ?_
  unfold layerOut outAt
  rw [hO]
  refine congrArg (fun z : EReal => max z 0) ?_
  refine congr (congrArg HAdd.hAdd ?_) (blk4_apply c W t (ix2 (0 : Fin 1) o))
  refine congrArg (fun z : EReal => 0 + z) ?_
  refine Finset.sum_congr rfl fun k _ => ?_
  refine congr (congrArg HMul.hMul ?_) (blk3_apply c W t (ix2 k o))
  refine congr (congrArg HAdd.hAdd ?_) ?_
  · exact blk2_apply c W t (ix2 n k) (ix2 (⟨(J 0).val, (J 0).isLt⟩ : Fin 50000) k) h0 rfl
  · exact acc_closed (fun m => acc c W m (ix2 n k)) (dstW c W) (msgW c W) n k (acc_apply c W n k) t.val (lt_N t) ht
      (⟨(J 0).val, (J 0).isLt⟩ : Fin 50000) (by show (J 0).val = n.val + 1000 * (t.val / 250); rw [h0]; exact Nat.add_comm _ _)

/-- What leaves at a point is the layer's block there. -/
theorem flushed_eq (t : Fin cfg1.N) (hf : (cfg1.win 5).flush t = true) :
    (dat c W).flushed 5 t = ((cfg1.win 5).blk t).view.read (Elt Ideal) (layerOut c W) := by
  have ht : t.val % 250 = 249 := by
    by_contra h
    rw [no_flush t h] at hf
    exact Bool.false_ne_true hf
  have e0 := word0 t
  show (cfg1.win 5).cut (grid1.coords t) ((dat c W).after 5 t) = _
  rw [after_5]
  funext y
  show pay3 (blk c W 2 t) (acc c W t.val) (blk c W 3 t) (blk c W 4 t) ((cfg1.win 5).xinj (grid1.coords t) y)
    = layerOut c W (((cfg1.win 5).blk t).view.emb y)
  refine point_eq c W t ht _ _ ?_ ?_
  · show (BitVec.ofNat 32 (grid1.coords t 0).val).toNat * 1000 + 1 * (y 0).val = 1000 * (t.val / 250) + (y 0).val
    omega
  · show 0 * 128 + 1 * (y 1).val = (y 1).val
    omega

end Final

/-- After all points the output array is the layer. -/
theorem final (c : Dev nD) (W : (b : Ref sig .tc) → Buf (Elt Ideal) ((c : Thread nD τ).loc b)) :
    ((dat (F := Ideal) c W).arrAt 5 cfg1.N : S50000x128.Idx → EReal)
      = fun j => outAt (W (Pipeline.arrRef spec1 0)) (W (Pipeline.arrRef spec1 1)) (W (Pipeline.arrRef spec1 2))
          (W (Pipeline.arrRef spec1 3)) (W (Pipeline.arrRef spec1 4))
          (⟨(j 0).val, (j 0).isLt⟩ : Fin 50000) (⟨(j 1).val, (j 1).isLt⟩ : Fin 128) :=
  (dat (F := Ideal) c W).arrAt_eq_of_cover 5 (layerOut c W) (flushed_eq c W) cover

end Cert.KernelIdeal.R1

end
-- ==== Proof.KI.V2.lean ====
import proofs.«430694_j29257317220564_2_alg».proof.Proof.KI.R2
import proofs.«430694_j29257317220564_2_alg».proof.Proof.KI.GatherValue

noncomputable section

namespace Cert.KernelIdeal.R2

open Cert.KernelIdeal Cert.KernelIdeal.Gen Cert.KernelIdeal.Gather Cert.KernelIdeal.GatherValue
open Idealize.ShloMosaic Idealize.ShloMosaic.TcCoe Idealize.ShloMosaic.ValueIdx

/-- At point t the source window is at block (0, t / 50), the node window at (t % 50, 0), the message window at (t / 50, 0). -/
theorem index_src (t : Fin cfg2.N) : win2_0.index t 1 = t.val / 50 := (word_coords t).1
theorem index_node (t : Fin cfg2.N) : win2_1.index t 0 = t.val % 50 := (word_coords t).2
theorem index_msg (t : Fin cfg2.N) : win2_2.index t 0 = t.val / 50 := (word_coords t).1

theorem pt_lt {n : ℕ} (hn : n < 12500) : (pt n).val = n := Nat.mod_eq_of_lt hn

theorem flush_last (t : Fin cfg2.N) (h : t.val % 50 = 49) : (cfg2.win 2).flush t = true :=
  flushOf_last (cfg2.win 2).indexMap 0 index_msg t h

theorem cover (i : S800000x128.Idx) :
    ∃ t : Fin cfg2.N, (cfg2.win 2).flush t = true ∧ i ∈ ((cfg2.win 2).blk t).view.set := by
  have h0 : (i 0).val < 800000 := (i 0).isLt
  have h1 : (i 1).val < 128 := (i 1).isLt
  have hp : 50 * ((i 0).val / 3200) + 49 < 12500 := by omega
  refine ⟨⟨_, hp⟩, flush_last _ (by show (50 * ((i 0).val / 3200) + 49) % 50 = 49; omega), ?_⟩
  show i ∈ ((View.whole (Pipeline.arrRef spec2 2)).slice (win2_2.rect ⟨_, hp⟩)).set
  rw [View.set_slice_whole, Rect.mem_set_unit]
  intro a
  match a with
  | ⟨0, _⟩ =>
    show win2_2.index ⟨_, hp⟩ 0 * 3200 ≤ (i 0).val ∧ (i 0).val < win2_2.index ⟨_, hp⟩ 0 * 3200 + 3200
    rw [index_msg]
    dsimp only
    omega
  | ⟨1, _⟩ =>
    show 0 * 128 ≤ (i 1).val ∧ (i 1).val < 0 * 128 + 128
    omega

section Array

variable (c : Dev nD) (W : (b : Ref sig .tc) → Buf (Elt Ideal) ((c : Thread nD τ).loc b))

/-- Word e of the source block at point n is word 3200 (n / 50) + e of the source array. -/
theorem blk_src_apply (n : ℕ) (hn : n < 12500) (e : Fin 3200) (m : Fin 800000) (hm : m.val = 3200 * (n / 50) + e.val) :
    (blk (F := Ideal) c W 0 (pt n) : S1x3200.Idx → BitVec 32) (ix2 (0 : Fin 1) e)
      = (W (Pipeline.arrRef spec2 0) : S1x800000.Idx → BitVec 32) (ix2 (0 : Fin 1) m) := by
  unfold blk
  rw [View.read_apply]
  refine congrArg (W (Pipeline.arrRef spec2 0) : S1x800000.Idx → BitVec 32) (funext fun a => Fin.ext ?_)
  match a with
  | ⟨0, _⟩ => rfl
  | ⟨1, _⟩ => show win2_0.index (pt n) 1 * 3200 + 1 * e.val = m.val; rw [index_src, pt_lt hn, hm]; omega

/-- Entry (r, k) of the node block at point n is entry (1000 (n % 50) + r, k) of the feature array. -/
theorem blk_node_apply (n : ℕ) (hn : n < 12500) (r : Fin 1000) (k : Fin 128) (p : Fin 50000) (hp : p.val = 1000 * (n % 50) + r.val) :
    (blk (F := Ideal) c W 1 (pt n) : S1000x128.Idx → EReal) (ix2 r k)
      = (W (Pipeline.arrRef spec2 1) : S50000x128.Idx → EReal) (ix2 p k) := by
  unfold blk
  rw [View.read_apply]
  refine congrArg (W (Pipeline.arrRef spec2 1) : S50000x128.Idx → EReal) (funext fun a => Fin.ext ?_)
  match a with
  | ⟨0, _⟩ => show win2_1.index (pt n) 0 * 1000 + 1 * r.val = p.val; rw [index_node, pt_lt hn, hp]; omega
  | ⟨1, _⟩ => show 0 * 128 + 1 * k.val = k.val; omega

end Array

theorem final (c : Dev nD) (W : (b : Ref sig .tc) → Buf (Elt Ideal) ((c : Thread nD τ).loc b))
    (hsrc : ∀ e : Fin 800000, 0 ≤ ((W (Pipeline.arrRef spec2 0) : S1x800000.Idx → BitVec 32) (ix2 (0 : Fin 1) e)).toInt
      ∧ ((W (Pipeline.arrRef spec2 0) : S1x800000.Idx → BitVec 32) (ix2 (0 : Fin 1) e)).toInt < 50000) :
    ((dat (F := Ideal) c W).arrAt 2 cfg2.N : S800000x128.Idx → EReal)
      = fun j => (W (Pipeline.arrRef spec2 1) : S50000x128.Idx → EReal)
          (ix2 (Cert.Gin.rowOf ((W (Pipeline.arrRef spec2 0) : S1x800000.Idx → BitVec 32) (ix2 (0 : Fin 1) (⟨(j 0).val, (j 0).isLt⟩ : Fin 800000))))
            (⟨(j 1).val, (j 1).isLt⟩ : Fin 128)) := by
  refine (dat (F := Ideal) c W).arrAt_eq_of_cover 2 (gathered (W (Pipeline.arrRef spec2 0)) (W (Pipeline.arrRef spec2 1))) (fun t hf => ?_) cover
  have h49 : t.val % 50 = 49 := by_contra fun h => Bool.false_ne_true ((no_flush t h).symm.trans hf)
  show (cfg2.win 2).cut (grid2.coords t) ((dat (F := Ideal) c W).after 2 t) = _
  rw [after_2]
  funext j
  refine acc_last (fun n => grid2.coords (pt n)) (fun n => blk (F := Ideal) c W 0 (pt n)) (fun n => blk (F := Ideal) c W 1 (pt n))
    (acc (F := Ideal) c W) _ _ (fun n hn => (coord1 (pt n)).trans (congrArg (· % 50) (pt_lt hn))) rfl (fun _ => rfl)
    (blk_src_apply c W) (blk_node_apply c W) hsrc t.val t.isLt h49 (fun a => ⟨(j a).val, (j a).isLt⟩)
    (((cfg2.win 2).blk t).view.emb j) ?_ ?_
  · show win2_2.index t 0 * 3200 + 1 * (j 0).val = 3200 * (t.val / 50) + (j 0).val
    rw [index_msg]; omega
  · show 0 * 128 + 1 * (j 1).val = (j 1).val
    omega

end Cert.KernelIdeal.R2

end
-- ==== Proof.KI.V3.lean ====
import proofs.«430694_j29257317220564_2_alg».proof.Proof.KI.R3
import proofs.«430694_j29257317220564_2_alg».proof.Proof.KI.ScatterValue

noncomputable section

open scoped BigOperators

namespace Cert.KernelIdeal.R3

open Cert.KernelIdeal Cert.KernelIdeal.Gen Cert.KernelIdeal.Scatter Cert.KernelIdeal.ScatterValue
open Idealize.ShloMosaic Idealize.ShloMosaic.TcCoe Idealize.ShloMosaic.ValueIdx
open Idealize.ShloMosaic.Pipeline (Dat Cfg Window)

/-- Entry (n, o) of the layer, computed from the five arrays the region reads. -/
def outAt (dst : S1x800000.Idx → BitVec 32) (msg : S800000x128.Idx → EReal) (x : S50000x128.Idx → EReal)
    (wt : S128x128.Idx → EReal) (b : S1x128.Idx → EReal) (n : Fin 50000) (o : Fin 128) : EReal :=
  max ((0 + ∑ k : Fin 128, (x (ix2 n k)
      + (0 + ∑ e ∈ Finset.univ.filter (fun e : Fin 800000 => (dst (ix2 (0 : Fin 1) e)).toInt = (n.val : ℤ)), msg (ix2 e k)))
      * wt (ix2 k o)) + b (ix2 (0 : Fin 1) o)) 0

theorem lt_N (t : Fin cfg3.N) : t.val < 12500 := (N_3 : grid3.N = 12500) ▸ t.isLt

/-- Point t's node block and edge block, as the words the index maps use. -/
theorem word0 (t : Fin cfg3.N) : (BitVec.ofNat 32 (grid3.coords t 0).val).toNat = t.val / 250 := by
  have := lt_N t
  rw [BitVec.toNat_ofNat, coord0 t]
  omega
theorem word1 (t : Fin cfg3.N) : (BitVec.ofNat 32 (grid3.coords t 1).val).toNat = t.val % 250 := by
  rw [BitVec.toNat_ofNat, coord1 t]
  omega

section Reads

variable (c : Dev nD) (W : (b : Ref sig .tc) → Buf (Elt Ideal) ((c : Thread nD τ).loc b))

/-- The arrays read: destination words, messages, node rows, transposed weights, bias. -/
abbrev dstW : S1x800000.Idx → BitVec 32 := W (Pipeline.arrRef spec3 0)
abbrev msgW : S800000x128.Idx → EReal := W (Pipeline.arrRef spec3 1)
abbrev rowW : S50000x128.Idx → EReal := W (Pipeline.arrRef spec3 2)
abbrev wtW : S128x128.Idx → EReal := W (Pipeline.arrRef spec3 3)
abbrev biasW : S1x128.Idx → EReal := W (Pipeline.arrRef spec3 4)

/-- Each window's block at point t, entry by entry in its array: edge blocks step by 3200, node blocks by 1000. -/
theorem blk0_apply (t : Fin cfg3.N) (y : S1x3200.Idx) (z : S1x800000.Idx) (h0 : (z 0).val = (y 0).val)
    (h1 : (z 1).val = 3200 * (t.val % 250) + (y 1).val) :
    (blk c W 0 t : Vec Ideal S1x3200 .i32) y = dstW c W z := by
  have e1 := word1 t
  exact congrArg (dstW c W) (idx2_ext _ _ (by show 0 * 1 + 1 * (y 0).val = (z 0).val; omega)
    (by show (BitVec.ofNat 32 (grid3.coords t 1).val).toNat * 3200 + 1 * (y 1).val = (z 1).val; omega))
theorem blk1_apply (t : Fin cfg3.N) (y : S3200x128.Idx) (z : S800000x128.Idx)
    (h0 : (z 0).val = 3200 * (t.val % 250) + (y 0).val) (h1 : (z 1).val = (y 1).val) :
    (blk c W 1 t : Vec Ideal S3200x128 .bf16) y = msgW c W z := by
  have e1 := word1 t
  exact congrArg (msgW c W) (idx2_ext _ _
    (by show (BitVec.ofNat 32 (grid3.coords t 1).val).toNat * 3200 + 1 * (y 0).val = (z 0).val; omega)
    (by show 0 * 128 + 1 * (y 1).val = (z 1).val; omega))
theorem blk2_apply (t : Fin cfg3.N) (y : S1000x128.Idx) (z : S50000x128.Idx)
    (h0 : (z 0).val = 1000 * (t.val / 250) + (y 0).val) (h1 : (z 1).val = (y 1).val) :
    (blk c W 2 t : Vec Ideal S1000x128 .f32) y = rowW c W z := by
  have e0 := word0 t
  exact congrArg (rowW c W) (idx2_ext _ _
    (by show (BitVec.ofNat 32 (grid3.coords t 0).val).toNat * 1000 + 1 * (y 0).val = (z 0).val; omega)
    (by show 0 * 128 + 1 * (y 1).val = (z 1).val; omega))
theorem blk3_apply (t : Fin cfg3.N) (y : S128x128.Idx) : (blk c W 3 t : Vec Ideal S128x128 .f32) y = wtW c W y :=
  congrArg (wtW c W) (idx2_ext _ _ (by show 0 * 128 + 1 * (y 0).val = (y 0).val; omega)
    (by show 0 * 128 + 1 * (y 1).val = (y 1).val; omega))
theorem blk4_apply (t : Fin cfg3.N) (y : S1x128.Idx) : (blk c W 4 t : Vec Ideal S1x128 .f32) y = biasW c W y :=
  congrArg (biasW c W) (idx2_ext _ _ (by show 0 * 1 + 1 * (y 0).val = (y 0).val; omega)
    (by show 0 * 128 + 1 * (y 1).val = (y 1).val; omega))

/-- One step at point t: restart or keep a, then add edge block t % 250 of node block t / 250. -/
theorem step_at (t : Fin cfg3.N) (a : Vec Ideal S1000x128 .f32) (n : Fin 1000) (k : Fin 128) :
    accStep (grid3.coords t) (blk c W 0 t) (blk c W 1 t) a (ix2 n k)
      = (if t.val % 250 = 0 then 0 else a (ix2 n k)) + addend (dstW c W) (msgW c W) (t.val / 250) (t.val % 250) n k := by
  have hlt := lt_N t
  refine (accStep_apply (grid3.coords t) (blk c W 0 t) (blk c W 1 t) a n k).trans ?_
  refine congr (congrArg HAdd.hAdd (if_congr (cond1_iff t) rfl rfl)) ?_
  unfold addend
  refine Finset.sum_congr rfl fun e _ => ?_
  refine congr (congrArg HMul.hMul ?_) ?_
  · rw [coord0 t, show t.val / 250 % 50 = t.val / 250 from by omega]
    exact congrArg (fun v => sel (t.val / 250) v n)
      (blk0_apply c W t (ix2 (0 : Fin 1) e) (ix2 (0 : Fin 1) (⟨3200 * (t.val % 250 % 250) + e.val, by have := e.isLt; omega⟩ : Fin 800000)) rfl
        (by show 3200 * (t.val % 250 % 250) + e.val = 3200 * (t.val % 250) + e.val; omega))
  · exact blk1_apply c W t (ix2 e k) (ix2 (⟨3200 * (t.val % 250 % 250) + e.val, by have := e.isLt; omega⟩ : Fin 800000) k)
      (by show 3200 * (t.val % 250 % 250) + e.val = 3200 * (t.val % 250) + e.val; omega) rfl

/-- The accumulator's recurrence over the points. -/
theorem acc_apply (n : Fin 1000) (k : Fin 128) (m : ℕ) (hm : m < 12500) :
    acc c W m (ix2 n k) = (if m % 250 = 0 then 0 else acc c W (m - 1) (ix2 n k))
      + addend (dstW c W) (msgW c W) (m / 250) (m % 250) n k :=
  (congrFun (acc_step c W ⟨m, Nat.lt_of_lt_of_eq hm N_3.symm⟩ (acc c W (m - 1)) fun _ => rfl).symm (ix2 n k)).trans
    (step_at c W ⟨m, Nat.lt_of_lt_of_eq hm N_3.symm⟩ _ n k)

end Reads

section Final

variable (c : Dev nD) (W : (b : Ref sig .tc) → Buf (Elt Ideal) ((c : Thread nD τ).loc b))

/-- The layer as an array. -/
def layerOut : S50000x128.Idx → EReal := fun j =>
  outAt (dstW c W) (msgW c W) (rowW c W) (wtW c W) (biasW c W) (⟨(j 0).val, (j 0).isLt⟩ : Fin 50000) (⟨(j 1).val, (j 1).isLt⟩ : Fin 128)

/-- The output block leaves at the last edge block of a node block: the next point belongs to another node block. -/
theorem flush_last (t : Fin cfg3.N) (h : t.val % 250 = 249) : (cfg3.win 5).flush t = true := by
  have hlt := lt_N t
  refine flushOf_of_ne grid3 (cfg3.win 5).indexMap t fun h' he => ?_
  have e : (BitVec.ofNat 32 (grid3.coords ⟨t.val + 1, h'⟩ 0).val).toNat = (BitVec.ofNat 32 (grid3.coords t 0).val).toNat :=
    congrFun he (0 : Fin 2)
  rw [word0, word0] at e
  have e' : (t.val + 1) / 250 = t.val / 250 := e
  omega

/-- Every output row lies in the block that leaves at the end of its node block. -/
theorem cover (i : S50000x128.Idx) :
    ∃ t : Fin cfg3.N, (cfg3.win 5).flush t = true ∧ i ∈ ((cfg3.win 5).blk t).view.set := by
  have hN : grid3.N = 12500 := N_3
  have h0 : (i 0).val < 50000 := (i 0).isLt
  have h1 : (i 1).val < 128 := (i 1).isLt
  have hb : 250 * ((i 0).val / 1000) + 249 < grid3.N := by rw [hN]; omega
  obtain ⟨t, htv⟩ : ∃ t : Fin cfg3.N, t.val = 250 * ((i 0).val / 1000) + 249 := ⟨⟨_, hb⟩, rfl⟩
  refine ⟨t, flush_last t (by rw [htv]; omega), ?_⟩
  show i ∈ ((View.whole (Pipeline.arrRef spec3 5)).slice (win3_5.rect t)).set
  rw [View.set_slice_whole, Rect.mem_set_unit]
  have e0 := word0 t
  intro a
  match a with
  | ⟨0, _⟩ =>
    show (BitVec.ofNat 32 (grid3.coords t 0).val).toNat * 1000 ≤ (i 0).val
      ∧ (i 0).val < (BitVec.ofNat 32 (grid3.coords t 0).val).toNat * 1000 + 1000
    omega
  | ⟨1, _⟩ => show 0 * 128 ≤ (i 1).val ∧ (i 1).val < 0 * 128 + 128; omega

/-- At the end of node block t / 250 the value at row j of the block is the layer at row 1000 (t / 250) + j. -/
theorem point_eq (t : Fin cfg3.N) (ht : t.val % 250 = 249) (j : S1000x128.Idx) (J : S50000x128.Idx)
    (h0 : (J 0).val = 1000 * (t.val / 250) + (j 0).val) (h1 : (J 1).val = (j 1).val) :
    pay3 (blk c W 2 t) (acc c W t.val) (blk c W 3 t) (blk c W 4 t) j = layerOut c W J := by
  obtain ⟨n, o, rfl⟩ : ∃ (n : Fin 1000) (o : Fin 128), j = ix2 n o := ⟨j 0, j 1, eq_ix2 j⟩
  have hO : (⟨(J 1).val, (J 1).isLt⟩ : Fin 128) = o := Fin.ext h1
  refine (pay3_apply (blk c W 2 t) (acc c W t.val) (blk c W 3 t) (blk c W 4 t) n o).trans ?_
  unfold layerOut outAt
  rw [hO]
  refine congrArg (fun z : EReal => max z 0) ?_
  refine congr (congrArg HAdd.hAdd ?_) (blk4_apply c W t (ix2 (0 : Fin 1) o))
  refine congrArg (fun z : EReal => 0 + z) ?_
  refine Finset.sum_congr rfl fun k _ => ?_
  refine congr (congrArg HMul.hMul ?_) (blk3_apply c W t (ix2 k o))
  refine congr (congrArg HAdd.hAdd ?_) ?_
  · exact blk2_apply c W t (ix2 n k) (ix2 (⟨(J 0).val, (J 0).isLt⟩ : Fin 50000) k) h0 rfl
  · exact acc_closed (fun m => acc c W m (ix2 n k)) (dstW c W) (msgW c W) n k (acc_apply c W n k) t.val (lt_N t) ht
      (⟨(J 0).val, (J 0).isLt⟩ : Fin 50000) (by show (J 0).val = n.val + 1000 * (t.val / 250); rw [h0]; exact Nat.add_comm _ _)

/-- What leaves at a point is the layer's block there. -/
theorem flushed_eq (t : Fin cfg3.N) (hf : (cfg3.win 5).flush t = true) :
    (dat c W).flushed 5 t = ((cfg3.win 5).blk t).view.read (Elt Ideal) (layerOut c W) := by
  have ht : t.val % 250 = 249 := by
    by_contra h
    rw [no_flush t h] at hf
    exact Bool.false_ne_true hf
  have e0 := word0 t
  show (cfg3.win 5).cut (grid3.coords t) ((dat c W).after 5 t) = _
  rw [after_5]
  funext y
  show pay3 (blk c W 2 t) (acc c W t.val) (blk c W 3 t) (blk c W 4 t) ((cfg3.win 5).xinj (grid3.coords t) y)
    = layerOut c W (((cfg3.win 5).blk t).view.emb y)
  refine point_eq c W t ht _ _ ?_ ?_
  · show (BitVec.ofNat 32 (grid3.coords t 0).val).toNat * 1000 + 1 * (y 0).val = 1000 * (t.val / 250) + (y 0).val
    omega
  · show 0 * 128 + 1 * (y 1).val = (y 1).val
    omega

end Final

/-- After all points the output array is the layer. -/
theorem final (c : Dev nD) (W : (b : Ref sig .tc) → Buf (Elt Ideal) ((c : Thread nD τ).loc b)) :
    ((dat (F := Ideal) c W).arrAt 5 cfg3.N : S50000x128.Idx → EReal)
      = fun j => outAt (W (Pipeline.arrRef spec3 0)) (W (Pipeline.arrRef spec3 1)) (W (Pipeline.arrRef spec3 2))
          (W (Pipeline.arrRef spec3 3)) (W (Pipeline.arrRef spec3 4))
          (⟨(j 0).val, (j 0).isLt⟩ : Fin 50000) (⟨(j 1).val, (j 1).isLt⟩ : Fin 128) :=
  (dat (F := Ideal) c W).arrAt_eq_of_cover 5 (layerOut c W) (flushed_eq c W) cover

end Cert.KernelIdeal.R3

end
-- ==== Proof.KI.V4.lean ====
import proofs.«430694_j29257317220564_2_alg».proof.Proof.KI.R4
import proofs.«430694_j29257317220564_2_alg».proof.Proof.KI.GatherValue

noncomputable section

namespace Cert.KernelIdeal.R4

open Cert.KernelIdeal Cert.KernelIdeal.Gen Cert.KernelIdeal.Gather Cert.KernelIdeal.GatherValue
open Idealize.ShloMosaic Idealize.ShloMosaic.TcCoe Idealize.ShloMosaic.ValueIdx

/-- At point t the source window is at block (0, t / 50), the node window at (t % 50, 0), the message window at (t / 50, 0). -/
theorem index_src (t : Fin cfg4.N) : win4_0.index t 1 = t.val / 50 := (word_coords t).1
theorem index_node (t : Fin cfg4.N) : win4_1.index t 0 = t.val % 50 := (word_coords t).2
theorem index_msg (t : Fin cfg4.N) : win4_2.index t 0 = t.val / 50 := (word_coords t).1

theorem pt_lt {n : ℕ} (hn : n < 12500) : (pt n).val = n := Nat.mod_eq_of_lt hn

theorem flush_last (t : Fin cfg4.N) (h : t.val % 50 = 49) : (cfg4.win 2).flush t = true :=
  flushOf_last (cfg4.win 2).indexMap 0 index_msg t h

theorem cover (i : S800000x128.Idx) :
    ∃ t : Fin cfg4.N, (cfg4.win 2).flush t = true ∧ i ∈ ((cfg4.win 2).blk t).view.set := by
  have h0 : (i 0).val < 800000 := (i 0).isLt
  have h1 : (i 1).val < 128 := (i 1).isLt
  have hp : 50 * ((i 0).val / 3200) + 49 < 12500 := by omega
  refine ⟨⟨_, hp⟩, flush_last _ (by show (50 * ((i 0).val / 3200) + 49) % 50 = 49; omega), ?_⟩
  show i ∈ ((View.whole (Pipeline.arrRef spec4 2)).slice (win4_2.rect ⟨_, hp⟩)).set
  rw [View.set_slice_whole, Rect.mem_set_unit]
  intro a
  match a with
  | ⟨0, _⟩ =>
    show win4_2.index ⟨_, hp⟩ 0 * 3200 ≤ (i 0).val ∧ (i 0).val < win4_2.index ⟨_, hp⟩ 0 * 3200 + 3200
    rw [index_msg]
    dsimp only
    omega
  | ⟨1, _⟩ =>
    show 0 * 128 ≤ (i 1).val ∧ (i 1).val < 0 * 128 + 128
    omega

section Array

variable (c : Dev nD) (W : (b : Ref sig .tc) → Buf (Elt Ideal) ((c : Thread nD τ).loc b))

/-- Word e of the source block at point n is word 3200 (n / 50) + e of the source array. -/
theorem blk_src_apply (n : ℕ) (hn : n < 12500) (e : Fin 3200) (m : Fin 800000) (hm : m.val = 3200 * (n / 50) + e.val) :
    (blk (F := Ideal) c W 0 (pt n) : S1x3200.Idx → BitVec 32) (ix2 (0 : Fin 1) e)
      = (W (Pipeline.arrRef spec4 0) : S1x800000.Idx → BitVec 32) (ix2 (0 : Fin 1) m) := by
  unfold blk
  rw [View.read_apply]
  refine congrArg (W (Pipeline.arrRef spec4 0) : S1x800000.Idx → BitVec 32) (funext fun a => Fin.ext ?_)
  match a with
  | ⟨0, _⟩ => rfl
  | ⟨1, _⟩ => show win4_0.index (pt n) 1 * 3200 + 1 * e.val = m.val; rw [index_src, pt_lt hn, hm]; omega

/-- Entry (r, k) of the node block at point n is entry (1000 (n % 50) + r, k) of the feature array. -/
theorem blk_node_apply (n : ℕ) (hn : n < 12500) (r : Fin 1000) (k : Fin 128) (p : Fin 50000) (hp : p.val = 1000 * (n % 50) + r.val) :
    (blk (F := Ideal) c W 1 (pt n) : S1000x128.Idx → EReal) (ix2 r k)
      = (W (Pipeline.arrRef spec4 1) : S50000x128.Idx → EReal) (ix2 p k) := by
  unfold blk
  rw [View.read_apply]
  refine congrArg (W (Pipeline.arrRef spec4 1) : S50000x128.Idx → EReal) (funext fun a => Fin.ext ?_)
  match a with
  | ⟨0, _⟩ => show win4_1.index (pt n) 0 * 1000 + 1 * r.val = p.val; rw [index_node, pt_lt hn, hp]; omega
  | ⟨1, _⟩ => show 0 * 128 + 1 * k.val = k.val; omega

end Array

theorem final (c : Dev nD) (W : (b : Ref sig .tc) → Buf (Elt Ideal) ((c : Thread nD τ).loc b))
    (hsrc : ∀ e : Fin 800000, 0 ≤ ((W (Pipeline.arrRef spec4 0) : S1x800000.Idx → BitVec 32) (ix2 (0 : Fin 1) e)).toInt
      ∧ ((W (Pipeline.arrRef spec4 0) : S1x800000.Idx → BitVec 32) (ix2 (0 : Fin 1) e)).toInt < 50000) :
    ((dat (F := Ideal) c W).arrAt 2 cfg4.N : S800000x128.Idx → EReal)
      = fun j => (W (Pipeline.arrRef spec4 1) : S50000x128.Idx → EReal)
          (ix2 (Cert.Gin.rowOf ((W (Pipeline.arrRef spec4 0) : S1x800000.Idx → BitVec 32) (ix2 (0 : Fin 1) (⟨(j 0).val, (j 0).isLt⟩ : Fin 800000))))
            (⟨(j 1).val, (j 1).isLt⟩ : Fin 128)) := by
  refine (dat (F := Ideal) c W).arrAt_eq_of_cover 2 (gathered (W (Pipeline.arrRef spec4 0)) (W (Pipeline.arrRef spec4 1))) (fun t hf => ?_) cover
  have h49 : t.val % 50 = 49 := by_contra fun h => Bool.false_ne_true ((no_flush t h).symm.trans hf)
  show (cfg4.win 2).cut (grid4.coords t) ((dat (F := Ideal) c W).after 2 t) = _
  rw [after_2]
  funext j
  refine acc_last (fun n => grid4.coords (pt n)) (fun n => blk (F := Ideal) c W 0 (pt n)) (fun n => blk (F := Ideal) c W 1 (pt n))
    (acc (F := Ideal) c W) _ _ (fun n hn => (coord1 (pt n)).trans (congrArg (· % 50) (pt_lt hn))) rfl (fun _ => rfl)
    (blk_src_apply c W) (blk_node_apply c W) hsrc t.val t.isLt h49 (fun a => ⟨(j a).val, (j a).isLt⟩)
    (((cfg4.win 2).blk t).view.emb j) ?_ ?_
  · show win4_2.index t 0 * 3200 + 1 * (j 0).val = 3200 * (t.val / 50) + (j 0).val
    rw [index_msg]; omega
  · show 0 * 128 + 1 * (j 1).val = (j 1).val
    omega

end Cert.KernelIdeal.R4

end
-- ==== Proof.KI.V5.lean ====
import proofs.«430694_j29257317220564_2_alg».proof.Proof.KI.R5
import proofs.«430694_j29257317220564_2_alg».proof.Proof.KI.ScatterValue

noncomputable section

open scoped BigOperators

namespace Cert.KernelIdeal.R5

open Cert.KernelIdeal Cert.KernelIdeal.Gen Cert.KernelIdeal.ScatterValue
open Idealize.ShloMosaic Idealize.ShloMosaic.TcCoe Idealize.ShloMosaic.ValueIdx
open Idealize.ShloMosaic.Pipeline (Dat Cfg Window)

/-- Entry (n, o) of the layer, computed from the five arrays the region reads. -/
def outAt (dst : S1x800000.Idx → BitVec 32) (msg : S800000x128.Idx → EReal) (x : S50000x128.Idx → EReal)
    (wt : S128x64.Idx → EReal) (b : S1x64.Idx → EReal) (n : Fin 50000) (o : Fin 64) : EReal :=
  max ((0 + ∑ k : Fin 128, (x (ix2 n k)
      + (0 + ∑ e ∈ Finset.univ.filter (fun e : Fin 800000 => (dst (ix2 (0 : Fin 1) e)).toInt = (n.val : ℤ)), msg (ix2 e k)))
      * wt (ix2 k o)) + b (ix2 (0 : Fin 1) o)) 0

/-- The last body's payloads, read at an index. -/
theorem pay1_at (j : S1000x128.Idx) : (k5_pay1 (F := Ideal)) j = 0 := by
  unfold k5_pay1
  rw [shapeCast_self]
  exact Ideal.ofBits_zero_f32
theorem pay2_at (i : grid5.Coords) (s : Vec Ideal S1x3200 .i32) (mg : Vec Ideal S3200x128 .bf16) (a : Vec Ideal S1000x128 .f32)
    (n : Fin 1000) (k : Fin 128) :
    k5_pay2 i s mg a (ix2 n k) = a (ix2 n k) + ∑ e : Fin 3200, sel (i 0).val (s (ix2 (0 : Fin 1) e)) n * mg (ix2 e k) := by
  unfold k5_pay2
  simp only [shapeCast_self]
  exact step_apply _ (i 0).isLt s mg a _ _ _ _ n k
theorem pay3_at (x a : Vec Ideal S1000x128 .f32) (wt : Vec Ideal S128x64 .f32) (b : Vec Ideal S1x64 .f32)
    (n : Fin 1000) (o : Fin 64) :
    k5_pay3 x a wt b (ix2 n o)
      = max ((0 + ∑ k : Fin 128, (x (ix2 n k) + a (ix2 n k)) * wt (ix2 k o)) + b (ix2 (0 : Fin 1) o)) 0 := by
  unfold k5_pay3
  simp only [shapeCast_self]
  exact out_apply _ rfl x a wt b _ _ n o

theorem lt_N (t : Fin cfg5.N) : t.val < 12500 := (N_5 : grid5.N = 12500) ▸ t.isLt

/-- Point t's node block and edge block, as the words the index maps use. -/
theorem word0 (t : Fin cfg5.N) : (BitVec.ofNat 32 (grid5.coords t 0).val).toNat = t.val / 250 := by
  have := lt_N t
  rw [BitVec.toNat_ofNat, coord0 t]
  omega
theorem word1 (t : Fin cfg5.N) : (BitVec.ofNat 32 (grid5.coords t 1).val).toNat = t.val % 250 := by
  rw [BitVec.toNat_ofNat, coord1 t]
  omega

section Reads

variable (c : Dev nD) (W : (b : Ref sig .tc) → Buf (Elt Ideal) ((c : Thread nD τ).loc b))

/-- The arrays read: destination words, messages, node rows, transposed weights, bias. -/
abbrev dstW : S1x800000.Idx → BitVec 32 := W (Pipeline.arrRef spec5 0)
abbrev msgW : S800000x128.Idx → EReal := W (Pipeline.arrRef spec5 1)
abbrev rowW : S50000x128.Idx → EReal := W (Pipeline.arrRef spec5 2)
abbrev wtW : S128x64.Idx → EReal := W (Pipeline.arrRef spec5 3)
abbrev biasW : S1x64.Idx → EReal := W (Pipeline.arrRef spec5 4)

/-- Each window's block at point t, entry by entry in its array: edge blocks step by 3200, node blocks by 1000. -/
theorem blk0_apply (t : Fin cfg5.N) (y : S1x3200.Idx) (z : S1x800000.Idx) (h0 : (z 0).val = (y 0).val)
    (h1 : (z 1).val = 3200 * (t.val % 250) + (y 1).val) :
    (blk c W 0 t : Vec Ideal S1x3200 .i32) y = dstW c W z := by
  have e1 := word1 t
  exact congrArg (dstW c W) (idx2_ext _ _ (by show 0 * 1 + 1 * (y 0).val = (z 0).val; omega)
    (by show (BitVec.ofNat 32 (grid5.coords t 1).val).toNat * 3200 + 1 * (y 1).val = (z 1).val; omega))
theorem blk1_apply (t : Fin cfg5.N) (y : S3200x128.Idx) (z : S800000x128.Idx)
    (h0 : (z 0).val = 3200 * (t.val % 250) + (y 0).val) (h1 : (z 1).val = (y 1).val) :
    (blk c W 1 t : Vec Ideal S3200x128 .bf16) y = msgW c W z := by
  have e1 := word1 t
  exact congrArg (msgW c W) (idx2_ext _ _
    (by show (BitVec.ofNat 32 (grid5.coords t 1).val).toNat * 3200 + 1 * (y 0).val = (z 0).val; omega)
    (by show 0 * 128 + 1 * (y 1).val = (z 1).val; omega))
theorem blk2_apply (t : Fin cfg5.N) (y : S1000x128.Idx) (z : S50000x128.Idx)
    (h0 : (z 0).val = 1000 * (t.val / 250) + (y 0).val) (h1 : (z 1).val = (y 1).val) :
    (blk c W 2 t : Vec Ideal S1000x128 .f32) y = rowW c W z := by
  have e0 := word0 t
  exact congrArg (rowW c W) (idx2_ext _ _
    (by show (BitVec.ofNat 32 (grid5.coords t 0).val).toNat * 1000 + 1 * (y 0).val = (z 0).val; omega)
    (by show 0 * 128 + 1 * (y 1).val = (z 1).val; omega))
theorem blk3_apply (t : Fin cfg5.N) (y : S128x64.Idx) : (blk c W 3 t : Vec Ideal S128x64 .f32) y = wtW c W y :=
  congrArg (wtW c W) (idx2_ext _ _ (by show 0 * 128 + 1 * (y 0).val = (y 0).val; omega)
    (by show 0 * 64 + 1 * (y 1).val = (y 1).val; omega))
theorem blk4_apply (t : Fin cfg5.N) (y : S1x64.Idx) : (blk c W 4 t : Vec Ideal S1x64 .f32) y = biasW c W y :=
  congrArg (biasW c W) (idx2_ext _ _ (by show 0 * 1 + 1 * (y 0).val = (y 0).val; omega)
    (by show 0 * 64 + 1 * (y 1).val = (y 1).val; omega))

theorem accStep_at (i : grid5.Coords) (s : Vec Ideal S1x3200 .i32) (mg : Vec Ideal S3200x128 .bf16) (a : Vec Ideal S1000x128 .f32)
    (n : Fin 1000) (k : Fin 128) :
    accStep i s mg a (ix2 n k)
      = (if cond1 i = 1#1 then 0 else a (ix2 n k)) + ∑ e : Fin 3200, sel (i 0).val (s (ix2 (0 : Fin 1) e)) n * mg (ix2 e k) := by
  unfold accStep
  refine (pay2_at i s mg _ n k).trans ?_
  congr 1
  split
  · exact pay1_at _
  · rfl

/-- One step at point t: restart or keep a, then add edge block t % 250 of node block t / 250. -/
theorem step_at (t : Fin cfg5.N) (a : Vec Ideal S1000x128 .f32) (n : Fin 1000) (k : Fin 128) :
    accStep (grid5.coords t) (blk c W 0 t) (blk c W 1 t) a (ix2 n k)
      = (if t.val % 250 = 0 then 0 else a (ix2 n k)) + addend (dstW c W) (msgW c W) (t.val / 250) (t.val % 250) n k := by
  have hlt := lt_N t
  refine (accStep_at (grid5.coords t) (blk c W 0 t) (blk c W 1 t) a n k).trans ?_
  refine congr (congrArg HAdd.hAdd (if_congr (cond1_iff t) rfl rfl)) ?_
  unfold addend
  refine Finset.sum_congr rfl fun e _ => ?_
  refine congr (congrArg HMul.hMul ?_) ?_
  · rw [coord0 t, show t.val / 250 % 50 = t.val / 250 from by omega]
    exact congrArg (fun v => sel (t.val / 250) v n)
      (blk0_apply c W t (ix2 (0 : Fin 1) e) (ix2 (0 : Fin 1) (⟨3200 * (t.val % 250 % 250) + e.val, by have := e.isLt; omega⟩ : Fin 800000)) rfl
        (by show 3200 * (t.val % 250 % 250) + e.val = 3200 * (t.val % 250) + e.val; omega))
  · exact blk1_apply c W t (ix2 e k) (ix2 (⟨3200 * (t.val % 250 % 250) + e.val, by have := e.isLt; omega⟩ : Fin 800000) k)
      (by show 3200 * (t.val % 250 % 250) + e.val = 3200 * (t.val % 250) + e.val; omega) rfl

/-- The accumulator's recurrence over the points. -/
theorem acc_apply (n : Fin 1000) (k : Fin 128) (m : ℕ) (hm : m < 12500) :
    acc c W m (ix2 n k) = (if m % 250 = 0 then 0 else acc c W (m - 1) (ix2 n k))
      + addend (dstW c W) (msgW c W) (m / 250) (m % 250) n k :=
  (congrFun (acc_step c W ⟨m, Nat.lt_of_lt_of_eq hm N_5.symm⟩ (acc c W (m - 1)) fun _ => rfl).symm (ix2 n k)).trans
    (step_at c W ⟨m, Nat.lt_of_lt_of_eq hm N_5.symm⟩ _ n k)

end Reads

section Final

variable (c : Dev nD) (W : (b : Ref sig .tc) → Buf (Elt Ideal) ((c : Thread nD τ).loc b))

/-- The layer as an array. -/
def layerOut : S50000x64.Idx → EReal := fun j =>
  outAt (dstW c W) (msgW c W) (rowW c W) (wtW c W) (biasW c W) (⟨(j 0).val, (j 0).isLt⟩ : Fin 50000) (⟨(j 1).val, (j 1).isLt⟩ : Fin 64)

/-- The output block leaves at the last edge block of a node block: the next point belongs to another node block. -/
theorem flush_last (t : Fin cfg5.N) (h : t.val % 250 = 249) : (cfg5.win 5).flush t = true := by
  have hlt := lt_N t
  refine flushOf_of_ne grid5 (cfg5.win 5).indexMap t fun h' he => ?_
  have e : (BitVec.ofNat 32 (grid5.coords ⟨t.val + 1, h'⟩ 0).val).toNat = (BitVec.ofNat 32 (grid5.coords t 0).val).toNat :=
    congrFun he (0 : Fin 2)
  rw [word0, word0] at e
  have e' : (t.val + 1) / 250 = t.val / 250 := e
  omega

/-- Every output row lies in the block that leaves at the end of its node block. -/
theorem cover (i : S50000x64.Idx) :
    ∃ t : Fin cfg5.N, (cfg5.win 5).flush t = true ∧ i ∈ ((cfg5.win 5).blk t).view.set := by
  have hN : grid5.N = 12500 := N_5
  have h0 : (i 0).val < 50000 := (i 0).isLt
  have h1 : (i 1).val < 64 := (i 1).isLt
  have hb : 250 * ((i 0).val / 1000) + 249 < grid5.N := by rw [hN]; omega
  obtain ⟨t, htv⟩ : ∃ t : Fin cfg5.N, t.val = 250 * ((i 0).val / 1000) + 249 := ⟨⟨_, hb⟩, rfl⟩
  refine ⟨t, flush_last t (by rw [htv]; omega), ?_⟩
  show i ∈ ((View.whole (Pipeline.arrRef spec5 5)).slice (win5_5.rect t)).set
  rw [View.set_slice_whole, Rect.mem_set_unit]
  have e0 := word0 t
  intro a
  match a with
  | ⟨0, _⟩ =>
    show (BitVec.ofNat 32 (grid5.coords t 0).val).toNat * 1000 ≤ (i 0).val
      ∧ (i 0).val < (BitVec.ofNat 32 (grid5.coords t 0).val).toNat * 1000 + 1000
    omega
  | ⟨1, _⟩ => show 0 * 64 ≤ (i 1).val ∧ (i 1).val < 0 * 64 + 64; omega

/-- At the end of node block t / 250 the value at row j of the block is the layer at row 1000 (t / 250) + j. -/
theorem point_eq (t : Fin cfg5.N) (ht : t.val % 250 = 249) (j : S1000x64.Idx) (J : S50000x64.Idx)
    (h0 : (J 0).val = 1000 * (t.val / 250) + (j 0).val) (h1 : (J 1).val = (j 1).val) :
    k5_pay3 (blk c W 2 t) (acc c W t.val) (blk c W 3 t) (blk c W 4 t) j = layerOut c W J := by
  obtain ⟨n, o, rfl⟩ : ∃ (n : Fin 1000) (o : Fin 64), j = ix2 n o := ⟨j 0, j 1, eq_ix2 j⟩
  have hO : (⟨(J 1).val, (J 1).isLt⟩ : Fin 64) = o := Fin.ext h1
  refine (pay3_at (blk c W 2 t) (acc c W t.val) (blk c W 3 t) (blk c W 4 t) n o).trans ?_
  unfold layerOut outAt
  rw [hO]
  refine congrArg (fun z : EReal => max z 0) ?_
  refine congr (congrArg HAdd.hAdd ?_) (blk4_apply c W t (ix2 (0 : Fin 1) o))
  refine congrArg (fun z : EReal => 0 + z) ?_
  refine Finset.sum_congr rfl fun k _ => ?_
  refine congr (congrArg HMul.hMul ?_) (blk3_apply c W t (ix2 k o))
  refine congr (congrArg HAdd.hAdd ?_) ?_
  · exact blk2_apply c W t (ix2 n k) (ix2 (⟨(J 0).val, (J 0).isLt⟩ : Fin 50000) k) h0 rfl
  · exact acc_closed (fun m => acc c W m (ix2 n k)) (dstW c W) (msgW c W) n k (acc_apply c W n k) t.val (lt_N t) ht
      (⟨(J 0).val, (J 0).isLt⟩ : Fin 50000) (by show (J 0).val = n.val + 1000 * (t.val / 250); rw [h0]; exact Nat.add_comm _ _)

/-- What leaves at a point is the layer's block there. -/
theorem flushed_eq (t : Fin cfg5.N) (hf : (cfg5.win 5).flush t = true) :
    (dat c W).flushed 5 t = ((cfg5.win 5).blk t).view.read (Elt Ideal) (layerOut c W) := by
  have ht : t.val % 250 = 249 := by
    by_contra h
    rw [no_flush t h] at hf
    exact Bool.false_ne_true hf
  have e0 := word0 t
  show (cfg5.win 5).cut (grid5.coords t) ((dat c W).after 5 t) = _
  rw [after_5]
  funext y
  show k5_pay3 (blk c W 2 t) (acc c W t.val) (blk c W 3 t) (blk c W 4 t) ((cfg5.win 5).xinj (grid5.coords t) y)
    = layerOut c W (((cfg5.win 5).blk t).view.emb y)
  refine point_eq c W t ht _ _ ?_ ?_
  · show (BitVec.ofNat 32 (grid5.coords t 0).val).toNat * 1000 + 1 * (y 0).val = 1000 * (t.val / 250) + (y 0).val
    omega
  · show 0 * 64 + 1 * (y 1).val = (y 1).val
    omega

end Final

/-- After all points the output array is the layer. -/
theorem final (c : Dev nD) (W : (b : Ref sig .tc) → Buf (Elt Ideal) ((c : Thread nD τ).loc b)) :
    ((dat (F := Ideal) c W).arrAt 5 cfg5.N : S50000x64.Idx → EReal)
      = fun j => outAt (W (Pipeline.arrRef spec5 0)) (W (Pipeline.arrRef spec5 1)) (W (Pipeline.arrRef spec5 2))
          (W (Pipeline.arrRef spec5 3)) (W (Pipeline.arrRef spec5 4))
          (⟨(j 0).val, (j 0).isLt⟩ : Fin 50000) (⟨(j 1).val, (j 1).isLt⟩ : Fin 64) :=
  (dat (F := Ideal) c W).arrAt_eq_of_cover 5 (layerOut c W) (flushed_eq c W) cover

end Cert.KernelIdeal.R5

end
-- ==== Proof.KI.Net.lean ====
import proofs.«430694_j29257317220564_2_alg».proof.Proof.KI.NetStages
import proofs.«430694_j29257317220564_2_alg».proof.Proof.KI.V0
import proofs.«430694_j29257317220564_2_alg».proof.Proof.KI.V1
import proofs.«430694_j29257317220564_2_alg».proof.Proof.KI.V2
import proofs.«430694_j29257317220564_2_alg».proof.Proof.KI.V3
import proofs.«430694_j29257317220564_2_alg».proof.Proof.KI.V4
import proofs.«430694_j29257317220564_2_alg».proof.Proof.KI.V5
import proofs.«430694_j29257317220564_2_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

open scoped BigOperators

namespace Cert.KernelIdeal.Net

open Cert.KernelIdeal Cert.KernelIdeal.Gen Cert.KernelIdeal.Asm
open Idealize.ShloMosaic Idealize.ShloMosaic.TcCoe Idealize.ShloMosaic.ValueIdx

theorem R1_outAt_layerAt (dstR : S1x800000.Idx → BitVec 32) (msg : S800000x128.Idx → EReal) (x : S50000x128.Idx → EReal)
    (wt : S128x128.Idx → EReal) (bR : S1x128.Idx → EReal)
    (Wt : (⟨2, ![128, 128]⟩ : Shape).Idx → EReal) (b : S128.Idx → EReal) (src dst : S800000.Idx → BitVec 32)
    (hd : ∀ e : Fin 800000, dstR (ix2 (0 : Fin 1) e) = dst (ix1 e))
    (hm : ∀ (e : Fin 800000) (k : Fin 128), msg (ix2 e k) = x (ix2 (Cert.Gin.rowOf (src (ix1 e))) k))
    (hw : ∀ (k : Fin 128) (o : Fin 128), wt (ix2 k o) = Wt (ix2 o k))
    (hb : ∀ o : Fin 128, bR (ix2 (0 : Fin 1) o) = b (ix1 o))
    (n : Fin 50000) (o : Fin 128) :
    R1.outAt dstR msg x wt bR n o = Cert.Gin.layerAt x Wt b src dst n o := by
  unfold R1.outAt Cert.Gin.layerAt Cert.Gin.agg
  simp only [hd, hm, hw, hb]

theorem R3_outAt_layerAt (dstR : S1x800000.Idx → BitVec 32) (msg : S800000x128.Idx → EReal) (x : S50000x128.Idx → EReal)
    (wt : S128x128.Idx → EReal) (bR : S1x128.Idx → EReal)
    (Wt : (⟨2, ![128, 128]⟩ : Shape).Idx → EReal) (b : S128.Idx → EReal) (src dst : S800000.Idx → BitVec 32)
    (hd : ∀ e : Fin 800000, dstR (ix2 (0 : Fin 1) e) = dst (ix1 e))
    (hm : ∀ (e : Fin 800000) (k : Fin 128), msg (ix2 e k) = x (ix2 (Cert.Gin.rowOf (src (ix1 e))) k))
    (hw : ∀ (k : Fin 128) (o : Fin 128), wt (ix2 k o) = Wt (ix2 o k))
    (hb : ∀ o : Fin 128, bR (ix2 (0 : Fin 1) o) = b (ix1 o))
    (n : Fin 50000) (o : Fin 128) :
    R3.outAt dstR msg x wt bR n o = Cert.Gin.layerAt x Wt b src dst n o := by
  unfold R3.outAt Cert.Gin.layerAt Cert.Gin.agg
  simp only [hd, hm, hw, hb]

theorem R5_outAt_layerAt (dstR : S1x800000.Idx → BitVec 32) (msg : S800000x128.Idx → EReal) (x : S50000x128.Idx → EReal)
    (wt : S128x64.Idx → EReal) (bR : S1x64.Idx → EReal)
    (Wt : (⟨2, ![64, 128]⟩ : Shape).Idx → EReal) (b : S64.Idx → EReal) (src dst : S800000.Idx → BitVec 32)
    (hd : ∀ e : Fin 800000, dstR (ix2 (0 : Fin 1) e) = dst (ix1 e))
    (hm : ∀ (e : Fin 800000) (k : Fin 128), msg (ix2 e k) = x (ix2 (Cert.Gin.rowOf (src (ix1 e))) k))
    (hw : ∀ (k : Fin 128) (o : Fin 64), wt (ix2 k o) = Wt (ix2 o k))
    (hb : ∀ o : Fin 64, bR (ix2 (0 : Fin 1) o) = b (ix1 o))
    (n : Fin 50000) (o : Fin 64) :
    R5.outAt dstR msg x wt bR n o = Cert.Gin.layerAt x Wt b src dst n o := by
  unfold R5.outAt Cert.Gin.layerAt Cert.Gin.agg
  simp only [hd, hm, hw, hb]

section Regions

variable (c : Dev nD)

theorem gather0 (W : (b : Ref sig .tc) → Buf (Elt Ideal) ((c : Thread nD τ).loc b))
    (x : S50000x128.Idx → EReal) (src : S800000.Idx → BitVec 32)
    (h0 : ∀ e : Fin 800000, (W main_v0 : S1x800000.Idx → BitVec 32) (ix2 (0 : Fin 1) e) = src (ix1 e))
    (h1 : (W main_v2 : S50000x128.Idx → EReal) = x) (hsrc : Cert.Gin.SrcInRange src) (e : Fin 800000) (k : Fin 128) :
    ((R0.dat (F := Ideal) c W).arrAt 2 cfg0.N : S800000x128.Idx → EReal) (ix2 e k)
      = x (ix2 (Cert.Gin.rowOf (src (ix1 e))) k) := by
  have hs : ∀ e : Fin 800000, 0 ≤ ((W (Pipeline.arrRef spec0 0) : S1x800000.Idx → BitVec 32) (ix2 (0 : Fin 1) e)).toInt
      ∧ ((W (Pipeline.arrRef spec0 0) : S1x800000.Idx → BitVec 32) (ix2 (0 : Fin 1) e)).toInt < 50000 := fun e => by
    have h := hsrc e
    rw [← h0 e] at h
    exact h
  rw [R0.final c W hs]
  show (W main_v2 : S50000x128.Idx → EReal) (ix2 (Cert.Gin.rowOf ((W main_v0 : S1x800000.Idx → BitVec 32) (ix2 (0 : Fin 1) e))) k) = _
  rw [h0 e, h1]

theorem gather2 (W : (b : Ref sig .tc) → Buf (Elt Ideal) ((c : Thread nD τ).loc b))
    (x : S50000x128.Idx → EReal) (src : S800000.Idx → BitVec 32)
    (h0 : ∀ e : Fin 800000, (W main_v0 : S1x800000.Idx → BitVec 32) (ix2 (0 : Fin 1) e) = src (ix1 e))
    (h1 : (W main_v7 : S50000x128.Idx → EReal) = x) (hsrc : Cert.Gin.SrcInRange src) (e : Fin 800000) (k : Fin 128) :
    ((R2.dat (F := Ideal) c W).arrAt 2 cfg2.N : S800000x128.Idx → EReal) (ix2 e k)
      = x (ix2 (Cert.Gin.rowOf (src (ix1 e))) k) := by
  have hs : ∀ e : Fin 800000, 0 ≤ ((W (Pipeline.arrRef spec2 0) : S1x800000.Idx → BitVec 32) (ix2 (0 : Fin 1) e)).toInt
      ∧ ((W (Pipeline.arrRef spec2 0) : S1x800000.Idx → BitVec 32) (ix2 (0 : Fin 1) e)).toInt < 50000 := fun e => by
    have h := hsrc e
    rw [← h0 e] at h
    exact h
  rw [R2.final c W hs]
  show (W main_v7 : S50000x128.Idx → EReal) (ix2 (Cert.Gin.rowOf ((W main_v0 : S1x800000.Idx → BitVec 32) (ix2 (0 : Fin 1) e))) k) = _
  rw [h0 e, h1]

theorem gather4 (W : (b : Ref sig .tc) → Buf (Elt Ideal) ((c : Thread nD τ).loc b))
    (x : S50000x128.Idx → EReal) (src : S800000.Idx → BitVec 32)
    (h0 : ∀ e : Fin 800000, (W main_v0 : S1x800000.Idx → BitVec 32) (ix2 (0 : Fin 1) e) = src (ix1 e))
    (h1 : (W main_v12 : S50000x128.Idx → EReal) = x) (hsrc : Cert.Gin.SrcInRange src) (e : Fin 800000) (k : Fin 128) :
    ((R4.dat (F := Ideal) c W).arrAt 2 cfg4.N : S800000x128.Idx → EReal) (ix2 e k)
      = x (ix2 (Cert.Gin.rowOf (src (ix1 e))) k) := by
  have hs : ∀ e : Fin 800000, 0 ≤ ((W (Pipeline.arrRef spec4 0) : S1x800000.Idx → BitVec 32) (ix2 (0 : Fin 1) e)).toInt
      ∧ ((W (Pipeline.arrRef spec4 0) : S1x800000.Idx → BitVec 32) (ix2 (0 : Fin 1) e)).toInt < 50000 := fun e => by
    have h := hsrc e
    rw [← h0 e] at h
    exact h
  rw [R4.final c W hs]
  show (W main_v12 : S50000x128.Idx → EReal) (ix2 (Cert.Gin.rowOf ((W main_v0 : S1x800000.Idx → BitVec 32) (ix2 (0 : Fin 1) e))) k) = _
  rw [h0 e, h1]

theorem scatter1 (W : (b : Ref sig .tc) → Buf (Elt Ideal) ((c : Thread nD τ).loc b))
    (x : S50000x128.Idx → EReal) (Wt : (⟨2, ![128, 128]⟩ : Shape).Idx → EReal) (b : S128.Idx → EReal)
    (src dst : S800000.Idx → BitVec 32)
    (hd : ∀ e : Fin 800000, (W main_v1 : S1x800000.Idx → BitVec 32) (ix2 (0 : Fin 1) e) = dst (ix1 e))
    (hm : ∀ (e : Fin 800000) (k : Fin 128), (W main_v3 : S800000x128.Idx → EReal) (ix2 e k) = x (ix2 (Cert.Gin.rowOf (src (ix1 e))) k))
    (hx : (W main_arg0 : S50000x128.Idx → EReal) = x)
    (hw : ∀ (k : Fin 128) (o : Fin 128), (W main_v4 : S128x128.Idx → EReal) (ix2 k o) = Wt (ix2 o k))
    (hb : ∀ o : Fin 128, (W main_v5 : S1x128.Idx → EReal) (ix2 (0 : Fin 1) o) = b (ix1 o)) :
    ((R1.dat (F := Ideal) c W).arrAt 5 cfg1.N : S50000x128.Idx → EReal) = Cert.Gin.layer x Wt b src dst := by
  subst hx
  rw [R1.final c W]
  funext j
  show R1.outAt (W main_v1) (W main_v3) (W main_arg0) (W main_v4) (W main_v5) (⟨(j 0).val, (j 0).isLt⟩ : Fin 50000) (⟨(j 1).val, (j 1).isLt⟩ : Fin 128)
    = Cert.Gin.layerAt (W main_arg0 : S50000x128.Idx → EReal) Wt b src dst ⟨(j 0).val, (j 0).isLt⟩ ⟨(j 1).val, (j 1).isLt⟩
  exact R1_outAt_layerAt _ _ _ _ _ Wt b src dst hd hm hw hb _ _

theorem scatter3 (W : (b : Ref sig .tc) → Buf (Elt Ideal) ((c : Thread nD τ).loc b))
    (x : S50000x128.Idx → EReal) (Wt : (⟨2, ![128, 128]⟩ : Shape).Idx → EReal) (b : S128.Idx → EReal)
    (src dst : S800000.Idx → BitVec 32)
    (hd : ∀ e : Fin 800000, (W main_v1 : S1x800000.Idx → BitVec 32) (ix2 (0 : Fin 1) e) = dst (ix1 e))
    (hm : ∀ (e : Fin 800000) (k : Fin 128), (W main_v8 : S800000x128.Idx → EReal) (ix2 e k) = x (ix2 (Cert.Gin.rowOf (src (ix1 e))) k))
    (hx : (W main_v6 : S50000x128.Idx → EReal) = x)
    (hw : ∀ (k : Fin 128) (o : Fin 128), (W main_v9 : S128x128.Idx → EReal) (ix2 k o) = Wt (ix2 o k))
    (hb : ∀ o : Fin 128, (W main_v10 : S1x128.Idx → EReal) (ix2 (0 : Fin 1) o) = b (ix1 o)) :
    ((R3.dat (F := Ideal) c W).arrAt 5 cfg3.N : S50000x128.Idx → EReal) = Cert.Gin.layer x Wt b src dst := by
  subst hx
  rw [R3.final c W]
  funext j
  show R3.outAt (W main_v1) (W main_v8) (W main_v6) (W main_v9) (W main_v10) (⟨(j 0).val, (j 0).isLt⟩ : Fin 50000) (⟨(j 1).val, (j 1).isLt⟩ : Fin 128)
    = Cert.Gin.layerAt (W main_v6 : S50000x128.Idx → EReal) Wt b src dst ⟨(j 0).val, (j 0).isLt⟩ ⟨(j 1).val, (j 1).isLt⟩
  exact R3_outAt_layerAt _ _ _ _ _ Wt b src dst hd hm hw hb _ _

theorem scatter5 (W : (b : Ref sig .tc) → Buf (Elt Ideal) ((c : Thread nD τ).loc b))
    (x : S50000x128.Idx → EReal) (Wt : (⟨2, ![64, 128]⟩ : Shape).Idx → EReal) (b : S64.Idx → EReal)
    (src dst : S800000.Idx → BitVec 32)
    (hd : ∀ e : Fin 800000, (W main_v1 : S1x800000.Idx → BitVec 32) (ix2 (0 : Fin 1) e) = dst (ix1 e))
    (hm : ∀ (e : Fin 800000) (k : Fin 128), (W main_v13 : S800000x128.Idx → EReal) (ix2 e k) = x (ix2 (Cert.Gin.rowOf (src (ix1 e))) k))
    (hx : (W main_v11 : S50000x128.Idx → EReal) = x)
    (hw : ∀ (k : Fin 128) (o : Fin 64), (W main_v14 : S128x64.Idx → EReal) (ix2 k o) = Wt (ix2 o k))
    (hb : ∀ o : Fin 64, (W main_v15 : S1x64.Idx → EReal) (ix2 (0 : Fin 1) o) = b (ix1 o)) :
    ((R5.dat (F := Ideal) c W).arrAt 5 cfg5.N : S50000x64.Idx → EReal) = Cert.Gin.layer x Wt b src dst := by
  subst hx
  rw [R5.final c W]
  funext j
  show R5.outAt (W main_v1) (W main_v13) (W main_v11) (W main_v14) (W main_v15) (⟨(j 0).val, (j 0).isLt⟩ : Fin 50000) (⟨(j 1).val, (j 1).isLt⟩ : Fin 64)
    = Cert.Gin.layerAt (W main_v11 : S50000x128.Idx → EReal) Wt b src dst ⟨(j 0).val, (j 0).isLt⟩ ⟨(j 1).val, (j 1).isLt⟩
  exact R5_outAt_layerAt _ _ _ _ _ Wt b src dst hd hm hw hb _ _

end Regions

section Layers

variable (m : (ℓ : Loc nD τ sig) → Buf (Elt Ideal) ℓ) (c : Dev nD)

abbrev X1 : S50000x128.Idx → EReal := Cert.Gin.layer (xA m c) (w1A m c) (b1A m c) (srcA m c) (dstA m c)
abbrev X2 : S50000x128.Idx → EReal := Cert.Gin.layer (X1 m c) (w2A m c) (b2A m c) (srcA m c) (dstA m c)

variable (hsrc : Cert.Gin.SrcInRange (srcA m c))
include hsrc

theorem W2_v3 (e : Fin 800000) (k : Fin 128) :
    (Asm.W2 m c (Proc.devRef .tc main_v3) : S800000x128.Idx → EReal) (ix2 e k)
      = xA m c (ix2 (Cert.Gin.rowOf (srcA m c (ix1 e))) k) :=
  (congrFun (W2_out m c) (ix2 e k)).trans
    (gather0 c (Asm.V1 m c) (xA m c) (srcA m c) (W1_v0 m c) (W1_v2 m c) hsrc e k)

theorem W4_v6 : (Asm.W4 m c (Proc.devRef .tc main_v6) : S50000x128.Idx → EReal) = X1 m c :=
  (W4_out m c).trans
    (scatter1 c (Asm.V3 m c) (xA m c) (w1A m c) (b1A m c) (srcA m c) (dstA m c) (W3_v1 m c)
      (fun e k => (congrFun (W3_v3 m c) (ix2 e k)).trans (W2_v3 m c hsrc e k)) (W3_arg0 m c) (W3_v4 m c) (W3_v5 m c))

theorem W6_v8 (e : Fin 800000) (k : Fin 128) :
    (Asm.W6 m c (Proc.devRef .tc main_v8) : S800000x128.Idx → EReal) (ix2 e k)
      = X1 m c (ix2 (Cert.Gin.rowOf (srcA m c (ix1 e))) k) :=
  (congrFun (W6_out m c) (ix2 e k)).trans
    (gather2 c (Asm.V5 m c) (X1 m c) (srcA m c) (W5_v0 m c) ((W5_v7 m c).trans (W4_v6 m c hsrc)) hsrc e k)

theorem W8_v11 : (Asm.W8 m c (Proc.devRef .tc main_v11) : S50000x128.Idx → EReal) = X2 m c :=
  (W8_out m c).trans
    (scatter3 c (Asm.V7 m c) (X1 m c) (w2A m c) (b2A m c) (srcA m c) (dstA m c) (W7_v1 m c)
      (fun e k => (congrFun (W7_v8 m c) (ix2 e k)).trans (W6_v8 m c hsrc e k)) ((W7_v6 m c).trans (W4_v6 m c hsrc))
      (W7_v9 m c) (W7_v10 m c))

theorem W10_v13 (e : Fin 800000) (k : Fin 128) :
    (Asm.W10 m c (Proc.devRef .tc main_v13) : S800000x128.Idx → EReal) (ix2 e k)
      = X2 m c (ix2 (Cert.Gin.rowOf (srcA m c (ix1 e))) k) :=
  (congrFun (W10_out m c) (ix2 e k)).trans
    (gather4 c (Asm.V9 m c) (X2 m c) (srcA m c) (W9_v0 m c) ((W9_v12 m c).trans (W8_v11 m c hsrc)) hsrc e k)

theorem R5_out : ((R5.dat (F := Ideal) c (Asm.V11 m c)).arrAt 5 cfg5.N : S50000x64.Idx → EReal)
    = Cert.Gin.layer (X2 m c) (w3A m c) (b3A m c) (srcA m c) (dstA m c) :=
  scatter5 c (Asm.V11 m c) (X2 m c) (w3A m c) (b3A m c) (srcA m c) (dstA m c) (W11_v1 m c)
    (fun e k => (congrFun (W11_v13 m c) (ix2 e k)).trans (W10_v13 m c hsrc e k)) ((W11_v11 m c).trans (W8_v11 m c hsrc))
    (W11_v14 m c) (W11_v15 m c)

end Layers

variable (m : (ℓ : Loc nD τ sig) → Buf (Elt Ideal) ℓ)

theorem kernel_net (c : Dev nD) (hsrc : Cert.Gin.SrcInRange (m ((c.tc : Thread nD τ).loc main_arg7))) :
    ((R5.dat (F := Ideal) c (V11 m c)).arrAt 5 cfg5.N : S50000x64.Idx → EReal)
      = Cert.Gin.net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) :=
  R5_out m c hsrc

end Cert.KernelIdeal.Net

end
-- ==== Proof.LibSegmentSum.lean ====
import Idealize.ShloMosaic.PureOps.Ideal
import Idealize.ShloMosaic.PureOps.Contract
import Idealize.ShloMosaic.Lib.ValueIdx
import Idealize.ShloMosaic.Lib.ValueIdxRank1
import Idealize.ShloMosaic.Lib.StableHlo.Predicate

noncomputable section

open scoped BigOperators

namespace Cert.LibSegmentSum

open Idealize.ShloMosaic Idealize.ShloMosaic.ValueIdx

section Seg1

variable {N M w : Nat} (d : ScatterDims ⟨1, ![N]⟩ ⟨2, ![M, 1]⟩ ⟨1, ![M]⟩)

theorem start_seg1 (hsd : d.scatterDimsToOperandDims = [0]) (hiv : d.indexVectorDim = 1)
    (idx : IVec ⟨2, ![M, 1]⟩ w) (e : Fin M) :
    d.start (ix1 e) idx 0 = (idx (ix2 e 0)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hiv]; simp)]
    unfold ScatterDims.siCoord
    apply Fin.ext
    simp only [Fin.val_cast]
    have one : ∀ X : Fin 1, ((ix1 e : (⟨1, ![M]⟩ : Shape).Idx) X).val = e.val := fun X => by
      obtain rfl : X = 0 := Subsingleton.elim _ _
      rfl
    exact one _
  | ⟨1, _⟩ =>
    unfold ScatterDims.siIdx
    rw [dif_pos (by rw [hiv])]
    apply Fin.ext
    show List.idxOf (0 : Fin 1) d.scatterDimsToOperandDims = 0
    rw [hsd]; simp

theorem window_seg1 (hiw : d.insertedWindowDims = [0]) (j : (⟨1, ![M]⟩ : Shape).Idx) : d.window j 0 = 0 := by
  unfold ScatterDims.window
  rw [dif_neg]
  rw [ScatterDims.sKept, hiw]
  simp [Shape.kept, List.mem_filter]

end Seg1

section Seg1Main

variable {N M w : Nat} (d : ScatterDims ⟨1, ![N]⟩ ⟨2, ![M, 1]⟩ ⟨1, ![M]⟩)

theorem resultIdx_seg1 (hiw : d.insertedWindowDims = [0]) (hsd : d.scatterDimsToOperandDims = [0]) (hiv : d.indexVectorDim = 1)
    (idx : IVec ⟨2, ![M, 1]⟩ w) (e : Fin M) (i : Fin N) :
    d.resultIdx? (ix1 e) idx = some (ix1 i) ↔ (idx (ix2 e 0)).toInt = (i.val : ℤ) := by
  have hs := start_seg1 d hsd hiv idx e
  have hw := window_seg1 d hiw (ix1 e)
  have hi := i.isLt
  constructor
  · intro h
    unfold ScatterDims.resultIdx? at h
    split at h
    · rename_i hall
      have h0 := congrArg Fin.val (congrFun (Option.some.inj h) 0)
      have hb := hall 0
      rw [hs, hw] at hb
      change (d.start (ix1 e) idx 0 + (d.window (ix1 e) 0 : ℤ)).toNat = i.val at h0
      rw [hs, hw] at h0
      omega
    · cases h
  · intro h
    have hall : ∀ a, 0 ≤ d.start (ix1 e) idx a + d.window (ix1 e) a ∧
        d.start (ix1 e) idx a + d.window (ix1 e) a < (⟨1, ![N]⟩ : Shape).size a := by
      intro a
      obtain rfl : a = 0 := Subsingleton.elim _ _
      rw [hs, hw]
      change 0 ≤ (idx (ix2 e 0)).toInt + ((0 : ℕ) : ℤ) ∧ (idx (ix2 e 0)).toInt + ((0 : ℕ) : ℤ) < (N : ℤ)
      omega
    unfold ScatterDims.resultIdx?
    rw [dif_pos hall]
    congr 1
    funext a
    obtain rfl : a = 0 := Subsingleton.elim _ _
    apply Fin.ext
    change (d.start (ix1 e) idx 0 + (d.window (ix1 e) 0 : ℤ)).toNat = i.val
    rw [hs, hw]
    omega

end Seg1Main

theorem scatterAdd_seg1 {N M w : Nat} (d : ScatterDims ⟨1, ![N]⟩ ⟨2, ![M, 1]⟩ ⟨1, ![M]⟩)
    (huw : d.updateWindowDims = []) (hiw : d.insertedWindowDims = [0]) (hsd : d.scatterDimsToOperandDims = [0]) (hiv : d.indexVectorDim = 1)
    (x : (⟨1, ![N]⟩ : Shape).Idx → EReal) (idx : IVec ⟨2, ![M, 1]⟩ w) (upd : (⟨1, ![M]⟩ : Shape).Idx → EReal) (i : Fin N) :
    Host.scatterAdd (F := Ideal) (φ := .f32) d x idx upd (ix1 i)
      = x (ix1 i) + ∑ e ∈ Finset.univ.filter (fun e : Fin M => (idx (ix2 e 0)).toInt = (i.val : ℤ)), upd (ix1 e) := by
  change x (ix1 i) + ∑ j ∈ Finset.univ.filter (fun j => d.resultIdx? j idx = some (ix1 i)), upd j = _
  congr 1
  rw [Finset.sum_filter, Finset.sum_filter, ← Equiv.sum_comp idxEquiv1.symm]
  refine Finset.sum_congr rfl fun e _ => ?_
  change (if d.resultIdx? (ix1 e) idx = some (ix1 i) then upd (ix1 e) else 0) = _
  simp only [resultIdx_seg1 d hiw hsd hiv idx e i]

theorem getElem_of_eq_singleton {α : Type} {l : List α} {a : α} (hl : l = [a]) (k : Nat) (h : k < l.length) : l[k] = a := by
  subst hl
  have hk : k = 0 := by simpa using h
  subst hk
  rfl

section Rows

variable {N M D w : Nat} (d : ScatterDims ⟨2, ![N, D]⟩ ⟨2, ![M, 1]⟩ ⟨2, ![M, D]⟩)

theorem start_rows0 (huw : d.updateWindowDims = [1]) (hsd : d.scatterDimsToOperandDims = [0]) (hiv : d.indexVectorDim = 1)
    (idx : IVec ⟨2, ![M, 1]⟩ w) (e : Fin M) (c' : Fin D) :
    d.start (ix2 e c') idx 0 = (idx (ix2 e 0)).toInt := by
  have hm : (0 : Fin 2) ∈ d.scatterDimsToOperandDims := by rw [hsd]; exact List.mem_singleton.mpr rfl
  have hus : d.uScatter = [(0 : Fin 2)] := by
    change (⟨2, ![M, D]⟩ : Shape).kept d.updateWindowDims = [0]
    rw [huw]; rfl
  unfold ScatterDims.start
  rw [dif_pos hm]
  congr 2
  funext b
  match b with
  | ⟨0, _⟩ =>
    unfold ScatterDims.siIdx
    rw [dif_neg (by rw [hiv]; simp)]
    unfold ScatterDims.siCoord
    apply Fin.ext
    simp only [Fin.val_cast]
    have row : ∀ X : Fin 2, X = 0 → ((ix2 e c' : (⟨2, ![M, D]⟩ : Shape).Idx) X).val = e.val := by
      rintro _ rfl; rfl
    exact row _ (getElem_of_eq_singleton hus _ _)
  | ⟨1, _⟩ =>
    unfold ScatterDims.siIdx
    rw [dif_pos (by rw [hiv])]
    apply Fin.ext
    show List.idxOf (0 : Fin 2) d.scatterDimsToOperandDims = 0
    rw [hsd]; simp

theorem start_rows1 (hsd : d.scatterDimsToOperandDims = [0]) (idx : IVec ⟨2, ![M, 1]⟩ w) (j : (⟨2, ![M, D]⟩ : Shape).Idx) :
    d.start j idx 1 = 0 := by
  unfold ScatterDims.start
  rw [dif_neg (by rw [hsd]; simp)]

theorem window_rows0 (hiw : d.insertedWindowDims = [0]) (j : (⟨2, ![M, D]⟩ : Shape).Idx) : d.window j 0 = 0 := by
  unfold ScatterDims.window
  rw [dif_neg]
  rw [ScatterDims.sKept, hiw]
  simp [Shape.kept, List.mem_filter]

theorem window_rows1 (huw : d.updateWindowDims = [1]) (hiw : d.insertedWindowDims = [0]) (e : Fin M) (c' : Fin D) :
    d.window (ix2 e c') 1 = c'.val := by
  have hk : (1 : Fin 2) ∈ d.sKept := by
    rw [ScatterDims.sKept, hiw]
    simp [Shape.kept, List.mem_filter]
  unfold ScatterDims.window
  rw [dif_pos hk]
  have col : ∀ X : Fin 2, X = 1 → ((ix2 e c' : (⟨2, ![M, D]⟩ : Shape).Idx) X).val = c'.val := by
    rintro _ rfl; rfl
  exact col _ (getElem_of_eq_singleton huw _ _)

end Rows

section RowsMain

variable {N M D w : Nat} (d : ScatterDims ⟨2, ![N, D]⟩ ⟨2, ![M, 1]⟩ ⟨2, ![M, D]⟩)

theorem resultIdx_rows (huw : d.updateWindowDims = [1]) (hiw : d.insertedWindowDims = [0]) (hsd : d.scatterDimsToOperandDims = [0])
    (hiv : d.indexVectorDim = 1) (idx : IVec ⟨2, ![M, 1]⟩ w) (e : Fin M) (c' : Fin D) (i : Fin N) (c : Fin D) :
    d.resultIdx? (ix2 e c') idx = some (ix2 i c) ↔ ((idx (ix2 e 0)).toInt = (i.val : ℤ) ∧ c' = c) := by
  have hs0 := start_rows0 d huw hsd hiv idx e c'
  have hs1 := start_rows1 d hsd idx (ix2 e c')
  have hw0 := window_rows0 d hiw (ix2 e c')
  have hw1 := window_rows1 d huw hiw e c'
  have hi := i.isLt
  have hc := c.isLt
  have hc' := c'.isLt
  constructor
  · intro h
    unfold ScatterDims.resultIdx? at h
    split at h
    · rename_i hall
      have hf := Option.some.inj h
      have h0 := congrArg Fin.val (congrFun hf 0)
      have h1 := congrArg Fin.val (congrFun hf 1)
      have hb := hall 0
      rw [hs0, hw0] at hb
      change (d.start (ix2 e c') idx 0 + (d.window (ix2 e c') 0 : ℤ)).toNat = i.val at h0
      change (d.start (ix2 e c') idx 1 + (d.window (ix2 e c') 1 : ℤ)).toNat = c.val at h1
      rw [hs0, hw0] at h0
      rw [hs1, hw1] at h1
      exact ⟨by omega, Fin.ext (by omega)⟩
    · cases h
  · rintro ⟨h, rfl⟩
    have hall : ∀ a, 0 ≤ d.start (ix2 e c') idx a + d.window (ix2 e c') a ∧
        d.start (ix2 e c') idx a + d.window (ix2 e c') a < (⟨2, ![N, D]⟩ : Shape).size a := by
      refine Fin.forall_fin_two.mpr ⟨?_, ?_⟩
      · rw [hs0, hw0]
        change 0 ≤ (idx (ix2 e 0)).toInt + ((0 : ℕ) : ℤ) ∧ (idx (ix2 e 0)).toInt + ((0 : ℕ) : ℤ) < (N : ℤ)
        omega
      · rw [hs1, hw1]
        change 0 ≤ (0 : ℤ) + ((c'.val : ℕ) : ℤ) ∧ (0 : ℤ) + ((c'.val : ℕ) : ℤ) < (D : ℤ)
        omega
    unfold ScatterDims.resultIdx?
    rw [dif_pos hall]
    congr 1
    funext a
    apply Fin.ext
    revert a
    refine Fin.forall_fin_two.mpr ⟨?_, ?_⟩
    · change (d.start (ix2 e c') idx 0 + (d.window (ix2 e c') 0 : ℤ)).toNat = i.val
      rw [hs0, hw0]
      omega
    · change (d.start (ix2 e c') idx 1 + (d.window (ix2 e c') 1 : ℤ)).toNat = c'.val
      rw [hs1, hw1]
      omega

end RowsMain

theorem scatterAdd_segRows {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0]) (hiv : d.indexVectorDim = 1)
    (x : (⟨2, ![N, D]⟩ : Shape).Idx → EReal) (idx : IVec ⟨2, ![M, 1]⟩ w) (upd : (⟨2, ![M, D]⟩ : Shape).Idx → EReal) (i : Fin N) (c : Fin D) :
    Host.scatterAdd (F := Ideal) (φ := .f32) d x idx upd (ix2 i c)
      = x (ix2 i c) + ∑ e ∈ Finset.univ.filter (fun e : Fin M => (idx (ix2 e 0)).toInt = (i.val : ℤ)), upd (ix2 e c) := by
  change x (ix2 i c) + ∑ j ∈ Finset.univ.filter (fun j => d.resultIdx? j idx = some (ix2 i c)), upd j = _
  congr 1
  rw [Finset.sum_filter, Finset.sum_filter, sum_idx2]
  refine Finset.sum_congr rfl fun e _ => ?_
  simp only [resultIdx_rows d huw hiw hsd hiv idx]
  by_cases hP : (idx (ix2 e 0)).toInt = (i.val : ℤ)
  · simp [hP]
  · simp [hP]

theorem ixP_eq {n : Nat} (p : Fin n) : StableHlo.Predicate.ixP p = ix2 p (0 : Fin 1) := by
  funext b; match b with | ⟨0, _⟩ => rfl | ⟨1, _⟩ => rfl

theorem ofFin_eq {n : Nat} (p : Fin n) : Shape.Idx.ofFin p = ix1 p := by
  funext b; match b with | ⟨0, _⟩ => rfl

theorem gather_seg1 {α : Type} {N M w : Nat} (d : GatherDims ⟨1, ![N]⟩ ⟨2, ![M, 1]⟩ ⟨1, ![M]⟩) (hcoll : d.collapsedSliceDims = [0]) (hob : d.operandBatchingDims = []) (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e) = x (ix1 ⟨min (idx (ix2 e 0)).toInt.toNat (N - 1), by omega⟩) := by
  have h := StableHlo.Predicate.gather_take d hcoll hob hsim hivd x idx e hN
  rw [ofFin_eq, ofFin_eq] at h
  simp only [ixP_eq] at h
  exact h

section GRows

variable {N M D w : Nat} (d : GatherDims ⟨2, ![N, D]⟩ ⟨2, ![M, 1]⟩ ⟨2, ![M, D]⟩)

theorem siIdx_rows (hoff : d.offsetDims = [1]) (hsim : d.startIndexMap = [0]) (hivd : d.indexVectorDim = 1)
    (e : Fin M) (c : Fin D) (k : Fin d.startIndexMap.length) :
    d.siIdx (ix2 e c) k = ix2 e 0 := by
  have hbd : d.batchDims = [(0 : Fin 2)] := by
    change (⟨2, ![M, D]⟩ : Shape).kept d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    have row : ∀ X : Fin 2, X = 0 → ((ix2 e c : (⟨2, ![M, D]⟩ : Shape).Idx) X).val = e.val := by
      rintro _ rfl; rfl
    exact row _ (getElem_of_eq_singleton hbd _ _)
  | ⟨1, _⟩ =>
    unfold GatherDims.siIdx
    rw [dif_pos (by rw [hivd])]
    apply Fin.ext
    show k.val = 0
    have hk : k.val < d.startIndexMap.length := k.isLt
    have hl : d.startIndexMap.length = 1 := by rw [hsim]; rfl
    omega

theorem offCoord_rows1 (hoff : d.offsetDims = [1]) (hcoll : d.collapsedSliceDims = [0]) (hob : d.operandBatchingDims = [])
    (e : Fin M) (c : Fin D) : d.offCoord (ix2 e c) 1 = c.val := by
  have hk : (1 : Fin 2) ∈ d.sKept := by rw [GatherDims.mem_sKept, hcoll, hob]; simp
  unfold GatherDims.offCoord
  rw [dif_pos hk]
  have col : ∀ X : Fin 2, X = 1 → ((ix2 e c : (⟨2, ![M, D]⟩ : Shape).Idx) X).val = c.val := by
    rintro _ rfl; rfl
  exact col _ (getElem_of_eq_singleton hoff _ _)

end GRows

theorem gather_rows {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = []) (hsb : d.startIndicesBatchingDims = [])
    (hsim : d.startIndexMap = [0]) (hivd : d.indexVectorDim = 1) (hss : d.sliceSizes = ![1, D])
    (x : (⟨2, ![N, D]⟩ : Shape).Idx → α) (idx : IVec ⟨2, ![M, 1]⟩ w) (e : Fin M) (c : Fin D) (hN : 0 < N) :
    Host.gather d x idx (ix2 e c) = x (ix2 ⟨min (idx (ix2 e 0)).toInt.toNat (N - 1), by omega⟩ c) := by
  have hb : ∀ a : Fin 2, a ∉ d.operandBatchingDims := fun a => by rw [hob]; exact List.not_mem_nil
  unfold Host.gather
  congr 1
  funext a
  apply Fin.ext
  revert a
  refine Fin.forall_fin_two.mpr ⟨?_, ?_⟩
  · -- the row axis: collapsed and named by the index, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    change d.start (ix2 e c) idx 0 + d.batchCoord (ix2 e c) 0 + d.offCoord (ix2 e c) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, siIdx_rows d hoff hsim hivd e c, hsl]
    rfl
  · -- the column axis: kept and not named by the index, so the offset coordinate alone
    have hm : (1 : Fin 2) ∉ d.startIndexMap := by rw [hsim]; simp
    change d.start (ix2 e c) idx 1 + d.batchCoord (ix2 e c) 1 + d.offCoord (ix2 e c) 1 = c.val
    rw [GatherDims.batchCoord_eq_zero _ _ _ (hb 1), offCoord_rows1 d hoff hcoll hob e c, Nat.add_zero]
    unfold GatherDims.start
    rw [dif_neg hm, Nat.zero_add]

theorem clamp_of_inRange {N : Nat} (v : BitVec 32) (h0 : 0 ≤ v.toInt) (hN : v.toInt < (N : ℤ)) :
    min v.toInt.toNat (N - 1) = v.toInt.toNat := by
  have h : v.toInt.toNat < N := by omega
  exact Nat.min_eq_left (by omega)

end Cert.LibSegmentSum

end
-- ==== Proof.RefAgg.lean ====
import proofs.«430694_j29257317220564_2_alg».proof.Proof.Spec
import proofs.«430694_j29257317220564_2_alg».proof.Proof.LibSegmentSum
import Idealize.ShloMosaic.Lib.Affine
import Idealize.ShloMosaic.Lib.ValueIdx

noncomputable section

open scoped BigOperators

namespace Cert.RefAgg

open Idealize.ShloMosaic Idealize.ShloMosaic.ValueIdx

theorem wrap_of_nonneg (v : BitVec 32) (h0 : 0 ≤ v.toInt) :
    Scalar.select (IntOp.cmpi .slt v 0#32) (IntOp.addi v 50000#32) v = v := by
  have hc : ¬ IntOp.cmpi .slt v 0#32 = 1#1 := by
    rw [IntOp.cmpi_slt, show (0#32 : BitVec 32).toInt = 0 from by decide]
    omega
  rw [eq_zero_of_ne_one hc, select_zero]

theorem scatter_gather_at
    (ds : ScatterDims ⟨2, ![50000, 128]⟩ ⟨2, ![800000, 1]⟩ ⟨2, ![800000, 128]⟩)
    (huw : ds.updateWindowDims = [1]) (hiw : ds.insertedWindowDims = [0]) (hsd : ds.scatterDimsToOperandDims = [0])
    (hiv : ds.indexVectorDim = 1)
    (dg : GatherDims ⟨2, ![50000, 128]⟩ ⟨2, ![800000, 1]⟩ ⟨2, ![800000, 128]⟩)
    (hoff : dg.offsetDims = [1]) (hcoll : dg.collapsedSliceDims = [0]) (hob : dg.operandBatchingDims = [])
    (hsb : dg.startIndicesBatchingDims = []) (hsim : dg.startIndexMap = [0]) (hivd : dg.indexVectorDim = 1)
    (hss : dg.sliceSizes = ![1, 128])
    (x z : (⟨2, ![50000, 128]⟩ : Shape).Idx → EReal) (hz : ∀ i, z i = 0)
    (srcb dstb : IVec ⟨2, ![800000, 1]⟩ 32) (src dst : (⟨1, ![800000]⟩ : Shape).Idx → BitVec 32)
    (hs : ∀ e : Fin 800000, srcb (ix2 e 0) = src (ix1 e)) (hd : ∀ e : Fin 800000, dstb (ix2 e 0) = dst (ix1 e))
    (n : Fin 50000) (k : Fin 128) :
    Host.scatterAdd (F := Ideal) (φ := .f32) ds z dstb (Host.gather dg x srcb) (ix2 n k)
      = 0 + Cert.Gin.agg x src dst n k := by
  rw [Cert.LibSegmentSum.scatterAdd_segRows ds huw hiw hsd hiv z dstb _ n k, hz]
  unfold Cert.Gin.agg
  have hf : (Finset.univ.filter fun e : Fin 800000 => (dstb (ix2 e 0)).toInt = (n.val : ℤ))
      = Finset.univ.filter (fun e : Fin 800000 => (dst (ix1 e)).toInt = (n.val : ℤ)) := by
    simp only [hd]
  rw [hf]
  refine congrArg (fun t : EReal => 0 + t) (Finset.sum_congr rfl fun e _ => ?_)
  rw [Cert.LibSegmentSum.gather_rows dg hoff hcoll hob hsb hsim hivd hss x srcb e k (by decide)]
  refine congrArg (fun r : Fin 50000 => x (ix2 r k)) (Fin.ext ?_)
  show min (srcb (ix2 e 0)).toInt.toNat (50000 - 1) = min (src (ix1 e)).toInt.toNat 49999
  rw [hs]

end Cert.RefAgg

end
-- ==== Proof.RefLayer.lean ====
import proofs.«430694_j29257317220564_2_alg».proof.Proof.Gen.ReferenceIdeal.Read
import proofs.«430694_j29257317220564_2_alg».proof.Proof.Spec
import proofs.«430694_j29257317220564_2_alg».proof.Proof.RefAgg
import Idealize.ShloMosaic.Lib.ValueIdx
import Idealize.ShloMosaic.PureOps.Ideal.Laws

noncomputable section

open scoped BigOperators

namespace Cert.RefLayer

open Cert.ReferenceIdeal Cert.ReferenceIdeal.Gen Cert.ReferenceIdeal.Read
open Idealize.ShloMosaic Idealize.ShloMosaic.ValueIdx

theorem wrapped_src (x7 : (⟨S800000, .i32⟩ : BufTy).Contents (Elt Ideal)) (hsrc : Cert.Gin.SrcInRange x7) (e : Fin 800000) :
    val_main_v4 (F := Ideal) x7 (ix1 e) = x7 (ix1 e) := by
  rw [val_main_v4_apply, val_main_v1_apply, val_main_v3_apply, val_main_v0_apply, val_main_c_apply, val_main_v2_apply,
    val_main_c_0_apply]
  exact Cert.RefAgg.wrap_of_nonneg _ (hsrc e).1

theorem aggregate_at (x : (⟨S50000x128, .f32⟩ : BufTy).Contents (Elt Ideal))
    (x7 x8 : (⟨S800000, .i32⟩ : BufTy).Contents (Elt Ideal)) (hsrc : Cert.Gin.SrcInRange x7) (n : Fin 50000) (k : Fin 128) :
    val_main_v9 (F := Ideal) x x7 x8 (ix2 n k) = 0 + Cert.Gin.agg x x7 x8 n k := by
  unfold val_main_v9 val_main_v6
  exact Cert.RefAgg.scatter_gather_at scatter_S50000x128_S800000x1_S800000x128_1_0_0_1 rfl rfl rfl rfl
    gather_S50000x128_S800000x1_S800000x128_1_0_n_n_0_1_1128 rfl rfl rfl rfl rfl rfl rfl
    x (val_main_v7 (F := Ideal))
    (fun i => by rw [val_main_v7_apply, val_main_cst_apply]; exact Ideal.ofBits_zero_f32)
    (val_main_v5 (F := Ideal) x7) (val_main_v8 (F := Ideal) x8) x7 x8
    (fun e => by
      rw [val_main_v5_apply, show idx_main_v5 (ix2 e 0) = ix1 e from funext fun a => match a with | ⟨0, _⟩ => rfl]
      exact wrapped_src x7 hsrc e)
    (fun e => by
      rw [val_main_v8_apply, show idx_main_v8 (ix2 e 0) = ix1 e from funext fun a => match a with | ⟨0, _⟩ => rfl])
    n k

theorem layer128_at (x : (⟨S50000x128, .f32⟩ : BufTy).Contents (Elt Ideal)) (W : (⟨S128x128, .f32⟩ : BufTy).Contents (Elt Ideal))
    (b : (⟨S128, .f32⟩ : BufTy).Contents (Elt Ideal)) (x7 x8 : (⟨S800000, .i32⟩ : BufTy).Contents (Elt Ideal))
    (hsrc : Cert.Gin.SrcInRange x7) (n : Fin 50000) (o : Fin 128) :
    val_main_v16 (F := Ideal) x W b x7 x8 (ix2 n o) = Cert.Gin.layerAt (Do := 128) x W b x7 x8 n o := by
  rw [val_main_v16_apply, val_main_v15_apply, val_main_v12_apply, val_main_v14_apply, val_main_v13_apply,
    val_main_call0_v0_apply, val_main_call0_cst_apply]
  unfold Cert.Gin.layerAt
  have hb : idx_main_v13 (idx_main_v14 (ix2 n o)) = ix1 o := funext fun a => match a with | ⟨0, _⟩ => rfl
  have hl : ∀ k : Fin 128, lidx_main_v12 (ix2 n o) k = ix2 n k := fun k =>
    funext fun a => match a with | ⟨0, _⟩ => rfl | ⟨1, _⟩ => rfl
  have hr : ∀ k : Fin 128, idx_main_v11 (ridx_main_v12 (ix2 n o) k) = ix2 o k := fun k =>
    funext fun a => match a with | ⟨0, _⟩ => rfl | ⟨1, _⟩ => rfl
  simp only [hb, hl, val_main_v11_apply, hr, val_main_v10_apply, aggregate_at _ _ _ hsrc]
  rw [zero_add]
  exact congrArg (fun t : EReal => max _ t) Ideal.ofBits_zero_f32

theorem layer128_eq (x : (⟨S50000x128, .f32⟩ : BufTy).Contents (Elt Ideal)) (W : (⟨S128x128, .f32⟩ : BufTy).Contents (Elt Ideal))
    (b : (⟨S128, .f32⟩ : BufTy).Contents (Elt Ideal)) (x7 x8 : (⟨S800000, .i32⟩ : BufTy).Contents (Elt Ideal))
    (hsrc : Cert.Gin.SrcInRange x7) :
    val_main_v16 (F := Ideal) x W b x7 x8 = Cert.Gin.layer (Do := 128) x W b x7 x8 := by
  funext j
  obtain ⟨n, o, rfl⟩ : ∃ (n : Fin 50000) (o : Fin 128), j = ix2 n o := ⟨j 0, j 1, eq_ix2 j⟩
  exact layer128_at x W b x7 x8 hsrc n o

theorem second_stage (x0 : (⟨S50000x128, .f32⟩ : BufTy).Contents (Elt Ideal))
    (x1 : (⟨S128x128, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal))
    (x7 x8 : (⟨S800000, .i32⟩ : BufTy).Contents (Elt Ideal)) :
    val_main_v33 (F := Ideal) x0 x1 x2 x3 x4 x7 x8
      = val_main_v16 (F := Ideal) (val_main_v16 (F := Ideal) x0 x1 x2 x7 x8) x3 x4 x7 x8 := rfl

theorem third_aggregate (x0 : (⟨S50000x128, .f32⟩ : BufTy).Contents (Elt Ideal))
    (x1 : (⟨S128x128, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal))
    (x7 x8 : (⟨S800000, .i32⟩ : BufTy).Contents (Elt Ideal)) :
    val_main_v43 (F := Ideal) x0 x1 x2 x3 x4 x7 x8
      = val_main_v9 (F := Ideal) (val_main_v33 (F := Ideal) x0 x1 x2 x3 x4 x7 x8) x7 x8 := rfl

theorem layer64_at (x0 : (⟨S50000x128, .f32⟩ : BufTy).Contents (Elt Ideal))
    (x1 : (⟨S128x128, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal))
    (x5 : (⟨S64x128, .f32⟩ : BufTy).Contents (Elt Ideal)) (x6 : (⟨S64, .f32⟩ : BufTy).Contents (Elt Ideal))
    (x7 x8 : (⟨S800000, .i32⟩ : BufTy).Contents (Elt Ideal)) (hsrc : Cert.Gin.SrcInRange x7) (n : Fin 50000) (o : Fin 64) :
    val_main_v50 (F := Ideal) x0 x1 x2 x3 x4 x5 x6 x7 x8 (ix2 n o)
      = Cert.Gin.layerAt (Do := 64) (val_main_v33 (F := Ideal) x0 x1 x2 x3 x4 x7 x8) x5 x6 x7 x8 n o := by
  rw [val_main_v50_apply, val_main_v49_apply, val_main_v46_apply, val_main_v48_apply, val_main_v47_apply,
    val_main_call2_v0_apply, val_main_call2_cst_apply]
  unfold Cert.Gin.layerAt
  have hb : idx_main_v47 (idx_main_v48 (ix2 n o)) = ix1 o := funext fun a => match a with | ⟨0, _⟩ => rfl
  have hl : ∀ k : Fin 128, lidx_main_v46 (ix2 n o) k = ix2 n k := fun k =>
    funext fun a => match a with | ⟨0, _⟩ => rfl | ⟨1, _⟩ => rfl
  have hr : ∀ k : Fin 128, idx_main_v45 (ridx_main_v46 (ix2 n o) k) = ix2 o k := fun k =>
    funext fun a => match a with | ⟨0, _⟩ => rfl | ⟨1, _⟩ => rfl
  simp only [hb, hl, val_main_v45_apply, hr, val_main_v44_apply, third_aggregate, aggregate_at _ _ _ hsrc]
  rw [zero_add]
  exact congrArg (fun t : EReal => max _ t) Ideal.ofBits_zero_f32

theorem net_eq (x0 : (⟨S50000x128, .f32⟩ : BufTy).Contents (Elt Ideal))
    (x1 : (⟨S128x128, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal))
    (x5 : (⟨S64x128, .f32⟩ : BufTy).Contents (Elt Ideal)) (x6 : (⟨S64, .f32⟩ : BufTy).Contents (Elt Ideal))
    (x7 x8 : (⟨S800000, .i32⟩ : BufTy).Contents (Elt Ideal)) (hsrc : Cert.Gin.SrcInRange x7) :
    val_main_v50 (F := Ideal) x0 x1 x2 x3 x4 x5 x6 x7 x8 = Cert.Gin.net x0 x1 x2 x3 x4 x5 x6 x7 x8 := by
  have h1 := layer128_eq x0 x1 x2 x7 x8 hsrc
  have h2 : val_main_v33 (F := Ideal) x0 x1 x2 x3 x4 x7 x8
      = Cert.Gin.layer (Do := 128) (Cert.Gin.layer (Do := 128) x0 x1 x2 x7 x8) x3 x4 x7 x8 := by
    rw [second_stage, h1]
    exact layer128_eq _ x3 x4 x7 x8 hsrc
  unfold Cert.Gin.net
  rw [← h2]
  funext j
  obtain ⟨n, o, rfl⟩ : ∃ (n : Fin 50000) (o : Fin 64), j = ix2 n o := ⟨j 0, j 1, eq_ix2 j⟩
  exact layer64_at x0 x1 x2 x3 x4 x5 x6 x7 x8 hsrc n o

end Cert.RefLayer

end
-- ==== Proof.RefSide.lean ====
import proofs.«430694_j29257317220564_2_alg».proof.Defs
import proofs.«430694_j29257317220564_2_alg».proof.Proof.Gen.ReferenceIdeal.Run
import proofs.«430694_j29257317220564_2_alg».proof.Proof.Gen.ReferenceIdeal.Read
import proofs.«430694_j29257317220564_2_alg».proof.Proof.Spec
import proofs.«430694_j29257317220564_2_alg».proof.Proof.RefLayer
import Idealize.ShloMosaic.Lib.ValueIdx
import Idealize.ShloMosaic.PureOps.Ideal.Laws

noncomputable section

open Idealize.ShloMosaic Idealize.ShloMosaic.TcCoe Idealize.SL.Sem

namespace Cert.RefSide

open Cert.ReferenceIdeal

theorem run (m : (ℓ : Loc nD τ sig) → Buf (Elt Ideal) ℓ) (ρ : Dev nD → PrngReg)
    (hsrc : ∀ c : Dev nD, Cert.Gin.SrcInRange (m ((c.tc : Thread nD τ).loc main_arg7))) :
    θ_run (defs (F := Ideal)) (onTc (τ := τ) (main (F := Ideal))) ⟨m, fun _ => 0, ρ⟩ (fun r => ∀ c : Dev nD,
      r.2.mem ((c.tc : Thread nD τ).loc main_v50)
          = Cert.Gin.net (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run (defs (F := Ideal)) _ _).mono (fun r h c => ?_) (Cert.ReferenceIdeal.Value.run (F := Ideal) m ρ)
  refine ⟨?_, (h c).2⟩
  rw [(h c).1, Cert.ReferenceIdeal.Read.val_main_v50_eq]
  exact Cert.RefLayer.net_eq _ _ _ _ _ _ _ _ _ (hsrc c)

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun _ h c => (h c).2) (Cert.ReferenceIdeal.Value.run (F := Ideal) m ρ)

end Cert.RefSide

end
-- ==== Proof.PreSrc.lean ====
import proofs.«430694_j29257317220564_2_alg».proof.Defs
import proofs.«430694_j29257317220564_2_alg».proof.Proof.Spec
import Idealize.ShloMosaic.Lib.StableHlo.Predicate
import Idealize.ShloMosaic.Lib.ReduceAll
import Idealize.ShloMosaic.Lib.ValueIdx

noncomputable section

namespace Cert.PreSrc

open Idealize.ShloMosaic Idealize.ShloMosaic.ValueIdx Idealize.SL.Sem
open Cert.Pre_finite_inputs

instance : Subsingleton S_.Idx := ⟨fun a b => funext fun d => d.elim0⟩

theorem src_of_part2 {F : FTy → Type} [FloatOps F] [Facts] (a7 : IVec S800000 32) (v33 : IVec S_ 1)
    (h : fn_part2 (F := F) a7 v33 ix0 = 1#1) : Cert.Gin.SrcInRange a7 := by
  intro e
  dsimp only [fn_part2] at h
  have hall := (IntOp.andi_eq_one.1 h).2
  have he := Host.reduce_andi_all _ _ _ _ _ hall (ix1 e)
  obtain ⟨hge, hlt⟩ := IntOp.andi_eq_one.1 he
  have hge' : (0#32 : BitVec 32).toInt ≤ (a7 (ix1 e)).toInt := IntOp.cmpi_sge.1 hge
  have hlt' : (a7 (ix1 e)).toInt < (50000#32 : BitVec 32).toInt := IntOp.cmpi_slt.1 hlt
  rw [show (0#32 : BitVec 32).toInt = 0 from by decide] at hge'
  rw [show (50000#32 : BitVec 32).toInt = 50000 from by decide] at hlt'
  exact ⟨hge', hlt'⟩

theorem src_of_fn {F : FTy → Type} [FloatOps F] [Facts]
    (a0 : FVec F S50000x128 .f32) (a1 : FVec F S128x128 .f32) (a2 : FVec F S128 .f32) (a3 : FVec F S128x128 .f32)
    (a4 : FVec F S128 .f32) (a5 : FVec F S64x128 .f32) (a6 : FVec F S64 .f32) (a7 : IVec S800000 32) (a8 : IVec S800000 32)
    (h : fn (F := F) a0 a1 a2 a3 a4 a5 a6 a7 a8 = (fun _ => 1#1)) : Cert.Gin.SrcInRange a7 := by
  have e := congrFun h ix0
  dsimp only [fn, fn_part1] at e
  exact src_of_part2 (F := F) a7 _ e

theorem src_KernelIdeal [Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Gin.SrcInRange (m ((c.tc : Thread Cert.KernelIdeal.nD Cert.KernelIdeal.τ).loc Cert.KernelIdeal.main_arg7)) :=
  src_of_fn _ _ _ _ _ _ _ _ _ (h c)

end Cert.PreSrc

end
-- ==== Proof.lean ====
import proofs.«430694_j29257317220564_2_alg».proof.Defs
import proofs.«430694_j29257317220564_2_alg».proof.Proof.Gen.Kernel
import proofs.«430694_j29257317220564_2_alg».proof.Proof.Gen.KernelIdeal
import proofs.«430694_j29257317220564_2_alg».proof.Proof.Gen.ReferenceIdeal
import proofs.«430694_j29257317220564_2_alg».proof.Proof.Gen.Pre_finite_inputs
import proofs.«430694_j29257317220564_2_alg».proof.Proof.K.Run
import proofs.«430694_j29257317220564_2_alg».proof.Proof.KI.Run
import proofs.«430694_j29257317220564_2_alg».proof.Proof.KI.Net
import proofs.«430694_j29257317220564_2_alg».proof.Proof.RefSide
import proofs.«430694_j29257317220564_2_alg».proof.Proof.PreSrc

noncomputable section

namespace Cert.Proof

open Idealize.ShloMosaic Idealize.SL.Sem

theorem frame_k : Cert.frame_Kernel := fun m ρ _ => Cert.Kernel.Asm.frame (F := Bits) m ρ

theorem frame_ki : Cert.frame_KernelIdeal := fun m ρ _ => Cert.KernelIdeal.Asm.frame (F := Ideal) m ρ

theorem frame_ri : Cert.frame_ReferenceIdeal := fun m ρ _ => Cert.RefSide.frame m ρ

theorem algebraic : Cert.algebraic_KernelIdeal_ReferenceIdeal := by
  intro m ρ m' ρ' hpre hagree
  have hs : ∀ c : Dev Cert.KernelIdeal.nD, Cert.Gin.SrcInRange (m ((c.tc : Thread Cert.KernelIdeal.nD Cert.KernelIdeal.τ).loc Cert.KernelIdeal.main_arg7)) :=
    fun c => Cert.PreSrc.src_KernelIdeal m hpre c
  have hs' : ∀ c : Dev Cert.ReferenceIdeal.nD, Cert.Gin.SrcInRange (m' ((c.tc : Thread Cert.ReferenceIdeal.nD Cert.ReferenceIdeal.τ).loc Cert.ReferenceIdeal.main_arg7)) :=
    fun c => by rw [(hagree c).2.2.2.2.2.2.2.1]; exact hs c
  refine ⟨fun c => Cert.Gin.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run (Cert.KernelIdeal.defs (F := Ideal)) _ _).mono
      (fun r h c => ⟨(h c).1.trans (Cert.KernelIdeal.Net.kernel_net m c (hs c)), (h c).2⟩)
      (Cert.KernelIdeal.Asm.run_result (F := Ideal) m ρ)
  · refine (θ_run (Cert.ReferenceIdeal.defs (F := Ideal)) _ _).mono (fun r h c => ⟨(h c).1.trans ?_, (h c).2⟩)
      (Cert.RefSide.run m' ρ' hs')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
